-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S256x4096 .f32 .bf16
  ∧ IdealRules.truncf_extf.Statement Cert.KernelIdeal.S4096x128 .f32 .bf16
  ∧ IdealRules.truncf_extf.Statement Cert.KernelIdeal.S256x4096 .f32 .bf16
  ∧ IdealRules.truncf_extf.Statement Cert.KernelIdeal.S4096x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S384x128 : Shape := ⟨2, ![384, 128]⟩
abbrev S384 : Shape := ⟨1, ![384]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S2x131072 : S_.BroadcastsInDim S2x131072 (![] : Fin 0 → Fin S2x131072.rank)
  reducesTo_S2x131072_S_d0_1 : S2x131072.ReducesTo [0, 1] S_

variable [Facts]

def fn_part4 {F : FTy → Type} [FloatOps F] (main_v63 : IVec S_ 1) (main_v65 : IVec S2x131072 1) (main_v67 : IVec S2x131072 1) : IVec S_ 1 :=
  let main_v68 : IVec S2x131072 1 := andi main_v65 main_v67
  let main_c_26 : IVec S_ 1 := constantI S_ 1 1#1
  let main_v69 : IVec S_ 1 := (fun x v => Host.reduce IntOp.andi x v reducesTo_S2x131072_S_d0_1 h_S_) main_v68 main_c_26
  let main_v70 : IVec S_ 1 := andi main_v63 main_v69
  main_v70

def fn_part3 {F : FTy → Type} [FloatOps F] (main_arg1 : IVec S2x131072 32) (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2x131072 32 := broadcastInDim S2x131072 ![] bcast_S_S2x131072 main_c_24
  let main_v65 : IVec S2x131072 1 := cmpi .sge main_arg1 main_v64
  let main_c_25 : IVec S_ 32 := constantI S_ 32 4096#32
  let main_v66 : IVec S2x131072 32 := broadcastInDim S2x131072 ![] bcast_S_S2x131072 main_c_25
  let main_v67 : IVec S2x131072 1 := cmpi .slt main_arg1 main_v66
  fn_part4 (F := F) main_v63 main_v65 main_v67

def fn_part2 {F : FTy → Type} [FloatOps F] (main_arg1 : IVec S2x131072 32) (main_arg8 : FVec F S384x128 .f32) (main_arg9 : FVec F S384 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x131072 32) (main_arg5 : FVec F S128 .f32) (main_arg6 : FVec F S128x64 .f32) (main_arg7 : FVec F S64 .f32) (main_arg8 : FVec F S384x128 .f32) (main_arg9 : FVec F S384 .f32) (main_arg10 : FVec F S128x128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S4096x128 .f32) (main_arg1 : IVec S2x131072 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S384x128 .f32) (main_arg9 : FVec F S384 .f32) (main_arg10 : FVec F S128x128 .f32) (main_arg11 : FVec F S128 .f32) (main_arg12 : FVec F S128x64 .f32) (main_arg13 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S384x128 : Shape := ⟨2, ![384, 128]⟩
abbrev S384 : Shape := ⟨1, ![384]⟩
abbrev S1x131072 : Shape := ⟨2, ![1, 131072]⟩
abbrev S131072 : Shape := ⟨1, ![131072]⟩
abbrev S4096 : Shape := ⟨1, ![4096]⟩
abbrev S135168 : Shape := ⟨1, ![135168]⟩
abbrev S_ : Shape := ⟨0, ![]⟩
abbrev S135168x1 : Shape := ⟨2, ![135168, 1]⟩
abbrev S4096x4096 : Shape := ⟨2, ![4096, 4096]⟩
abbrev S135168x2 : Shape := ⟨2, ![135168, 2]⟩
abbrev S1x128 : Shape := ⟨2, ![1, 128]⟩
abbrev S2048x128 : Shape := ⟨2, ![2048, 128]⟩
abbrev S256x4096 : Shape := ⟨2, ![256, 4096]⟩
abbrev S256x128 : Shape := ⟨2, ![256, 128]⟩
abbrev S1x64 : Shape := ⟨2, ![1, 64]⟩
abbrev S4096x64 : Shape := ⟨2, ![4096, 64]⟩
abbrev S256x64 : Shape := ⟨2, ![256, 64]⟩
abbrev S128x384 : Shape := ⟨2, ![128, 384]⟩
abbrev S1x384 : Shape := ⟨2, ![1, 384]⟩
abbrev S4096x384 : Shape := ⟨2, ![4096, 384]⟩
abbrev S2048x384 : Shape := ⟨2, ![2048, 384]⟩
abbrev S4096x8x16 : Shape := ⟨3, ![4096, 8, 16]⟩
abbrev S8x4096x16 : Shape := ⟨3, ![8, 4096, 16]⟩
abbrev S8x512x16 : Shape := ⟨3, ![8, 512, 16]⟩
abbrev S8x512x1 : Shape := ⟨3, ![8, 512, 1]⟩
abbrev S8x512x512 : Shape := ⟨3, ![8, 512, 512]⟩
abbrev S8x512 : Shape := ⟨2, ![8, 512]⟩
abbrev S2048x64 : Shape := ⟨2, ![2048, 64]⟩

abbrev nBuf : Space → Nat
  | .hbm => 106
  | .vmem => 53
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S384x128, .f32⟩
  | .hbm, ⟨9, _⟩ => ⟨S384, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S4096, .i32⟩
  | .hbm, ⟨19, _⟩ => ⟨S135168, .i32⟩
  | .hbm, ⟨20, _⟩ => ⟨S135168, .i32⟩
  | .hbm, ⟨21, _⟩ => ⟨S_, .f32⟩
  | .hbm, ⟨22, _⟩ => ⟨S135168, .f32⟩
  | .hbm, ⟨23, _⟩ => ⟨S_, .f32⟩
  | .hbm, ⟨24, _⟩ => ⟨S4096, .f32⟩
  | .hbm, ⟨25, _⟩ => ⟨S135168x1, .i32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .i1⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .i32⟩
  | .hbm, ⟨36, _⟩ => ⟨S135168, .i32⟩
  | .hbm, ⟨37, _⟩ => ⟨S135168, .i1⟩
  | .hbm, ⟨38, _⟩ => ⟨S_, .i32⟩
  | .hbm, ⟨39, _⟩ => ⟨S135168, .i32⟩
  | .hbm, ⟨40, _⟩ => ⟨S135168, .i32⟩
  | .hbm, ⟨41, _⟩ => ⟨S135168, .i32⟩
  | .hbm, ⟨42, _⟩ => ⟨S135168x1, .i32⟩
  | .hbm, ⟨43, _⟩ => ⟨S135168, .f32⟩
  | .hbm, ⟨44, _⟩ => ⟨S_, .i32⟩
  | .hbm, ⟨45, _⟩ => ⟨S135168, .i32⟩
  | .hbm, ⟨46, _⟩ => ⟨S135168, .i1⟩
  | .hbm, ⟨47, _⟩ => ⟨S_, .i32⟩
  | .hbm, ⟨48, _⟩ => ⟨S135168, .i32⟩
  | .hbm, ⟨49, _⟩ => ⟨S135168, .i32⟩
  | .hbm, ⟨50, _⟩ => ⟨S135168, .i32⟩
  | .hbm, ⟨51, _⟩ => ⟨S135168x1, .i32⟩
  | .hbm, ⟨52, _⟩ => ⟨S135168, .f32⟩
  | .hbm, ⟨53, _⟩ => ⟨S135168, .f32⟩
  | .hbm, ⟨54, _⟩ => ⟨S_, .f32⟩
  | .hbm, ⟨55, _⟩ => ⟨S4096x4096, .f32⟩
  | .hbm, ⟨56, _⟩ => ⟨S_, .i32⟩
  | .hbm, ⟨57, _⟩ => ⟨S135168, .i32⟩
  | .hbm, ⟨58, _⟩ => ⟨S135168, .i1⟩
  | .hbm, ⟨59, _⟩ => ⟨S_, .i32⟩
  | .hbm, ⟨60, _⟩ => ⟨S135168, .i32⟩
  | .hbm, ⟨61, _⟩ => ⟨S135168, .i32⟩
  | .hbm, ⟨62, _⟩ => ⟨S135168, .i32⟩
  | .hbm, ⟨63, _⟩ => ⟨S_, .i32⟩
  | .hbm, ⟨64, _⟩ => ⟨S135168, .i32⟩
  | .hbm, ⟨65, _⟩ => ⟨S135168, .i1⟩
  | .hbm, ⟨66, _⟩ => ⟨S_, .i32⟩
  | .hbm, ⟨67, _⟩ => ⟨S135168, .i32⟩
  | .hbm, ⟨68, _⟩ => ⟨S135168, .i32⟩
  | .hbm, ⟨69, _⟩ => ⟨S135168, .i32⟩
  | .hbm, ⟨70, _⟩ => ⟨S135168x1, .i32⟩
  | .hbm, ⟨71, _⟩ => ⟨S135168x1, .i32⟩
  | .hbm, ⟨72, _⟩ => ⟨S135168x2, .i32⟩
  | .hbm, ⟨73, _⟩ => ⟨S4096x4096, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S4096x128, .f32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S4096x128, .f32⟩
  | .hbm, ⟨83, _⟩ => ⟨S1x128, .f32⟩
  | .hbm, ⟨84, _⟩ => ⟨S1x64, .f32⟩
  | .hbm, ⟨85, _⟩ => ⟨S4096x64, .f32⟩
  | .hbm, ⟨86, _⟩ => ⟨S128x384, .f32⟩
  | .hbm, ⟨87, _⟩ => ⟨S1x384, .f32⟩
  | .hbm, ⟨88, _⟩ => ⟨S4096x384, .bf16⟩
  | .hbm, ⟨89, _⟩ => ⟨S4096x128, .bf16⟩
  | .hbm, ⟨90, _⟩ => ⟨S4096x128, .bf16⟩
  | .hbm, ⟨91, _⟩ => ⟨S4096x128, .bf16⟩
  | .hbm, ⟨92, _⟩ => ⟨S4096x8x16, .bf16⟩
  | .hbm, ⟨93, _⟩ => ⟨S8x4096x16, .bf16⟩
  | .hbm, ⟨94, _⟩ => ⟨S4096x8x16, .bf16⟩
  | .hbm, ⟨95, _⟩ => ⟨S8x4096x16, .bf16⟩
  | .hbm, ⟨96, _⟩ => ⟨S4096x8x16, .bf16⟩
  | .hbm, ⟨97, _⟩ => ⟨S8x4096x16, .bf16⟩
  | .hbm, ⟨98, _⟩ => ⟨S8x4096x16, .bf16⟩
  | .hbm, ⟨99, _⟩ => ⟨S4096x8x16, .bf16⟩
  | .hbm, ⟨100, _⟩ => ⟨S4096x128, .bf16⟩
  | .hbm, ⟨101, _⟩ => ⟨S128x128, .f32⟩
  | .hbm, ⟨102, _⟩ => ⟨S1x128, .f32⟩
  | .hbm, ⟨103, _⟩ => ⟨S1x64, .f32⟩
  | .hbm, ⟨104, _⟩ => ⟨S4096x64, .f32⟩
  | .hbm, ⟨105, _⟩ => ⟨S4096x64, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S256x4096, .f32⟩
  | .local _ .vmem, ⟨7, _⟩ => ⟨S256x4096, .f32⟩
  | .local _ .vmem, ⟨8, _⟩ => ⟨S4096x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x4096, .f32⟩
  | .local _ .vmem, ⟨15, _⟩ => ⟨S256x4096, .f32⟩
  | .local _ .vmem, ⟨16, _⟩ => ⟨S4096x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S256x64, .f32⟩
  | .local _ .vmem, ⟨21, _⟩ => ⟨S256x64, .f32⟩
  | .local _ .vmem, ⟨22, _⟩ => ⟨S2048x128, .f32⟩
  | .local _ .vmem, ⟨23, _⟩ => ⟨S2048x128, .f32⟩
  | .local _ .vmem, ⟨24, _⟩ => ⟨S128x384, .f32⟩
  | .local _ .vmem, ⟨25, _⟩ => ⟨S1x384, .f32⟩
  | .local _ .vmem, ⟨26, _⟩ => ⟨S2048x384, .bf16⟩
  | .local _ .vmem, ⟨27, _⟩ => ⟨S2048x384, .bf16⟩
  | .local _ .vmem, ⟨28, _⟩ => ⟨S8x512x16, .bf16⟩
  | .local _ .vmem, ⟨29, _⟩ => ⟨S8x512x16, .bf16⟩
  | .local _ .vmem, ⟨30, _⟩ => ⟨S8x512x16, .bf16⟩
  | .local _ .vmem, ⟨31, _⟩ => ⟨S8x512x16, .bf16⟩
  | .local _ .vmem, ⟨32, _⟩ => ⟨S8x512x16, .bf16⟩
  | .local _ .vmem, ⟨33, _⟩ => ⟨S8x512x16, .bf16⟩
  | .local _ .vmem, ⟨34, _⟩ => ⟨S8x512x16, .bf16⟩
  | .local _ .vmem, ⟨35, _⟩ => ⟨S8x512x16, .bf16⟩
  | .local _ .vmem, ⟨36, _⟩ => ⟨S8x512x1, .f32⟩
  | .local _ .vmem, ⟨37, _⟩ => ⟨S8x512x1, .f32⟩
  | .local _ .vmem, ⟨38, _⟩ => ⟨S8x512x16, .f32⟩
  | .local _ .vmem, ⟨39, _⟩ => ⟨S2048x128, .bf16⟩
  | .local _ .vmem, ⟨40, _⟩ => ⟨S2048x128, .bf16⟩
  | .local _ .vmem, ⟨41, _⟩ => ⟨S128x128, .f32⟩
  | .local _ .vmem, ⟨42, _⟩ => ⟨S1x128, .f32⟩
  | .local _ .vmem, ⟨43, _⟩ => ⟨S128x64, .f32⟩
  | .local _ .vmem, ⟨44, _⟩ => ⟨S1x64, .f32⟩
  | .local _ .vmem, ⟨45, _⟩ => ⟨S2048x64, .f32⟩
  | .local _ .vmem, ⟨46, _⟩ => ⟨S2048x64, .f32⟩
  | .local _ .vmem, ⟨47, _⟩ => ⟨S2048x64, .f32⟩
  | .local _ .vmem, ⟨48, _⟩ => ⟨S2048x64, .f32⟩
  | .local _ .vmem, ⟨49, _⟩ => ⟨S2048x64, .f32⟩
  | .local _ .vmem, ⟨50, _⟩ => ⟨S2048x64, .f32⟩
  | .local _ .vmem, ⟨51, _⟩ => ⟨S2048x64, .f32⟩
  | .local _ .vmem, ⟨52, _⟩ => ⟨S2048x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc4_scratch1 : Ref sig .tc := ⟨.vmem, 37, rfl⟩
abbrev cc4_scratch2 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg5_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg2_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x384 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S8x512x16 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8x512x16 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S8x512x16 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8x512x16 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  concatenates_S131072_S4096_S135168_d0 : Shape.Concatenates [S131072, S4096] S135168 0
  bcast_S_S135168 : S_.BroadcastsInDim S135168 (![] : Fin 0 → Fin S135168.rank)
  bcast_S_S4096 : S_.BroadcastsInDim S4096 (![] : Fin 0 → Fin S4096.rank)
  bcast_S135168_S135168x1_0 : S135168.BroadcastsInDim S135168x1 (![0] : Fin 1 → Fin S135168x1.rank)
  bcast_S_S4096x4096 : S_.BroadcastsInDim S4096x4096 (![] : Fin 0 → Fin S4096x4096.rank)
  concatenates_S135168x1_S135168x1_S135168x2_d1 : Shape.Concatenates [S135168x1, S135168x1] S135168x2 1
  bcast_S_S128 : S_.BroadcastsInDim S128 (![] : Fin 0 → Fin S128.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  transposes_S384x128_S128x384_1_0 : S384x128.Transposes [1, 0] S128x384
  shapeCasts_S384_S1x384 : S384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  inb_S2048x384_S2048x384_0_0 : ∀ a, (![0, 0] : Fin 2 → Nat) a + S2048x384.size a ≤ S2048x384.size a
  h_S2048x384 : 0 < S2048x384.numel
  packedbf16_S2048x384_S2048x384_0_0 : (Rect.unit (s := S2048x384) ![0, 0] S2048x384.size inb_S2048x384_S2048x384_0_0).PackedRows (EltTy.packing .bf16)
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  shapeCasts_S4096x128_S4096x8x16 : S4096x128.ShapeCasts S4096x8x16
  transposes_S4096x8x16_S8x4096x16_1_0_2 : S4096x8x16.Transposes [1, 0, 2] S8x4096x16
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x16_S8x512x16_0_0_0 : ∀ a, (![0, 0, 0] : Fin 3 → Nat) a + S8x512x16.size a ≤ S8x512x16.size a
  h_S8x512x16 : 0 < S8x512x16.numel
  shapeCasts_S8x512x16_S8x512x16 : S8x512x16.ShapeCasts S8x512x16
  reduces_S8x512x512_S8x512 : S8x512x512.Reduces [2] S8x512
  shapeCasts_S8x512_S8x512x1 : S8x512.ShapeCasts S8x512x1
  broadcasts_S8x512x1_S8x512x512 : S8x512x1.Broadcasts S8x512x512
  broadcasts_S8x512x1_S8x512x16 : S8x512x1.Broadcasts S8x512x16
  packedbf16_S8x512x16_S8x512x16_0_0_0 : (Rect.unit (s := S8x512x16) ![0, 0, 0] S8x512x16.size inb_S8x512x16_S8x512x16_0_0_0).PackedRows (EltTy.packing .bf16)
  transposes_S8x4096x16_S4096x8x16_1_0_2 : S8x4096x16.Transposes [1, 0, 2] S4096x8x16
  shapeCasts_S4096x8x16_S4096x128 : S4096x8x16.ShapeCasts S4096x128
  transposes_S128x128_S128x128_1_0 : S128x128.Transposes [1, 0] S128x128
  shapeCasts_S2048x128_S2048x128 : S2048x128.ShapeCasts S2048x128
  shapeCasts_S128x128_S128x128 : S128x128.ShapeCasts S128x128
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  scatter_S4096_S135168x1_S135168_n_0_0_1_wf : ScatterDims.WF S4096 S135168x1 S135168 [] [0] [0] 1
  gather_S4096_S135168x1_S135168_n_0_n_n_0_1_1_wf : GatherDims.WF S4096 S135168x1 S135168 [] [0] [] [0] [] 1 ![1]
  scatter_S4096x4096_S135168x2_S135168_n_01_01_1_wf : ScatterDims.WF S4096x4096 S135168x2 S135168 [] [0, 1] [0, 1] 1
  dot_S2048x128_S128x128_S2048x128_1_0_0_1_n_n_wf : DotDims.WF S2048x128 S128x128 S2048x128 [1] [0] [0] [1] [] []
  dot_S256x4096_S4096x128_S256x128_1_0_0_1_n_n_wf : DotDims.WF S256x4096 S4096x128 S256x128 [1] [0] [0] [1] [] []
  dot_S256x128_S128x128_S256x128_1_0_0_1_n_n_wf : DotDims.WF S256x128 S128x128 S256x128 [1] [0] [0] [1] [] []
  dot_S256x128_S128x64_S256x64_1_0_0_1_n_n_wf : DotDims.WF S256x128 S128x64 S256x64 [1] [0] [0] [1] [] []
  dot_S2048x128_S128x384_S2048x384_1_0_0_1_n_n_wf : DotDims.WF S2048x128 S128x384 S2048x384 [1] [0] [0] [1] [] []
  dot_S8x512x16_S8x512x16_S8x512x512_2_2_1_1_0_0_wf : DotDims.WF S8x512x16 S8x512x16 S8x512x512 [2] [2] [1] [1] [0] [0]
  dot_S8x512x512_S8x512x16_S8x512x16_2_1_1_2_0_0_wf : DotDims.WF S8x512x512 S8x512x16 S8x512x16 [2] [1] [1] [2] [0] [0]
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S4096x128.size a
  hwx0_0 : ∀ i : grid0.Coords, EltTy.bits .f32 = 32 ∨ (Rect.block (s := S4096x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S4096x128.size a
  hwx0_3 : ∀ i : grid0.Coords, EltTy.bits .f32 = 32 ∨ (Rect.block (s := S4096x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S4096x128.size a
  hwx1_5 : ∀ i : grid1.Coords, EltTy.bits .f32 = 32 ∨ (Rect.block (s := S4096x128) S256x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x64.size a ≤ S4096x64.size a
  hwx2_5 : ∀ i : grid2.Coords, EltTy.bits .f32 = 32 ∨ (Rect.block (s := S4096x64) S256x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S4096x128.size a
  hwx3_0 : ∀ i : grid3.Coords, EltTy.bits .f32 = 32 ∨ (Rect.block (s := S4096x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x384.size a ≤ S128x384.size a
  hwx3_1 : ∀ i : grid3.Coords, EltTy.bits .f32 = 32 ∨ (Rect.block (s := S128x384) S128x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x384.size a ≤ S4096x384.size a
  hwx3_3 : ∀ i : grid3.Coords, EltTy.bits .bf16 = 32 ∨ (Rect.block (s := S4096x384) S2048x384.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x512x16.size a ≤ S8x4096x16.size a
  hwx4_0 : ∀ i : grid4.Coords, EltTy.bits .bf16 = 32 ∨ (Rect.block (s := S8x4096x16) S8x512x16.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x512x16.size a ≤ S8x4096x16.size a
  hwx4_1 : ∀ i : grid4.Coords, EltTy.bits .bf16 = 32 ∨ (Rect.block (s := S8x4096x16) S8x512x16.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x512x16.size a ≤ S8x4096x16.size a
  hwx4_2 : ∀ i : grid4.Coords, EltTy.bits .bf16 = 32 ∨ (Rect.block (s := S8x4096x16) S8x512x16.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x512x16.size a ≤ S8x4096x16.size a
  hwx4_3 : ∀ i : grid4.Coords, EltTy.bits .bf16 = 32 ∨ (Rect.block (s := S8x4096x16) S8x512x16.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S4096x128.size a
  hwx5_0 : ∀ i : grid5.Coords, EltTy.bits .bf16 = 32 ∨ (Rect.block (s := S4096x128) S2048x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x64.size a ≤ S4096x64.size a
  hwx5_5 : ∀ i : grid5.Coords, EltTy.bits .f32 = 32 ∨ (Rect.block (s := S4096x64) S2048x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S4096x64.size a
  hwx6_0 : ∀ i : grid6.Coords, EltTy.bits .f32 = 32 ∨ (Rect.block (s := S4096x64) S2048x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S4096x64.size a
  hwx6_1 : ∀ i : grid6.Coords, EltTy.bits .f32 = 32 ∨ (Rect.block (s := S4096x64) S2048x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x64.size a ≤ S4096x64.size a
  hwx6_2 : ∀ i : grid6.Coords, EltTy.bits .f32 = 32 ∨ (Rect.block (s := S4096x64) S2048x64.size (cc6_transform_2 i) (hinb6_2 i)).WholeWords (EltTy.packing .f32)

variable [Facts₀]

def scatter_S4096_S135168x1_S135168_n_0_0_1 : ScatterDims S4096 S135168x1 S135168 where
  updateWindowDims := []
  insertedWindowDims := [0]
  scatterDimsToOperandDims := [0]
  indexVectorDim := 1
  wf := scatter_S4096_S135168x1_S135168_n_0_0_1_wf
def gather_S4096_S135168x1_S135168_n_0_n_n_0_1_1 : GatherDims S4096 S135168x1 S135168 where
  offsetDims := []
  collapsedSliceDims := [0]
  operandBatchingDims := []
  startIndicesBatchingDims := []
  startIndexMap := [0]
  indexVectorDim := 1
  sliceSizes := ![1]
  wf := gather_S4096_S135168x1_S135168_n_0_n_n_0_1_1_wf
def scatter_S4096x4096_S135168x2_S135168_n_01_01_1 : ScatterDims S4096x4096 S135168x2 S135168 where
  updateWindowDims := []
  insertedWindowDims := [0, 1]
  scatterDimsToOperandDims := [0, 1]
  indexVectorDim := 1
  wf := scatter_S4096x4096_S135168x2_S135168_n_01_01_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S8x512x16_S8x512x16_S8x512x512_2_2_1_1_0_0 : DotDims S8x512x16 S8x512x16 S8x512x512 where
  lhsContracting := [2]
  rhsContracting := [2]
  lhsNonContracting := [1]
  rhsNonContracting := [1]
  lhsBatch := [0]
  rhsBatch := [0]
  wf := dot_S8x512x16_S8x512x16_S8x512x512_2_2_1_1_0_0_wf
def dot_S8x512x512_S8x512x16_S8x512x16_2_1_1_2_0_0 : DotDims S8x512x512 S8x512x16 S8x512x16 where
  lhsContracting := [2]
  rhsContracting := [1]
  lhsNonContracting := [1]
  rhsNonContracting := [2]
  lhsBatch := [0]
  rhsBatch := [0]
  wf := dot_S8x512x512_S8x512x16_S8x512x16_2_1_1_2_0_0_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S256x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S256x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2048x384.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S8x512x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S8x512x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S8x512x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67) S8x512x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v69) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v73) S2048x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v54) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S2048x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S2048x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S384x128 : Shape := ⟨2, ![384, 128]⟩
abbrev S384 : Shape := ⟨1, ![384]⟩
abbrev S1x131072 : Shape := ⟨2, ![1, 131072]⟩
abbrev S131072 : Shape := ⟨1, ![131072]⟩
abbrev S4096 : Shape := ⟨1, ![4096]⟩
abbrev S135168 : Shape := ⟨1, ![135168]⟩
abbrev S_ : Shape := ⟨0, ![]⟩
abbrev S135168x1 : Shape := ⟨2, ![135168, 1]⟩
abbrev S135168x128 : Shape := ⟨2, ![135168, 128]⟩
abbrev S1x128 : Shape := ⟨2, ![1, 128]⟩
abbrev S4096x64 : Shape := ⟨2, ![4096, 64]⟩
abbrev S1x64 : Shape := ⟨2, ![1, 64]⟩
abbrev S128x384 : Shape := ⟨2, ![128, 384]⟩
abbrev S4096x384 : Shape := ⟨2, ![4096, 384]⟩
abbrev S1x384 : Shape := ⟨2, ![1, 384]⟩
abbrev S4096x8x16 : Shape := ⟨3, ![4096, 8, 16]⟩
abbrev S8x4096x16 : Shape := ⟨3, ![8, 4096, 16]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 189
  | .vmem => 0
  | .smem => 0
  | _ => 0

abbrev hbmTy0_0 (i : Nat) : BufTy := match i % 128 with
  | 0 => ⟨S4096x128, .f32⟩
  | 1 => ⟨S2x131072, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S384x128, .f32⟩
  | 9 => ⟨S384, .f32⟩
  | 10 => ⟨S128x128, .f32⟩
  | 11 => ⟨S128, .f32⟩
  | 12 => ⟨S128x64, .f32⟩
  | 13 => ⟨S64, .f32⟩
  | 14 => ⟨S1x131072, .i32⟩
  | 15 => ⟨S131072, .i32⟩
  | 16 => ⟨S1x131072, .i32⟩
  | 17 => ⟨S131072, .i32⟩
  | 18 => ⟨S4096, .i32⟩
  | 19 => ⟨S135168, .i32⟩
  | 20 => ⟨S135168, .i32⟩
  | 21 => ⟨S_, .f32⟩
  | 22 => ⟨S135168, .f32⟩
  | 23 => ⟨S_, .f32⟩
  | 24 => ⟨S4096, .f32⟩
  | 25 => ⟨S135168x1, .i32⟩
  | 26 => ⟨S4096, .f32⟩
  | 27 => ⟨S_, .f32⟩
  | 28 => ⟨S4096, .f32⟩
  | 29 => ⟨S4096, .i1⟩
  | 30 => ⟨S4096, .f32⟩
  | 31 => ⟨S_, .f32⟩
  | 32 => ⟨S_, .f32⟩
  | 33 => ⟨S4096, .f32⟩
  | 34 => ⟨S4096, .f32⟩
  | 35 => ⟨S_, .i32⟩
  | 36 => ⟨S135168, .i32⟩
  | 37 => ⟨S135168, .i1⟩
  | 38 => ⟨S_, .i32⟩
  | 39 => ⟨S135168, .i32⟩
  | 40 => ⟨S135168, .i32⟩
  | 41 => ⟨S135168, .i32⟩
  | 42 => ⟨S135168x1, .i32⟩
  | 43 => ⟨S135168, .f32⟩
  | 44 => ⟨S_, .i32⟩
  | 45 => ⟨S135168, .i32⟩
  | 46 => ⟨S135168, .i1⟩
  | 47 => ⟨S_, .i32⟩
  | 48 => ⟨S135168, .i32⟩
  | 49 => ⟨S135168, .i32⟩
  | 50 => ⟨S135168, .i32⟩
  | 51 => ⟨S135168x1, .i32⟩
  | 52 => ⟨S135168, .f32⟩
  | 53 => ⟨S135168, .f32⟩
  | 54 => ⟨S4096x128, .f32⟩
  | 55 => ⟨S_, .i32⟩
  | 56 => ⟨S135168, .i32⟩
  | 57 => ⟨S135168, .i1⟩
  | 58 => ⟨S_, .i32⟩
  | 59 => ⟨S135168, .i32⟩
  | 60 => ⟨S135168, .i32⟩
  | 61 => ⟨S135168, .i32⟩
  | 62 => ⟨S135168x1, .i32⟩
  | 63 => ⟨S135168x128, .f32⟩
  | 64 => ⟨S135168x1, .f32⟩
  | 65 => ⟨S135168x128, .f32⟩
  | 66 => ⟨S135168x128, .f32⟩
  | 67 => ⟨S_, .f32⟩
  | 68 => ⟨S4096x128, .f32⟩
  | 69 => ⟨S135168x1, .i32⟩
  | 70 => ⟨S4096x128, .f32⟩
  | 71 => ⟨S1x128, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096, .i32⟩
  | 78 => ⟨S135168, .i32⟩
  | 79 => ⟨S135168, .i32⟩
  | 80 => ⟨S_, .f32⟩
  | 81 => ⟨S135168, .f32⟩
  | 82 => ⟨S_, .f32⟩
  | 83 => ⟨S4096, .f32⟩
  | 84 => ⟨S135168x1, .i32⟩
  | 85 => ⟨S4096, .f32⟩
  | 86 => ⟨S_, .f32⟩
  | 87 => ⟨S4096, .f32⟩
  | 88 => ⟨S4096, .i1⟩
  | 89 => ⟨S4096, .f32⟩
  | 90 => ⟨S_, .f32⟩
  | 91 => ⟨S_, .f32⟩
  | 92 => ⟨S4096, .f32⟩
  | 93 => ⟨S4096, .f32⟩
  | 94 => ⟨S_, .i32⟩
  | 95 => ⟨S135168, .i32⟩
  | 96 => ⟨S135168, .i1⟩
  | 97 => ⟨S_, .i32⟩
  | 98 => ⟨S135168, .i32⟩
  | 99 => ⟨S135168, .i32⟩
  | 100 => ⟨S135168, .i32⟩
  | 101 => ⟨S135168x1, .i32⟩
  | 102 => ⟨S135168, .f32⟩
  | 103 => ⟨S_, .i32⟩
  | 104 => ⟨S135168, .i32⟩
  | 105 => ⟨S135168, .i1⟩
  | 106 => ⟨S_, .i32⟩
  | 107 => ⟨S135168, .i32⟩
  | 108 => ⟨S135168, .i32⟩
  | 109 => ⟨S135168, .i32⟩
  | 110 => ⟨S135168x1, .i32⟩
  | 111 => ⟨S135168, .f32⟩
  | 112 => ⟨S135168, .f32⟩
  | 113 => ⟨S4096x128, .f32⟩
  | 114 => ⟨S_, .i32⟩
  | 115 => ⟨S135168, .i32⟩
  | 116 => ⟨S135168, .i1⟩
  | 117 => ⟨S_, .i32⟩
  | 118 => ⟨S135168, .i32⟩
  | 119 => ⟨S135168, .i32⟩
  | 120 => ⟨S135168, .i32⟩
  | 121 => ⟨S135168x1, .i32⟩
  | 122 => ⟨S135168x128, .f32⟩
  | 123 => ⟨S135168x1, .f32⟩
  | 124 => ⟨S135168x128, .f32⟩
  | 125 => ⟨S135168x128, .f32⟩
  | 126 => ⟨S_, .f32⟩
  | 127 => ⟨S4096x128, .f32⟩
  | _ => ⟨S4096x128, .f32⟩

abbrev hbmTy0_1 (i : Nat) : BufTy := match i % 128 with
  | 0 => ⟨S135168x1, .i32⟩
  | 1 => ⟨S4096x128, .f32⟩
  | 2 => ⟨S1x128, .f32⟩
  | 3 => ⟨S4096x128, .f32⟩
  | 4 => ⟨S4096x128, .f32⟩
  | 5 => ⟨S_, .f32⟩
  | 6 => ⟨S4096x128, .f32⟩
  | 7 => ⟨S4096x128, .f32⟩
  | 8 => ⟨S4096x64, .f32⟩
  | 9 => ⟨S1x64, .f32⟩
  | 10 => ⟨S4096x64, .f32⟩
  | 11 => ⟨S4096x64, .f32⟩
  | 12 => ⟨S128x384, .f32⟩
  | 13 => ⟨S4096x384, .f32⟩
  | 14 => ⟨S1x384, .f32⟩
  | 15 => ⟨S4096x384, .f32⟩
  | 16 => ⟨S4096x384, .f32⟩
  | 17 => ⟨S4096x128, .f32⟩
  | 18 => ⟨S4096x128, .f32⟩
  | 19 => ⟨S4096x128, .f32⟩
  | 20 => ⟨S4096x8x16, .f32⟩
  | 21 => ⟨S8x4096x16, .f32⟩
  | 22 => ⟨S4096x8x16, .f32⟩
  | 23 => ⟨S8x4096x16, .f32⟩
  | 24 => ⟨S4096x8x16, .f32⟩
  | 25 => ⟨S8x4096x16, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096, .f32⟩
  | 33 => ⟨S_, .f32⟩
  | 34 => ⟨S8x4096, .f32⟩
  | 35 => ⟨S8x4096, .f32⟩
  | 36 => ⟨S8x4096x1, .f32⟩
  | 37 => ⟨S8x4096x4096, .f32⟩
  | 38 => ⟨S8x4096x4096, .f32⟩
  | 39 => ⟨S8x4096x4096, .f32⟩
  | 40 => ⟨S_, .f32⟩
  | 41 => ⟨S8x4096, .f32⟩
  | 42 => ⟨S8x4096x1, .f32⟩
  | 43 => ⟨S8x4096x4096, .f32⟩
  | 44 => ⟨S8x4096x4096, .f32⟩
  | 45 => ⟨S8x4096x16, .f32⟩
  | 46 => ⟨S4096x8x16, .f32⟩
  | 47 => ⟨S4096x128, .f32⟩
  | 48 => ⟨S128x128, .f32⟩
  | 49 => ⟨S4096x128, .f32⟩
  | 50 => ⟨S1x128, .f32⟩
  | 51 => ⟨S4096x128, .f32⟩
  | 52 => ⟨S4096x128, .f32⟩
  | 53 => ⟨S4096x64, .f32⟩
  | 54 => ⟨S1x64, .f32⟩
  | 55 => ⟨S4096x64, .f32⟩
  | 56 => ⟨S4096x64, .f32⟩
  | 57 => ⟨S4096x64, .f32⟩
  | 58 => ⟨S_, .f32⟩
  | 59 => ⟨S4096x64, .f32⟩
  | 60 => ⟨S4096x64, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_c_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call3_cst : Ref sig .tc := ⟨.hbm, 133, rfl⟩
abbrev main_call3_v0 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_20 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_21 : Ref sig .tc := ⟨.hbm, 159, rfl⟩
abbrev main_v114 : Ref sig .tc := ⟨.hbm, 160, rfl⟩
abbrev main_cst_22 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_23 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_call4_cst : Ref sig .tc := ⟨.hbm, 186, rfl⟩
abbrev main_call4_v0 : Ref sig .tc := ⟨.hbm, 187, rfl⟩
abbrev main_v138 : Ref sig .tc := ⟨.hbm, 188, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  concatenates_S131072_S4096_S135168_d0 : Shape.Concatenates [S131072, S4096] S135168 0
  bcast_S_S135168 : S_.BroadcastsInDim S135168 (![] : Fin 0 → Fin S135168.rank)
  bcast_S_S4096 : S_.BroadcastsInDim S4096 (![] : Fin 0 → Fin S4096.rank)
  bcast_S135168_S135168x1_0 : S135168.BroadcastsInDim S135168x1 (![0] : Fin 1 → Fin S135168x1.rank)
  bcast_S135168x1_S135168x128_0_1 : S135168x1.BroadcastsInDim S135168x128 (![0, 1] : Fin 2 → Fin S135168x128.rank)
  bcast_S_S4096x128 : S_.BroadcastsInDim S4096x128 (![] : Fin 0 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S384x128_S128x384_1_0 : S384x128.Transposes [1, 0] S128x384
  bcast_S384_S1x384_1 : S384.BroadcastsInDim S1x384 (![1] : Fin 1 → Fin S1x384.rank)
  bcast_S1x384_S4096x384_0_1 : S1x384.BroadcastsInDim S4096x384 (![0, 1] : Fin 2 → Fin S4096x384.rank)
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  shapeCasts_S4096x128_S4096x8x16 : S4096x128.ShapeCasts S4096x8x16
  transposes_S4096x8x16_S8x4096x16_1_0_2 : S4096x8x16.Transposes [1, 0, 2] S8x4096x16
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x16_S4096x8x16_1_0_2 : S8x4096x16.Transposes [1, 0, 2] S4096x8x16
  shapeCasts_S4096x8x16_S4096x128 : S4096x8x16.ShapeCasts S4096x128
  transposes_S128x128_S128x128_1_0 : S128x128.Transposes [1, 0] S128x128
  bcast_S_S4096x64 : S_.BroadcastsInDim S4096x64 (![] : Fin 0 → Fin S4096x64.rank)
  scatter_S4096_S135168x1_S135168_n_0_0_1_wf : ScatterDims.WF S4096 S135168x1 S135168 [] [0] [0] 1
  gather_S4096_S135168x1_S135168_n_0_n_n_0_1_1_wf : GatherDims.WF S4096 S135168x1 S135168 [] [0] [] [0] [] 1 ![1]
  dot_S4096x128_S128x128_S4096x128_1_0_0_1_n_n_wf : DotDims.WF S4096x128 S128x128 S4096x128 [1] [0] [0] [1] [] []
  gather_S4096x128_S135168x1_S135168x128_1_0_n_n_0_1_1128_wf : GatherDims.WF S4096x128 S135168x1 S135168x128 [1] [0] [] [0] [] 1 ![1, 128]
  scatter_S4096x128_S135168x1_S135168x128_1_0_0_1_wf : ScatterDims.WF S4096x128 S135168x1 S135168x128 [1] [0] [0] 1
  dot_S4096x128_S128x64_S4096x64_1_0_0_1_n_n_wf : DotDims.WF S4096x128 S128x64 S4096x64 [1] [0] [0] [1] [] []
  dot_S4096x128_S128x384_S4096x384_1_0_0_1_n_n_wf : DotDims.WF S4096x128 S128x384 S4096x384 [1] [0] [0] [1] [] []
  dot_S8x4096x16_S8x4096x16_S8x4096x4096_2_2_1_1_0_0_wf : DotDims.WF S8x4096x16 S8x4096x16 S8x4096x4096 [2] [2] [1] [1] [0] [0]
  dot_S8x4096x4096_S8x4096x16_S8x4096x16_2_1_1_2_0_0_wf : DotDims.WF S8x4096x4096 S8x4096x16 S8x4096x16 [2] [1] [1] [2] [0] [0]

variable [Facts₀]

def scatter_S4096_S135168x1_S135168_n_0_0_1 : ScatterDims S4096 S135168x1 S135168 where
  updateWindowDims := []
  insertedWindowDims := [0]
  scatterDimsToOperandDims := [0]
  indexVectorDim := 1
  wf := scatter_S4096_S135168x1_S135168_n_0_0_1_wf
def gather_S4096_S135168x1_S135168_n_0_n_n_0_1_1 : GatherDims S4096 S135168x1 S135168 where
  offsetDims := []
  collapsedSliceDims := [0]
  operandBatchingDims := []
  startIndicesBatchingDims := []
  startIndexMap := [0]
  indexVectorDim := 1
  sliceSizes := ![1]
  wf := gather_S4096_S135168x1_S135168_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S4096x128_S135168x1_S135168x128_1_0_n_n_0_1_1128 : GatherDims S4096x128 S135168x1 S135168x128 where
  offsetDims := [1]
  collapsedSliceDims := [0]
  operandBatchingDims := []
  startIndicesBatchingDims := []
  startIndexMap := [0]
  indexVectorDim := 1
  sliceSizes := ![1, 128]
  wf := gather_S4096x128_S135168x1_S135168x128_1_0_n_n_0_1_1128_wf
def scatter_S4096x128_S135168x1_S135168x128_1_0_0_1 : ScatterDims S4096x128 S135168x1 S135168x128 where
  updateWindowDims := [1]
  insertedWindowDims := [0]
  scatterDimsToOperandDims := [0]
  indexVectorDim := 1
  wf := scatter_S4096x128_S135168x1_S135168x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S8x4096x16_S8x4096x16_S8x4096x4096_2_2_1_1_0_0 : DotDims S8x4096x16 S8x4096x16 S8x4096x4096 where
  lhsContracting := [2]
  rhsContracting := [2]
  lhsNonContracting := [1]
  rhsNonContracting := [1]
  lhsBatch := [0]
  rhsBatch := [0]
  wf := dot_S8x4096x16_S8x4096x16_S8x4096x4096_2_2_1_1_0_0_wf
def dot_S8x4096x4096_S8x4096x16_S8x4096x16_2_1_1_2_0_0 : DotDims S8x4096x4096 S8x4096x16 S8x4096x16 where
  lhsContracting := [2]
  rhsContracting := [1]
  lhsNonContracting := [1]
  rhsNonContracting := [2]
  lhsBatch := [0]
  rhsBatch := [0]
  wf := dot_S8x4096x4096_S8x4096x16_S8x4096x16_2_1_1_2_0_0_wf

class Facts : Prop extends Facts₀ where

variable [Facts]
-- ==== Proof.KB.Reg0.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :=
  ((cfg0.win w).blk t).view.read (Elt F) (V c (Pipeline.arrRef spec0 w))

/-- One store over the whole block, so the result is that store's payload. -/
def out0_3 (x0 : Vec F S2048x128 .f32) (x1 : Vec F S128x128 .f32) (x2 : Vec F S1x128 .f32) : Vec F S2048x128 .f32 :=
  View.canon [⟨Rect.unit ![0, 0] S2048x128.size inb_S2048x128_S2048x128_0_0,
    k0_pay1 (View.ld x0 (Rect.unit ![0, 0] S2048x128.size inb_S2048x128_S2048x128_0_0))
      (View.ld x1 (Rect.unit ![0, 0] S128x128.size inb_S128x128_S128x128_0_0))
      (View.ld x2 (Rect.unit ![0, 0] S1x128.size inb_S1x128_S1x128_0_0))⟩]

theorem sound_kernel0 (c : Dev nD) {E i arg1 harg1 arg2 harg2 arg3 harg3 arg4 harg4 x0 x1 x2 x3} {K : PUnit → sProp 𝕄} :
    iprop(owns c arg1 fullShare x0 ∗ owns c arg2 fullShare x1
        ∗ owns c arg3 fullShare x2 ∗ owns c arg4 fullShare x3
        ∗ (iprop(owns c arg1 fullShare x0 ∗ owns c arg2 fullShare x1
            ∗ owns c arg3 fullShare x2
            ∗ owns c arg4 fullShare (out0_3 x0 x1 x2)) -∗ K ⟨⟩))
      ⊢ wp frame (wpE defs₀ Variants.none c none) E (cc0__matmul_kernel i arg1 harg1 arg2 harg2 arg3 harg3 arg4 harg4) K := by
  simp only [cc0__matmul_kernel_eq_skeleton]; unfold cc0__matmul_kernel_skel owns
  iintro ⟨⟨%f1, %hf1, H1⟩, ⟨%f2, %hf2, H2⟩, ⟨%f3, %hf3, H3⟩, ⟨%f4, -, H4⟩, Hk⟩
  subst hf1 hf2 hf3
  sl_exec
  sl_step
  iapply Hk
  isplitl [H1]
  · iexists f1; iframe H1; ipureintro; rfl
  isplitl [H2]
  · iexists f2; iframe H2; ipureintro; rfl
  isplitl [H3]
  · iexists f3; iframe H3; ipureintro; rfl
  iexists _; iframe H4
  ipureintro
  exact View.read_writes_eq_canon _ _ _ (View.cover_of_tiled _ S2048x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 V c) defs₀ Variants.none () Set.univ := fun t => by
  rw [bigSep_W0, bigSep_W0]
  simp only [(dat0 V c).before_in_eq_fetched (0 : Fin 4) rfl (fun _ => rfl) (fun _ _ _ => rfl) (fun _ => rfl),
    (dat0 V c).before_in_eq_fetched (1 : Fin 4) rfl (fun _ => rfl) (fun _ _ _ => rfl) (fun _ => rfl),
    (dat0 V c).before_in_eq_fetched (2 : Fin 4) rfl (fun _ => rfl) (fun _ _ _ => rfl) (fun _ => rfl)]
  show _ ⊢ wp _ _ _ (bodyAt0 t) _
  dsimp only [dat0]
  iintro ⟨HΦ, Ho, ⟨%d0, H0⟩, ⟨%d1, H1⟩, ⟨%d2, H2⟩, ⟨%d3, H3⟩⟩
  iapply sound_kernel0 c
  iframe H0 H1 H2 H3
  iintro H
  iframe HΦ
  isplitl [Ho]; · iexact Ho
  iexact H

end Cert.Kernel.Hand
-- ==== Proof.KB.Reg1.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S256x4096 .f32) (x1 : Vec F S4096x128 .f32) (x2 : Vec F S1x128 .f32) (x3 : Vec F S128x128 .f32) (x4 : Vec F S1x128 .f32) :
    Vec F S256x128 .f32 :=
  View.canon [⟨Rect.unit (s := S256x128) ![0, 0] S256x128.size inb_S256x128_S256x128_0_0,
    k1_pay1 (View.ld x0 (Rect.unit (s := S256x4096) ![0, 0] S256x4096.size inb_S256x4096_S256x4096_0_0))
      (View.ld x1 (Rect.unit (s := S4096x128) ![0, 0] S4096x128.size inb_S4096x128_S4096x128_0_0))
      (View.ld x2 (Rect.unit (s := S1x128) ![0, 0] S1x128.size inb_S1x128_S1x128_0_0))
      (View.ld x3 (Rect.unit (s := S128x128) ![0, 0] S128x128.size inb_S128x128_S128x128_0_0))⟩]

set_option maxHeartbeats 1000000 in
theorem sound_kernel1 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__gcn_fused_kernel i a0 ha0 a1 ha1 a2 ha2 a3 ha3 a4 ha4 a5 ha5) K := by
  simp only [cc1__gcn_fused_kernel_eq_skeleton]; unfold cc1__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S256x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := rfl

theorem body_obligation1 (c : Dev nD) : BodyObligation (dat1 (F := F) V c) (defs₀ (F := F)) Variants.none () Set.univ := fun t => by
  rw [bigSep_W1, bigSep_W1]
  sl_whnfR [defs₀, Defs.onTc]
  simp only [(dat1 V c).before_in_eq_fetched 0 rfl (fun _ => rfl) (fun _ _ _ => rfl) (fun _ => rfl),
    (dat1 V c).before_in_eq_fetched 1 rfl (fun _ => rfl) (fun _ _ _ => rfl) (fun _ => rfl),
    (dat1 V c).before_in_eq_fetched 2 rfl (fun _ => rfl) (fun _ _ _ => rfl) (fun _ => rfl),
    (dat1 V c).before_in_eq_fetched 3 rfl (fun _ => rfl) (fun _ _ _ => rfl) (fun _ => rfl),
    (dat1 V c).before_in_eq_fetched 4 rfl (fun _ => rfl) (fun _ _ _ => rfl) (fun _ => rfl)]
  dsimp only [dat1]
  iintro ⟨HΦ, Ho, ⟨%d0, H0⟩, ⟨%d1, H1⟩, ⟨%d2, H2⟩, ⟨%d3, H3⟩, ⟨%d4, H4⟩, ⟨%d5, H5⟩⟩
  iapply sound_kernel1 c
  iframe H0 H1 H2 H3 H4 H5
  iintro H
  isplitl [HΦ]; · iexact HΦ
  isplitl [Ho]; · iexact Ho
  iexact H

end Cert.Kernel.Hand
-- ==== Proof.KB.Reg2.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S256x4096 .f32) (x1 : Vec F S4096x128 .f32) (x2 : Vec F S1x128 .f32) (x3 : Vec F S128x64 .f32) (x4 : Vec F S1x64 .f32) :
    Vec F S256x64 .f32 :=
  View.canon [⟨Rect.unit (s := S256x64) ![0, 0] S256x64.size inb_S256x64_S256x64_0_0,
    k2_pay1 (View.ld x0 (Rect.unit (s := S256x4096) ![0, 0] S256x4096.size inb_S256x4096_S256x4096_0_0))
      (View.ld x1 (Rect.unit (s := S4096x128) ![0, 0] S4096x128.size inb_S4096x128_S4096x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))⟩]

set_option maxHeartbeats 1000000 in
theorem sound_kernel2 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out2_5 x0 x1 x2 x3 x4)) -∗ K ⟨⟩))
      ⊢ wp frame (wpE (defs₀ (F := F)) Variants.none c none) E (cc2__gcn_fused_kernel i a0 ha0 a1 ha1 a2 ha2 a3 ha3 a4 ha4 a5 ha5) K := by
  simp only [cc2__gcn_fused_kernel_eq_skeleton]; unfold cc2__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S256x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := rfl

theorem body_obligation2 (c : Dev nD) : BodyObligation (dat2 (F := F) V c) (defs₀ (F := F)) Variants.none () Set.univ := fun t => by
  rw [bigSep_W2, bigSep_W2]
  sl_whnfR [defs₀, Defs.onTc]
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl),
    (dat2 V c).before_in_eq_fetched 3 rfl (fun _ => rfl) (fun _ _ _ => rfl) (fun _ => rfl),
    (dat2 V c).before_in_eq_fetched 4 rfl (fun _ => rfl) (fun _ _ _ => rfl) (fun _ => rfl)]
  dsimp only [dat2]
  iintro ⟨HΦ, Ho, ⟨%d0, H0⟩, ⟨%d1, H1⟩, ⟨%d2, H2⟩, ⟨%d3, H3⟩, ⟨%d4, H4⟩, ⟨%d5, H5⟩⟩
  iapply sound_kernel2 c
  iframe H0 H1 H2 H3 H4 H5
  iintro H
  isplitl [HΦ]; · iexact HΦ
  isplitl [Ho]; · iexact Ho
  iexact H

end Cert.Kernel.Hand
-- ==== Proof.KB.Reg3.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :=
  ((cfg3.win w).blk t).view.read (Elt F) (V c (Pipeline.arrRef spec3 w))

/-- One store over the whole block, so the result is that store's payload. -/
def out3_3 (x0 : Vec F S2048x128 .f32) (x1 : Vec F S128x384 .f32) (x2 : Vec F S1x384 .f32) : Vec F S2048x384 .bf16 :=
  View.canon [⟨Rect.unit ![0, 0] S2048x384.size inb_S2048x384_S2048x384_0_0,
    k3_pay1 (View.ld x0 (Rect.unit ![0, 0] S2048x128.size inb_S2048x128_S2048x128_0_0))
      (View.ld x1 (Rect.unit ![0, 0] S128x384.size inb_S128x384_S128x384_0_0))
      (View.ld x2 (Rect.unit ![0, 0] S1x384.size inb_S1x384_S1x384_0_0))⟩]

theorem sound_kernel3 (c : Dev nD) {E i arg1 harg1 arg2 harg2 arg3 harg3 arg4 harg4 x0 x1 x2 x3} {K : PUnit → sProp 𝕄} :
    iprop(owns c arg1 fullShare x0 ∗ owns c arg2 fullShare x1
        ∗ owns c arg3 fullShare x2 ∗ owns c arg4 fullShare x3
        ∗ (iprop(owns c arg1 fullShare x0 ∗ owns c arg2 fullShare x1
            ∗ owns c arg3 fullShare x2
            ∗ owns c arg4 fullShare (out3_3 x0 x1 x2)) -∗ K ⟨⟩))
      ⊢ wp frame (wpE defs₀ Variants.none c none) E (cc3__matmul_kernel i arg1 harg1 arg2 harg2 arg3 harg3 arg4 harg4) K := by
  simp only [cc3__matmul_kernel_eq_skeleton]; unfold cc3__matmul_kernel_skel owns
  iintro ⟨⟨%f1, %hf1, H1⟩, ⟨%f2, %hf2, H2⟩, ⟨%f3, %hf3, H3⟩, ⟨%f4, -, H4⟩, Hk⟩
  subst hf1 hf2 hf3
  sl_exec
  sl_step
  iapply Hk
  isplitl [H1]
  · iexists f1; iframe H1; ipureintro; rfl
  isplitl [H2]
  · iexists f2; iframe H2; ipureintro; rfl
  isplitl [H3]
  · iexists f3; iframe H3; ipureintro; rfl
  iexists _; iframe H4
  ipureintro
  exact View.read_writes_eq_canon _ _ _ (View.cover_of_tiled _ S2048x384.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3_3 (iblk3 V c 0 t) (iblk3 V c 1 t) (iblk3 V c 2 t) := by dsimp only [dat3]

theorem body_obligation3 (c : Dev nD) : BodyObligation (dat3 V c) defs₀ Variants.none () Set.univ := fun t => by
  rw [bigSep_W3, bigSep_W3]
  simp only [(dat3 V c).before_in_eq_fetched (0 : Fin 4) rfl (fun _ => rfl) (fun _ _ _ => rfl) (fun _ => rfl),
    (dat3 V c).before_in_eq_fetched (1 : Fin 4) rfl (fun _ => rfl) (fun _ _ _ => rfl) (fun _ => rfl),
    (dat3 V c).before_in_eq_fetched (2 : Fin 4) rfl (fun _ => rfl) (fun _ _ _ => rfl) (fun _ => rfl)]
  show _ ⊢ wp _ _ _ (bodyAt3 t) _
  dsimp only [dat3]
  iintro ⟨HΦ, Ho, ⟨%d0, H0⟩, ⟨%d1, H1⟩, ⟨%d2, H2⟩, ⟨%d3, H3⟩⟩
  iapply sound_kernel3 c
  iframe H0 H1 H2 H3
  iintro H
  iframe HΦ
  isplitl [Ho]; · iexact Ho
  iexact H

end Cert.Kernel.Hand
-- ==== Proof.KB.Reg4.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev St4 (F : FTy → Type) [FloatOps F] : Type :=
  Vec F S8x512x1 .f32 × Vec F S8x512x1 .f32 × Vec F S8x512x16 .f32

def mNext4 (xq xk : Vec F S8x512x16 .bf16) (m0 : Vec F S8x512x1 .f32) : Vec F S8x512x1 .f32 :=
  k4_pay2 (k4_pay9 xq xk m0)

def lNext4 (xq xk : Vec F S8x512x16 .bf16) (m0 l0 : Vec F S8x512x1 .f32) : Vec F S8x512x1 .f32 :=
  k4_pay12 xq xk m0 m0 l0

def aNext4 (xq xk xv : Vec F S8x512x16 .bf16) (m0 : Vec F S8x512x1 .f32) (a0 : Vec F S8x512x16 .f32) :
    Vec F S8x512x16 .f32 :=
  k4_pay1 (k4_pay7 xv) (k4_pay10 xq xk m0 m0) (k4_pay11 xq xk m0) a0

def step4 (s : St4 F) (xq xk xv : Vec F S8x512x16 .bf16) : St4 F :=
  (mNext4 xq xk s.1, lNext4 xq xk s.1 s.2.1, aNext4 xq xk xv s.1 s.2.2)

def reset4 : St4 F := (k4_pay4, k4_pay5, k4_pay6)

def out4_3 (a : Vec F S8x512x16 .f32) (l : Vec F S8x512x1 .f32) : Vec F S8x512x16 .bf16 := k4_pay3 a l

def pt4 (n : ℕ) : Fin cfg4.N := ⟨n % 64, by rw [show cfg4.N = 64 from N_4]; exact Nat.mod_lt _ (by decide)⟩

theorem pt4_val (t : Fin cfg4.N) : pt4 t.val = t :=
  Fin.ext (Nat.mod_eq_of_lt (lt_of_lt_of_eq t.isLt (show cfg4.N = 64 from N_4)))

def st4 (c : Dev nD) : ℕ → St4 F
  | 0 => step4 reset4 (iblk4 V c 0 (pt4 0)) (iblk4 V c 1 (pt4 0)) (iblk4 V c 2 (pt4 0))
  | n + 1 => step4 (if (n + 1) % 8 = 0 then reset4 else st4 c n)
      (iblk4 V c 0 (pt4 (n + 1))) (iblk4 V c 1 (pt4 (n + 1))) (iblk4 V c 2 (pt4 (n + 1)))

theorem st4_first (c : Dev nD) (n : ℕ) (h : n % 8 = 0) :
    st4 V c n = step4 reset4 (iblk4 V c 0 (pt4 n)) (iblk4 V c 1 (pt4 n)) (iblk4 V c 2 (pt4 n)) := by
  cases n with
  | zero => rfl
  | succ n => rw [st4, if_pos h]

theorem st4_next (c : Dev nD) (n : ℕ) (h : n % 8 ≠ 0) :
    st4 V c n = step4 (st4 V c (n - 1)) (iblk4 V c 0 (pt4 n)) (iblk4 V c 1 (pt4 n)) (iblk4 V c 2 (pt4 n)) := by
  cases n with
  | zero => exact absurd (Nat.zero_mod _) h
  | succ n => rw [st4, if_neg h]; rfl

abbrev cond4_0 (i : grid4.Coords) : Prop :=
  (Scalar.cmpi .ne (Scalar.extui (Scalar.cmpi .eq (BitVec.ofNat 32 (i 1).val) 0#32)) 0#32) = 1#1

abbrev cond4_1 (i : grid4.Coords) : Prop := k4_cond2 i = 1#1

theorem hcond4_0 : ∀ t : Fin cfg4.N, cond4_0 (grid4.coords t) ↔ t.val % 8 = 0 := by
  decide +kernel

theorem hcond4_1 : ∀ t : Fin cfg4.N, cond4_1 (grid4.coords t) ↔ t.val % 8 = 7 := by
  decide +kernel

theorem idleAt4_3 : ∀ t : Fin cfg4.N, ¬cond4_1 (grid4.coords t) → cfg4.idle 3 (grid4.coords t) = true := by
  decide +kernel
theorem noFlush4_3 : ∀ t : Fin cfg4.N, ¬cond4_1 (grid4.coords t) → (cfg4.win 3).flush t = false := by
  decide +kernel

theorem liveAt4_3 : ∀ t : Fin cfg4.N, cond4_1 (grid4.coords t) → cfg4.idle 3 (grid4.coords t) = false := by
  decide +kernel

abbrev scM4_0 : Memref sig .tc .vmem S8x512x1 .f32 := Memref.whole cc4_scratch0
abbrev scM4_1 : Memref sig .tc .vmem S8x512x1 .f32 := Memref.whole cc4_scratch1
abbrev scM4_2 : Memref sig .tc .vmem S8x512x16 .f32 := Memref.whole cc4_scratch2

def PhiS4 (c : Dev nD) : ℕ → sProp 𝕄
  | 0 => iprop((∃ r, prngReg c r) ∗ Pipeline.scopedRest spec4 c)
  | n + 1 => iprop(iprop(owns c scM4_0 fullShare (st4 V c n).1 ∗ owns c scM4_1 fullShare (st4 V c n).2.1
        ∗ owns c scM4_2 fullShare (st4 V c n).2.2)
      ∗ Pipeline.scopedRestBut spec4 c [cc4_scratch0, cc4_scratch1, cc4_scratch2] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (st4 V c t.val).2.2 (st4 V c t.val).2.1
  Φ t := PhiS4 V c t.val
  q _ := fullShare
  owed _ := 0

theorem A_eq4 (c : Dev nD) (w : Fin cfg4.W) : (dat4 V c).A w = V c (Pipeline.arrRef spec4 w) := by
  dsimp only [dat4]

theorem after4_3_last (c : Dev nD) (t : Fin cfg4.N) :
    (dat4 V c).after 3 t = out4_3 (st4 V c t.val).2.2 (st4 V c t.val).2.1 := by dsimp only [dat4]

theorem Phi4_eq (c : Dev nD) (t : Fin (cfg4.N + 1)) : (dat4 V c).Φ t = PhiS4 V c t.val := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem hin4 (c : Dev nD) :
    iprop((∃ r, prngReg c r) ∗ Pipeline.prefHeld (pcfgs (F := F) 4).pre c (fun _ => fullShare) ((cfgs 4).toPCfg_adm).1
        ∗ Pipeline.scopedRest spec4 c)
      ⊢ ((dat4 V c).Φ 0 : sProp 𝕄) := by
  rw [Phi4_eq, Fin.val_zero, PhiS4]
  iintro ⟨Hp, -, Hr⟩
  iframe

theorem hout4 (c : Dev nD) :
    ((dat4 V c).Φ (Fin.last cfg4.N) : sProp 𝕄)
      ⊢ iprop((∃ r, prngReg c r) ∗ Pipeline.ownSems0 (fun k : PEmpty => k.elim) c
        ∗ Pipeline.scopedRest spec4 c) := by
  rw [Phi4_eq, Fin.val_last, show cfg4.N = 63 + 1 from N_4, PhiS4, Pipeline.ownSems0_none, scopedRest4_split]
  simp only [owns_whole]
  iintro ⟨⟨H0, H1, H2⟩, Hr, Hp⟩
  iframe Hp Hr
  isplitr; · iempintro
  isplitl [H0]; · iexists _; iexact H0
  isplitl [H1]; · iexists _; iexact H1
  iexists _; iexact H2

end Cert.Kernel.Hand
-- ==== Proof.KB.Reg5.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S2048x128 .bf16) (x1 : Vec F S128x128 .f32) (x2 : Vec F S1x128 .f32) (x3 : Vec F S128x64 .f32) (x4 : Vec F S1x64 .f32) :
    Vec F S2048x64 .f32 :=
  View.canon [⟨Rect.unit (s := S2048x64) ![0, 0] S2048x64.size inb_S2048x64_S2048x64_0_0,
    k5_pay1 (View.ld x0 (Rect.unit (s := S2048x128) ![0, 0] S2048x128.size inb_S2048x128_S2048x128_0_0))
      (View.ld x1 (Rect.unit (s := S128x128) ![0, 0] S128x128.size inb_S128x128_S128x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))⟩]

set_option maxHeartbeats 1000000 in
theorem sound_kernel5 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5_5 x0 x1 x2 x3 x4)) -∗ K ⟨⟩))
      ⊢ wp frame (wpE (defs₀ (F := F)) Variants.none c none) E (cc5__out_proj_fused_kernel i a0 ha0 a1 ha1 a2 ha2 a3 ha3 a4 ha4 a5 ha5) K := by
  simp only [cc5__out_proj_fused_kernel_eq_skeleton]; unfold cc5__out_proj_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2048x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  simp only [(dat5 V c).before_in_eq_fetched 0 rfl (fun _ => rfl) (fun _ _ _ => rfl) (fun _ => rfl),
    (dat5 V c).before_in_eq_fetched 1 rfl (fun _ => rfl) (fun _ _ _ => rfl) (fun _ => rfl),
    (dat5 V c).before_in_eq_fetched 2 rfl (fun _ => rfl) (fun _ _ _ => rfl) (fun _ => rfl),
    (dat5 V c).before_in_eq_fetched 3 rfl (fun _ => rfl) (fun _ _ _ => rfl) (fun _ => rfl),
    (dat5 V c).before_in_eq_fetched 4 rfl (fun _ => rfl) (fun _ _ _ => rfl) (fun _ => rfl)]
  dsimp only [dat5]
  iintro ⟨HΦ, Ho, ⟨%d0, H0⟩, ⟨%d1, H1⟩, ⟨%d2, H2⟩, ⟨%d3, H3⟩, ⟨%d4, H4⟩, ⟨%d5, H5⟩⟩
  iapply sound_kernel5 c
  iframe H0 H1 H2 H3 H4 H5
  iintro H
  isplitl [HΦ]; · iexact HΦ
  isplitl [Ho]; · iexact Ho
  iexact H

end Cert.Kernel.Hand
-- ==== Proof.KB.Reg6.lean ====
import proofs.«410974_j45672682225711_2_alg».proof.Proof.Gen.Kernel.Launch
import proofs.«410974_j45672682225711_2_alg».proof.Proof.Gen.Kernel.Skeleton
import proofs.«410974_j45672682225711_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) :=
  ((cfg6.win w).blk t).view.read (Elt F) (V c (Pipeline.arrRef spec6 w))

abbrev r6_0 : Rect S2048x64 := Rect.unit ![0, 0] S2048x64.size inb_S2048x64_S2048x64_0_0

/-- One store over the whole block, so the result is that store's payload. -/
def out6_2 (x0 x1 : Vec F S2048x64 .f32) : Vec F S2048x64 .f32 :=
  View.canon [⟨r6_0, k6_pay1 (View.ld x0 r6_0) (View.ld x1 r6_0)⟩]

theorem sound_kernel6 (c : Dev nD) {E i arg1 harg1 arg2 harg2 arg3 harg3 x0 x1 x2} {K : PUnit → sProp 𝕄} :
    iprop(owns c arg1 fullShare x0 ∗ owns c arg2 fullShare x1
        ∗ owns c arg3 fullShare x2
        ∗ (iprop(owns c arg1 fullShare x0 ∗ owns c arg2 fullShare x1
            ∗ owns c arg3 fullShare (out6_2 x0 x1)) -∗ K ⟨⟩))
      ⊢ wp frame (wpE defs₀ Variants.none c none) E (cc6__combine_kernel i arg1 harg1 arg2 harg2 arg3 harg3) K := by
  simp only [cc6__combine_kernel_eq_skeleton]; unfold cc6__combine_kernel_skel owns
  iintro ⟨⟨%f0, %hf0, H0⟩, ⟨%f1, %hf1, H1⟩, ⟨%f2, -, H2⟩, Hk⟩
  subst hf0 hf1
  sl_exec
  sl_step
  iapply Hk
  isplitl [H0]
  · iexists f0; iframe H0; ipureintro; rfl
  isplitl [H1]
  · iexists f1; iframe H1; ipureintro; rfl
  iexists _; iframe H2
  ipureintro
  exact View.read_writes_eq_canon _ _ _ (View.cover_of_tiled _ S2048x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem body_obligation6 (c : Dev nD) : BodyObligation (dat6 V c) defs₀ Variants.none () Set.univ := fun t => by
  rw [bigSep_W6, bigSep_W6]
  simp only [(dat6 V c).before_in_eq_fetched (0 : Fin 3) rfl (fun _ => rfl) (fun _ _ _ => rfl) (fun _ => rfl),
    (dat6 V c).before_in_eq_fetched (1 : Fin 3) rfl (fun _ => rfl) (fun _ _ _ => rfl) (fun _ => rfl)]
  show _ ⊢ wp _ _ _ (bodyAt6 t) _
  dsimp only [dat6]
  iintro ⟨HΦ, Ho, ⟨%d0, H0⟩, ⟨%d1, H1⟩, ⟨%d2, H2⟩⟩
  iapply sound_kernel6 c
  iframe H0 H1 H2
  iintro H
  iframe HΦ
  isplitl [Ho]; · iexact Ho
  iexact H

end Cert.Kernel.Hand
-- ==== Proof.LibRegionStep.lean ====
import Idealize.ShloMosaic.Lib.Pipeline.FrameSuffix

namespace Idealize.ShloMosaic.Pipeline

open TcCoe Idealize.SL.RA

variable {nD : Nat} {τ : Topo} {sig : RefSig} {Val : EltTy → Type} {Λ₀ : SL.Sem.Labels}
variable {Ix : Type} [DecidableEq Ix] {Name : Type} [DecidableEq Name] {U : Type} [URA U] {Lvl : Type}

/-- Which buffers a step of a program leaves alone, in a form that composes along the program. -/
def Keeps (S : List (Ref sig .tc)) (V V' : Dev nD → Valuation τ sig Val) : Prop :=
  ∀ c r, r ∉ S → V' c (Proc.devRef .tc r) = V c (Proc.devRef .tc r)

theorem Keeps.trans {S T : List (Ref sig .tc)} {V V' V'' : Dev nD → Valuation τ sig Val}
    (h : Keeps S V V') (h' : Keeps T V' V'') : Keeps (S ++ T) V V'' := fun c r hr =>
  (h' c r fun a => hr (List.mem_append_right _ a)).trans (h c r fun a => hr (List.mem_append_left _ a))

theorem Keeps.after {S : List (Ref sig .tc)} (ops : List (HloOp τ sig Val)) (V : Dev nD → Valuation τ sig Val)
    (hS : ops.Forall fun op => op.writes ⊆ (S.map (Proc.devRef (τ := τ) .tc)).toFinset) :
    Keeps S V fun c => StableHlo.after ops (V c) :=
  fun c _ => StableHlo.after_of_writes_sub ops (V c) hS

/-- By cases on whether the buffer is one of the region's arrays. -/
theorem Keeps.exit {cfg : Cfg sig Λ₀} (dat : (c : Dev nD) → Dat τ Val Ix Name U Lvl cfg c)
    (hinj : Function.Injective (arrRef cfg.spec)) (V : Dev nD → Valuation τ sig Val)
    (hA : ∀ c w, (dat c).A w = V c (Proc.devRef .tc (arrRef cfg.spec w))) {S : List (Ref sig .tc)}
    (hS : ∀ w, (cfg.win w).isOut = true → arrRef cfg.spec w ∈ S) :
    Keeps S V fun c => withArrays cfg.spec c (V c) fun w => (dat c).arrAt w cfg.N := fun c r hr => by
  by_cases h : ∃ w, arrRef cfg.spec w = r
  · obtain ⟨w, rfl⟩ := h
    exact (withArrays_arr _ hinj c _ _ w).trans
      (((dat c).arrAt_in w (Bool.eq_false_iff.mpr fun e => hr (hS w e)) _).trans (hA c w))
  · exact withArrays_of_ne _ c _ _ r fun w e => h ⟨w, e⟩

theorem withArrays_of_not_mem {gr W : Nat} (win : Fin W → WinSpec sig gr) (c : Dev nD) (V : Valuation τ sig Val)
    (A : (w : Fin W) → Buf Val ((win w).arr.view.loc (c.tc : Thread nD τ))) (b : Ref sig .tc)
    (hb : b ∉ Finset.univ.image (arrRef win)) : withArrays win c V A (Proc.devRef .tc b) = V (Proc.devRef .tc b) :=
  withArrays_of_ne win c V A b fun w e => hb (Finset.mem_image.mpr ⟨w, Finset.mem_univ _, e⟩)

end Idealize.ShloMosaic.Pipeline
-- ==== Proof.KB.RunW.lean ====
import proofs.«410974_j45672682225711_2_alg».proof.Proof.Gen.Kernel.Regions
import proofs.«410974_j45672682225711_2_alg».proof.Proof.KB.Reg0
import proofs.«410974_j45672682225711_2_alg».proof.Proof.KB.Reg1
import proofs.«410974_j45672682225711_2_alg».proof.Proof.KB.Reg2
import proofs.«410974_j45672682225711_2_alg».proof.Proof.KB.Reg3
import proofs.«410974_j45672682225711_2_alg».proof.Proof.KB.Reg4
import proofs.«410974_j45672682225711_2_alg».proof.Proof.KB.Reg5
import proofs.«410974_j45672682225711_2_alg».proof.Proof.KB.Reg6
import proofs.«410974_j45672682225711_2_alg».proof.Proof.LibRegionStep

noncomputable section

namespace Cert.Kernel.Hand

open Idealize.ShloMosaic Idealize.ShloMosaic.TcCoe
open Idealize.ShloMosaic.Pipeline (Keeps)
open Cert.Kernel.Gen

variable {F : FTy → Type} [FloatOps F]

abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

abbrev W1 : Dev nD → Valuation τ sig (Elt F) := fun c => StableHlo.after hostOps0 (W0 m ρ c)
theorem keeps1 : Keeps hostOps0_W (W0 m ρ) (W1 m ρ) := .after hostOps0 _ hostOps0_writes

abbrev W2 : Dev nD → Valuation τ sig (Elt F) := fun c => StableHlo.after hostOps0_1 (W1 m ρ c)
theorem keeps2 : Keeps hostOps0_1_W (W1 m ρ) (W2 m ρ) := .after hostOps0_1 _ hostOps0_1_writes

abbrev W3 : Dev nD → Valuation τ sig (Elt F) := fun c => StableHlo.after hostOps0_2 (W2 m ρ c)
theorem keeps3 : Keeps hostOps0_2_W (W2 m ρ) (W3 m ρ) := .after hostOps0_2 _ hostOps0_2_writes

abbrev Vin0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Vin0 m ρ) c).arrAt w cfg0.N
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  Eq.symm (Pipeline.withArrays_arr spec0 launch0.win.arr_inj c _ _ w)
theorem hrest0 (c : Dev nD) : ∀ b, b ∉ Finset.univ.image (Pipeline.arrRef spec0) → Vout0 m ρ c b = Vin0 m ρ c b :=
  Pipeline.withArrays_of_not_mem spec0 c _ _
theorem keeps4 : Keeps [main_v47] (W3 m ρ) (W4 m ρ) :=
  .exit (dat0 (Vin0 m ρ)) launch0.win.arr_inj _ (A_eq0 _) (by decide)

abbrev W5 : Dev nD → Valuation τ sig (Elt F) := fun c => StableHlo.after hostOps1 (W4 m ρ c)
theorem keeps5 : Keeps hostOps1_W (W4 m ρ) (W5 m ρ) := .after hostOps1 _ hostOps1_writes

abbrev Vin1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vin1 m ρ) c).arrAt w cfg1.N
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  Eq.symm (Pipeline.withArrays_arr spec1 launch1.win.arr_inj c _ _ w)
theorem hrest1 (c : Dev nD) : ∀ b, b ∉ Finset.univ.image (Pipeline.arrRef spec1) → Vout1 m ρ c b = Vin1 m ρ c b :=
  Pipeline.withArrays_of_not_mem spec1 c _ _
theorem keeps6 : Keeps [main_v51] (W5 m ρ) (W6 m ρ) :=
  .exit (dat1 (Vin1 m ρ)) launch1.win.arr_inj _ (A_eq1 _) (by decide)

abbrev W7 : Dev nD → Valuation τ sig (Elt F) := fun c => StableHlo.after hostOps2 (W6 m ρ c)
theorem keeps7 : Keeps hostOps2_W (W6 m ρ) (W7 m ρ) := .after hostOps2 _ hostOps2_writes

abbrev Vin2 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (Vin2 m ρ) c).arrAt w cfg2.N
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  Eq.symm (Pipeline.withArrays_arr spec2 launch2.win.arr_inj c _ _ w)
theorem hrest2 (c : Dev nD) : ∀ b, b ∉ Finset.univ.image (Pipeline.arrRef spec2) → Vout2 m ρ c b = Vin2 m ρ c b :=
  Pipeline.withArrays_of_not_mem spec2 c _ _
theorem keeps8 : Keeps [main_v54] (W7 m ρ) (W8 m ρ) :=
  .exit (dat2 (Vin2 m ρ)) launch2.win.arr_inj _ (A_eq2 _) (by decide)

abbrev W9 : Dev nD → Valuation τ sig (Elt F) := fun c => StableHlo.after hostOps3 (W8 m ρ c)
theorem keeps9 : Keeps hostOps3_W (W8 m ρ) (W9 m ρ) := .after hostOps3 _ hostOps3_writes

abbrev Vin3 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (Vin3 m ρ) c).arrAt w cfg3.N
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  Eq.symm (Pipeline.withArrays_arr spec3 launch3.win.arr_inj c _ _ w)
theorem hrest3 (c : Dev nD) : ∀ b, b ∉ Finset.univ.image (Pipeline.arrRef spec3) → Vout3 m ρ c b = Vin3 m ρ c b :=
  Pipeline.withArrays_of_not_mem spec3 c _ _
theorem keeps10 : Keeps [main_v57] (W9 m ρ) (W10 m ρ) :=
  .exit (dat3 (Vin3 m ρ)) launch3.win.arr_inj _ (A_eq3 _) (by decide)

abbrev W11 : Dev nD → Valuation τ sig (Elt F) := fun c => StableHlo.after hostOps4 (W10 m ρ c)
theorem keeps11 : Keeps hostOps4_W (W10 m ρ) (W11 m ρ) := .after hostOps4 _ hostOps4_writes

abbrev Vin4 : (c : Dev nD) → (b : Ref sig .tc) → Buf (Elt F) ((c : Thread nD τ).loc b) := fun c b => W11 m ρ c b
def W12 (c : Dev nD) : Valuation τ sig (Elt F) :=
  Pipeline.withArrays spec4 c (W11 m ρ c) fun w => (dat4 (Vin4 m ρ) c).arrAt w cfg4.N
abbrev Vout4 : (c : Dev nD) → (b : Ref sig .tc) → Buf (Elt F) ((c : Thread nD τ).loc b) := fun c b => W12 m ρ c b
theorem hF4 (c : Dev nD) (w : Fin cfg4.W) : (dat4 (Vin4 m ρ) c).arrAt w cfg4.N = Vout4 m ρ c (Pipeline.arrRef spec4 w) :=
  Eq.symm (Pipeline.withArrays_arr spec4 launch4.win.arr_inj c _ _ w)
theorem hrest4 (c : Dev nD) : ∀ b, b ∉ Finset.univ.image (Pipeline.arrRef spec4) → Vout4 m ρ c b = Vin4 m ρ c b :=
  Pipeline.withArrays_of_not_mem spec4 c _ _
theorem keeps12 : Keeps [main_v67] (W11 m ρ) (W12 m ρ) :=
  .exit (dat4 (Vin4 m ρ)) launch4.win.arr_inj _ (A_eq4 _) (by decide)

abbrev W13 : Dev nD → Valuation τ sig (Elt F) := fun c => StableHlo.after hostOps5 (W12 m ρ c)
theorem keeps13 : Keeps hostOps5_W (W12 m ρ) (W13 m ρ) := .after hostOps5 _ hostOps5_writes

abbrev Vin5 : (c : Dev nD) → (b : Ref sig .tc) → Buf (Elt F) ((c : Thread nD τ).loc b) := fun c b => W13 m ρ c b
def W14 (c : Dev nD) : Valuation τ sig (Elt F) :=
  Pipeline.withArrays spec5 c (W13 m ρ c) fun w => (dat5 (Vin5 m ρ) c).arrAt w cfg5.N
abbrev Vout5 : (c : Dev nD) → (b : Ref sig .tc) → Buf (Elt F) ((c : Thread nD τ).loc b) := fun c b => W14 m ρ c b
theorem hF5 (c : Dev nD) (w : Fin cfg5.W) : (dat5 (Vin5 m ρ) c).arrAt w cfg5.N = Vout5 m ρ c (Pipeline.arrRef spec5 w) :=
  Eq.symm (Pipeline.withArrays_arr spec5 launch5.win.arr_inj c _ _ w)
theorem hrest5 (c : Dev nD) : ∀ b, b ∉ Finset.univ.image (Pipeline.arrRef spec5) → Vout5 m ρ c b = Vin5 m ρ c b :=
  Pipeline.withArrays_of_not_mem spec5 c _ _
theorem keeps14 : Keeps [main_v73] (W13 m ρ) (W14 m ρ) :=
  .exit (dat5 (Vin5 m ρ)) launch5.win.arr_inj _ (A_eq5 _) (by decide)

abbrev Vin6 : (c : Dev nD) → (b : Ref sig .tc) → Buf (Elt F) ((c : Thread nD τ).loc b) := fun c b => W14 m ρ c b
def W15 (c : Dev nD) : Valuation τ sig (Elt F) :=
  Pipeline.withArrays spec6 c (W14 m ρ c) fun w => (dat6 (Vin6 m ρ) c).arrAt w cfg6.N
abbrev Vout6 : (c : Dev nD) → (b : Ref sig .tc) → Buf (Elt F) ((c : Thread nD τ).loc b) := fun c b => W15 m ρ c b
theorem hF6 (c : Dev nD) (w : Fin cfg6.W) : (dat6 (Vin6 m ρ) c).arrAt w cfg6.N = Vout6 m ρ c (Pipeline.arrRef spec6 w) :=
  Eq.symm (Pipeline.withArrays_arr spec6 launch6.win.arr_inj c _ _ w)
theorem hrest6 (c : Dev nD) : ∀ b, b ∉ Finset.univ.image (Pipeline.arrRef spec6) → Vout6 m ρ c b = Vin6 m ρ c b :=
  Pipeline.withArrays_of_not_mem spec6 c _ _
theorem keeps15 : Keeps [main_v74] (W14 m ρ) (W15 m ρ) :=
  .exit (dat6 (Vin6 m ρ)) launch6.win.arr_inj _ (A_eq6 _) (by decide)

theorem result_eq (c : Dev nD) : W15 m ρ c (Proc.devRef .tc main_v74) = (dat6 (Vin6 m ρ) c).arrAt 2 cfg6.N :=
  (hF6 m ρ c 2).symm

abbrev wr2 : List (Ref sig .tc) := hostOps0_W ++ hostOps0_1_W
theorem kept2 : Keeps wr2 (W0 m ρ) (W2 m ρ) := (keeps1 m ρ).trans (keeps2 m ρ)
abbrev wr3 : List (Ref sig .tc) := wr2 ++ hostOps0_2_W
theorem kept3 : Keeps wr3 (W0 m ρ) (W3 m ρ) := (kept2 m ρ).trans (keeps3 m ρ)
abbrev wr4 : List (Ref sig .tc) := wr3 ++ [main_v47]
theorem kept4 : Keeps wr4 (W0 m ρ) (W4 m ρ) := (kept3 m ρ).trans (keeps4 m ρ)
abbrev wr5 : List (Ref sig .tc) := wr4 ++ hostOps1_W
theorem kept5 : Keeps wr5 (W0 m ρ) (W5 m ρ) := (kept4 m ρ).trans (keeps5 m ρ)
abbrev wr6 : List (Ref sig .tc) := wr5 ++ [main_v51]
theorem kept6 : Keeps wr6 (W0 m ρ) (W6 m ρ) := (kept5 m ρ).trans (keeps6 m ρ)
abbrev wr7 : List (Ref sig .tc) := wr6 ++ hostOps2_W
theorem kept7 : Keeps wr7 (W0 m ρ) (W7 m ρ) := (kept6 m ρ).trans (keeps7 m ρ)
abbrev wr8 : List (Ref sig .tc) := wr7 ++ [main_v54]
theorem kept8 : Keeps wr8 (W0 m ρ) (W8 m ρ) := (kept7 m ρ).trans (keeps8 m ρ)
abbrev wr9 : List (Ref sig .tc) := wr8 ++ hostOps3_W
theorem kept9 : Keeps wr9 (W0 m ρ) (W9 m ρ) := (kept8 m ρ).trans (keeps9 m ρ)
abbrev wr10 : List (Ref sig .tc) := wr9 ++ [main_v57]
theorem kept10 : Keeps wr10 (W0 m ρ) (W10 m ρ) := (kept9 m ρ).trans (keeps10 m ρ)
abbrev wr11 : List (Ref sig .tc) := wr10 ++ hostOps4_W
theorem kept11 : Keeps wr11 (W0 m ρ) (W11 m ρ) := (kept10 m ρ).trans (keeps11 m ρ)
abbrev wr12 : List (Ref sig .tc) := wr11 ++ [main_v67]
theorem kept12 : Keeps wr12 (W0 m ρ) (W12 m ρ) := (kept11 m ρ).trans (keeps12 m ρ)
abbrev wr13 : List (Ref sig .tc) := wr12 ++ hostOps5_W
theorem kept13 : Keeps wr13 (W0 m ρ) (W13 m ρ) := (kept12 m ρ).trans (keeps13 m ρ)
abbrev wr14 : List (Ref sig .tc) := wr13 ++ [main_v73]
theorem kept14 : Keeps wr14 (W0 m ρ) (W14 m ρ) := (kept13 m ρ).trans (keeps14 m ρ)
abbrev wr15 : List (Ref sig .tc) := wr14 ++ [main_v74]
theorem kept15 : Keeps wr15 (W0 m ρ) (W15 m ρ) := (kept14 m ρ).trans (keeps15 m ρ)

/-- For the launch arguments: none of them is in `wr15`. -/
theorem W15_arg (c : Dev nD) (r : Ref sig .tc) (h : r ∉ wr15) :
    W15 m ρ c (Proc.devRef .tc r) = m ((c : Thread nD τ).loc r) :=
  kept15 m ρ c r h

end Cert.Kernel.Hand

end
-- ==== Proof.KB.Reg4b.lean ====
import proofs.«410974_j45672682225711_2_alg».proof.Proof.KB.Reg4
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Whole

variable {sig' : RefSig} {κ : Kind} {sp : Space} {e : EltTy} {Val : EltTy → Type} [∀ e, Nonempty (Val e)]

private theorem zero3_4 : (![0, 0, 0] : Fin 3 → ℕ) = fun _ => 0 := by funext a; fin_cases a <;> rfl

-- A store through the full rectangle at zero offsets, made last, leaves exactly its payload.
private theorem read_writes_whole4 {S : Shape} (v : View sig' κ sp S e) (f : v.ty.Contents Val) {off : Fin S.rank → Nat}
    (h : off = fun _ => 0) (inb : ∀ a, off a + S.size a ≤ S.size a) (p : S.Idx → Val e)
    (L : List (View.Piece Val S e)) :
    v.read Val (v.writes Val f ((⟨Rect.unit off S.size inb, p⟩ : View.Piece Val S e) :: L)) = p := by
  rw [View.read_writes_eq_canon _ _ _ (fun y => ⟨_, List.mem_cons.mpr (Or.inl rfl), View.mem_set_unit_zero h inb y⟩),
    View.canon_cons_unit_zero h]

end Whole

-- One key block updates the carried state (reset first at a row's start); the last block of a row stores the quotient.
theorem sound_kernel4 (c : Dev nD) {E : Set ℕ} {i : grid4.Coords}
    {arg2 arg3 arg4 arg5 : Memref sig .tc .vmem S8x512x16 .bf16} {arg6 arg7 : Memref sig .tc .vmem S8x512x1 .f32}
    {arg8 : Memref sig .tc .vmem S8x512x16 .f32} {harg2 : arg2.IsWhole} {harg3 : arg3.IsWhole} {harg4 : arg4.IsWhole}
    {harg5 : arg5.IsWhole} {harg6 : arg6.IsWhole} {harg7 : arg7.IsWhole} {harg8 : arg8.IsWhole}
    {xq xk xv : Vec F S8x512x16 .bf16} (xo : Vec F S8x512x16 .bf16) {o : Vec F S8x512x16 .bf16}
    (m0 l0 : Vec F S8x512x1 .f32) (a0 : Vec F S8x512x16 .f32) {s : St4 F}
    (hs : s = step4 (if cond4_0 i then reset4 else (m0, l0, a0)) xq xk xv)
    (ho : o = if cond4_1 i then out4_3 s.2.2 s.2.1 else xo)
    {K : PUnit → sProp 𝕄} :
    iprop(owns c arg2 fullShare xq ∗ owns c arg3 fullShare xk ∗ owns c arg4 fullShare xv ∗ owns c arg5 fullShare xo
        ∗ owns c arg6 fullShare m0 ∗ owns c arg7 fullShare l0 ∗ owns c arg8 fullShare a0
        ∗ (iprop(owns c arg2 fullShare xq ∗ owns c arg3 fullShare xk ∗ owns c arg4 fullShare xv
            ∗ owns c arg5 fullShare o ∗ owns c arg6 fullShare s.1 ∗ owns c arg7 fullShare s.2.1
            ∗ owns c arg8 fullShare s.2.2) -∗ K ⟨⟩))
      ⊢ wp frame (wpE (defs₀ (F := F)) Variants.none c none) E
          (cc4__attn_kernel i arg2 harg2 arg3 harg3 arg4 harg4 arg5 harg5 arg6 harg6 arg7 harg7 arg8 harg8) K := by
  subst ho hs
  by_cases hc0 : cond4_0 i <;> by_cases hc1 : cond4_1 i
  all_goals
    (first | rw [if_pos hc0] | rw [if_neg hc0]); (first | rw [if_pos hc1] | rw [if_neg hc1])
    simp only [cc4__attn_kernel_eq_skeleton]; unfold cc4__attn_kernel_skel
    simp only [k4_part1_eq_skeleton]; unfold k4_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst hf2 hf3 hf4 hf5 hf6 hf7 hf8
    sl_exec (disch := first | exact hc0 | exact hc1)
    sl_step
    iapply Hk
    isplitl [H2]; iexists _; iframe H2; ipureintro; rotate_left
    isplitl [H3]; iexists _; iframe H3; ipureintro; rotate_left
    isplitl [H4]; iexists _; iframe H4; ipureintro; rotate_left
    isplitl [H5]; iexists _; iframe H5; ipureintro; rotate_left
    isplitl [H6]; iexists _; iframe H6; ipureintro; rotate_left
    isplitl [H7]; iexists _; iframe H7; ipureintro; rotate_left
    iexists _; iframe H8; ipureintro
    all_goals
      first
      | (try sl_unfold_run_names)
        rw [read_writes_whole4 _ _ zero3_4]
        (try simp only [View.readCov_cons_toLoadRect, View.readAt_eq_ld, View.ld_unit_zero (S := S8x512x16) zero3_4,
          View.ld_unit_zero (S := S8x512x1) zero3_4])
        rfl
      | rfl

-- Some state is always carried; unless a row starts, it is the carried state after the preceding point.
theorem PhiS4_any (c : Dev nD) (n : ℕ) : PhiS4 V c n ⊢ iprop(∃ s : St4 F, ⌜n % 8 ≠ 0 → s = st4 V c (n - 1)⌝
      ∗ iprop(owns c scM4_0 fullShare s.1 ∗ owns c scM4_1 fullShare s.2.1 ∗ owns c scM4_2 fullShare s.2.2)
      ∗ Pipeline.scopedRestBut spec4 c [cc4_scratch0, cc4_scratch1, cc4_scratch2] ∗ (∃ r, prngReg c r)) := by
  cases n with
  | zero =>
    rw [PhiS4, scopedRest4_split]; simp only [owns_whole]
    iintro ⟨Hg, ⟨⟨%e0, H0⟩, ⟨%e1, H1⟩, ⟨%e2, H2⟩⟩, Hr⟩
    iexists (e0, e1, e2); isplitr; · ipureintro; exact fun h => (h rfl).elim
    iframe
  | succ n =>
    rw [PhiS4]
    iintro H; iexists (st4 V c n); isplitr; · ipureintro; exact fun _ => rfl
    iexact H

-- The carried state after a point is the update of the state found there, or of the reset state at a row's start.
theorem st4_step (c : Dev nD) (t : Fin cfg4.N) (s : St4 F) (hs : t.val % 8 ≠ 0 → s = st4 V c (t.val - 1)) :
    st4 V c t.val = step4 (if cond4_0 (grid4.coords t) then reset4 else s)
      (iblk4 V c 0 t) (iblk4 V c 1 t) (iblk4 V c 2 t) := by
  by_cases h : t.val % 8 = 0
  · rw [if_pos ((hcond4_0 t).mpr h), st4_first V c _ h, pt4_val]
  · rw [if_neg fun h' => h ((hcond4_0 t).mp h'), hs h, st4_next V c _ h, pt4_val]

-- The result block is the quotient at the last block of a row and is left as found elsewhere.
theorem leaves4_3 (c : Dev nD) (t : Fin cfg4.N) (d) :
    owns c (st4_3 t) fullShare (if cond4_1 (grid4.coords t) then
        out4_3 (st4 V c t.val).2.2 (st4 V c t.val).2.1 else (dat4 V c).before 3 t d)
      ⊢ ((dat4 V c).leavesExact 3 t : sProp 𝕄) := by
  by_cases h : cond4_1 (grid4.coords t)
  · rw [if_pos h, ← after4_3_last]; unfold Dat.leavesExact; rw [liveAt4_3 t h]; try exact .rfl
  · rw [if_neg h, Dat.leavesExact_idle (dat4 V c) 3 t (idleAt4_3 t h) (noFlush4_3 t h)]
    iintro H; iexists d; iexact H

theorem body_obligation4 (c : Dev nD) :
    BodyObligation (dat4 (F := F) V c) (defs₀ (F := F)) Variants.none () Set.univ := fun t => by
  rw [bigSep_W4, bigSep_W4]
  show _ ⊢ wp _ _ _ (bodyAt4 t) _
  simp only [before4_0, before4_1, before4_2]
  simp only [Phi4_eq, Fin.val_succ, Fin.coe_castSucc]
  rw [PhiS4]
  refine (sep_mono_left (PhiS4_any V c t.val)).trans ?_
  iintro ⟨⟨%s, %hs, ⟨HS0, HS1, HS2⟩, Hrest, Hg⟩, Ho, ⟨%d0, H0⟩, ⟨%d1, H1⟩, ⟨%d2, H2⟩, ⟨%d3, H3⟩⟩
  iapply (sound_kernel4 c ((dat4 V c).before 3 t d3) s.1 s.2.1 s.2.2 (st4_step V c t s hs) rfl)
  iframe H0 H1 H2 H3 HS0 HS1 HS2
  iintro ⟨H0, H1, H2, H3, HS0, HS1, HS2⟩
  iframe HS0 HS1 HS2 Hrest Hg
  isplitl [Ho]; · iexact Ho
  isplitl [H0]; · iexact H0
  isplitl [H1]; · iexact H1
  isplitl [H2]; · iexact H2
  iapply (leaves4_3 V c t d3); iexact H3

end Cert.Kernel.Hand
-- ==== Proof.LibRegionSeg.lean ====
import Idealize.ShloMosaic.Lib.Pipeline.Frame
import Idealize.ShloMosaic.Lib.Pipeline.RegionsLoop

noncomputable section

namespace Idealize.ShloMosaic.Pipeline

open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Rounds

variable {nD : Nat} {τ : Topo} {sig : RefSig} {Val : EltTy → Type} {U : Type} [URA U]
  {Λ₀ : SL.Sem.Labels} {P : Type} [Fintype P]

local notation "𝕄" => MT nD τ sig Unit Val ℕ U ℕ

abbrev Rest (c : Dev nD) : sProp 𝕄 :=
  iprop((∃ r, prngReg c r) ∗ ∃ W, owes (c : Thread nD τ) (0 : CellTallies nD τ sig Unit) W)

variable {pcs : P → PCfg sig Λ₀ Val} {a : (p : P) → (pcs p).Adm}
  {pdats : (p : P) → (c : Dev nD) → Dat τ Val Unit ℕ U ℕ (pin pcs a p) c}
  {defs₀ : Defs nD τ sig Val Λ₀} {𝒱₀ : Variants}
  {L : GSem nD τ sig → Finset Unit} {lv : GSem nD τ sig → Unit → ℕ} {p : P}

abbrev hostSeg (ops : List (HloOp τ sig Val)) (hsub : ops.Forall fun op => op.bufs ⊆ StableHlo.tcRefs τ sig)
    (hfresh : ops.Forall fun op => op.fresh = ∅) (W : Dev nD → Valuation τ sig Val) :
    HostSeg (Name := ℕ) (U := U) pcs defs₀ 𝒱₀ L lv :=
  HostSeg.ofOps _ _ _ _ _ (ucRefs τ sig) ops
    (fun op h => sub_ucRefs op ((List.forall_iff_forall_mem.mp hsub) op h))
    (fun op h => (List.forall_iff_forall_mem.mp hfresh) op h) W Rest

theorem hin_ΦA (c : Dev nD) (hΦ : (pdats p c).Φ 0 = ΦA (pin pcs a p).spec c) :
    iprop((∃ r, prngReg c r) ∗ prefHeld (pcs p).pre c (fun _ => fullShare) (a p).1 ∗ scopedRest (pin pcs a p).spec c)
      ⊢ (pdats p c).Φ 0 := by
  rw [hΦ]; unfold ΦA
  iintro ⟨Hp, -, Hr⟩
  isplitl [Hr]; · iexact Hr
  iexact Hp

theorem hout_ΦA (c : Dev nD) (hΦ : (pdats p c).Φ (Fin.last _) = ΦA (pin pcs a p).spec c) :
    (pdats p c).Φ (Fin.last (pin pcs a p).N)
      ⊢ iprop((∃ r, prngReg c r) ∗ ownSems0 (fun k : PEmpty => k.elim) c ∗ scopedRest (pin pcs a p).spec c) := by
  rw [ownSems0_none, hΦ]; unfold ΦA
  iintro ⟨Hr, Hp⟩
  isplitl [Hp]; · iexact Hp
  isplitr; · iempintro
  iexact Hr

set_option backward.isDefEq.respectTransparency.types false in

def RegionSeg.ofHeld (kit : PLaunchFacts (nD := nD) (τ := τ) pcs p) (hK : (pcs p).pre.K = 0)
    (hbody : ∀ c, BodyObligation (pdats p c) defs₀ 𝒱₀ () Set.univ)
    (hq : ∀ c w, (pdats p c).q w = fullShare) (howed : ∀ c t, (pdats p c).owed t = 0)
    (hrec : ∀ c, (pdats p c).recorded 0 = Set.univ)
    (Vin Vout : Dev nD → Valuation τ sig Val)
    (hA : ∀ c w, (pdats p c).A w = Vin c (arrRef (pin pcs a p).spec w))
    (hF : ∀ c w, (pdats p c).arrAt w (pin pcs a p).N = Vout c (arrRef (pin pcs a p).spec w))
    (hrest : ∀ c b, b ∉ Finset.univ.image (arrRef (pin pcs a p).spec) → Vout c b = Vin c b)
    (hin : ∀ c, iprop((∃ r, prngReg c r) ∗ prefHeld (pcs p).pre c (fun _ => fullShare) (a p).1 ∗ scopedRest (pin pcs a p).spec c)
      ⊢ (pdats p c).Φ 0)
    (hout : ∀ c, (pdats p c).Φ (Fin.last (pin pcs a p).N)
      ⊢ iprop((∃ r, prngReg c r) ∗ ownSems0 (fun k : PEmpty => k.elim) c ∗ scopedRest (pin pcs a p).spec c)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero _ _ _ _ L lv p howed
  pre c := iprop(StableHlo.held (c : Thread nD τ) (ucRefs τ sig) (Vin c) ∗ Rest c)
  post c := iprop(StableHlo.held (c : Thread nD τ) (ucRefs τ sig) (Vout c) ∗ Rest c)
  X c := iprop(∃ r, prngReg c r)
  Y c := iprop(∃ r, prngReg c r)
  Z c := unscopedRest (pin pcs a p).spec c fun b => Vin c b
  hentry c := by
    have hsplit := arrays_of_unscopedBufs pcs a pdats kit.win kit.arr_whole c ((pdats p c).share_full (hq c)) (fun b => Vin c b) (hA c)
    rw [unscopedBufs_held] at hsplit
    haveI : IsEmpty (Fin (pcs p).pre.K) := hK ▸ Fin.isEmpty'
    rw [ownSems0_none]; unfold prefHeld Dat.owesAt owesWithin
    rw [Finset.univ_eq_empty, BI.bigSep_empty, howed c]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl (by rw [hrec c]; trivial)
      iexact HO
    isplitl [Hp]; · iexact Hp
    iexact Hrest
  hin := hin
  hout := hout
  hexit c := by
    have hjoin := unscopedBufs_of_arrays pcs a (Ix := Unit) (Name := ℕ) (U := U) (Lvl := ℕ) kit.win kit.arr_whole c pdats
      ((pdats p c).share_full (hq c)) (fun b => Vin c b) (fun b => Vout c b) ((pdats p c).arrAt · (pin pcs a p).N) (hF c) (hrest c)
    rw [unscopedBufs_held] at hjoin
    unfold Dat.owesAt owesWithin
    rw [howed c]
    iintro ⟨Ha, ⟨%W, -, HO⟩, HY, Hrest⟩
    imodintro
    isplitl [Ha Hrest]
    · iapply hjoin; isplitl [Ha] <;> iassumption
    isplitl [HY]; · iexact HY
    iexists W; iexact HO

theorem Seg.Chains.mono_last : ∀ {T : Dev nD → sProp 𝕄} {l : List (Seg pcs a pdats () defs₀ 𝒱₀ L lv)} {T' T'' : Dev nD → sProp 𝕄},
    (∀ c, T' c ⊢ T'' c) → Seg.Chains T l T' → Seg.Chains T l T''
  | _, [], _, _, h, h0 => fun c => (h0 c).trans (h c)
  | _, _ :: _, _, _, h, ⟨h1, hl⟩ => ⟨h1, Seg.Chains.mono_last h hl⟩

section Run

variable [DecidableEq P] [∀ e, Nonempty (Val e)] {pcs : P → PCfg sig Λ₀ Val} {a : (p : P) → (pcs p).Adm}
  {pdats : (p : P) → (c : Dev nD) → Dat τ Val Unit ℕ (UR sig nD τ) ℕ (pin pcs a p) c}
  {defs₀ : Defs nD τ sig Val Λ₀} {𝒱₀ : Variants}

local notation "ℝ" => MT nD τ sig Unit Val ℕ (UR sig nD τ) ℕ

set_option backward.isDefEq.respectTransparency.types false in

theorem θ_run_held (hinj : Function.Injective (cellOf (nD := nD) (τ := τ) (pin pcs a)))
    (m : (ℓ : Loc nD τ sig) → Buf Val ℓ) (g : Dev nD → PrngReg)
    (main : Dev nD → Prog (TpuEff nD τ sig Val (Sig Λ₀ P fun p => (pcs p).Adm) .tc) PUnit)
    (segs : List (Seg pcs a pdats () defs₀ 𝒱₀ (fun _ => ∅) fun _ _ => 0))
    (hmain : ∀ c (Q : PUnit → sProp ℝ),
      wp frame (wpE (Pipeline.defs pcs defs₀) (Variants.lift 𝒱₀) (c.tc : Thread nD τ) none) Set.univ (Seg.run segs) Q
        ⊢ wp frame (wpE (Pipeline.defs pcs defs₀) (Variants.lift 𝒱₀) (c.tc : Thread nD τ) none) Set.univ (main c) Q)
    (hnd : (Seg.pipes segs).Nodup) (Wn : Dev nD → Valuation τ sig Val)
    (hch : Seg.Chains (fun c => iprop(StableHlo.held (c : Thread nD τ) (ucRefs τ sig) (fun b => m (c, b)) ∗ Rest c)) segs
      fun c => iprop(StableHlo.held (c : Thread nD τ) (ucRefs τ sig) (Wn c) ∗ Rest c))
    {Q : PUnit × MemSt nD τ sig Val → Prop}
    (hQ : ∀ s : MemSt nD τ sig Val, (∀ c : Dev nD, ∀ b ∈ ucRefs τ sig, s.mem ((c : Thread nD τ).1, b) = Wn c b) → Q (⟨⟩, s)) :
    θ_run (Pipeline.defs pcs defs₀) (onTc main) ⟨m, fun _ => 0, g⟩ Q :=
  θ_run_regions_kit pcs a pdats () hinj emb₁ defs₀ 𝒱₀ _ _ m g main segs hmain hnd
    (O₀ := 0) (hL := fun _ _ => rfl) (G := fun _ => iprop(emp))
    (u₀ := initOf (cells (pin pcs a) hinj) (launchToks (pin pcs a) hinj))
    (hu₀ := by
      iintro Hu; imodintro
      isplitl [Hu]
      · iapply (show (ownU (initOf (cells (pin pcs a) hinj) (launchToks (pin pcs a) hinj)) : sProp ℝ)
            ⊢ BI.own (emb₁ (initOf (cells (pin pcs a) hinj) (launchToks (pin pcs a) hinj))) from .rfl)
        iexact Hu
      iapply (show (BI.emp : sProp ℝ) ⊢ bigSep Finset.univ (fun _ : Dev nD => (BI.emp : sProp ℝ)) from by rw [BI.bigSep_emp_const])
      iempintro)
    (Tₙ := fun c => iprop(StableHlo.held (c : Thread nD τ) (ucRefs τ sig) (Wn c) ∗ ∃ r, prngReg c r)) (hch := hch.mono_last fun c => by
      iintro ⟨Hh, Hp, HO⟩
      isplitl [Hh Hp]
      · isplitl [Hh] <;> iassumption
      iexact HO)
    (hinit := by
      refine initEach _ _ fun c => ?_
      rw [show unscopedBufs c (fun b => m ((c : Thread nD τ).loc b)) = StableHlo.held (c : Thread nD τ) (ucRefs τ sig) (fun b => m (c, b))
        from unscopedBufs_held c fun b => m (c, b)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem ((c : Thread nD τ).1, b) = Wn c b)
    (hfin := fun c s' => by
      iintro ⟨⟨Hh, -⟩, HSI⟩
      unfold StableHlo.held
      imodintro
      iapply (pointsTo_read_all (ucRefs τ sig) (fun b => ((c : Thread nD τ).1, b)) (Wn c) s')
      isplitl [Hh] <;> iassumption)
    (hQ := hQ)

end Run

end Idealize.ShloMosaic.Pipeline

end
-- ==== Proof.KB.RunRegs.lean ====
import proofs.«410974_j45672682225711_2_alg».proof.Proof.KB.RunW
import proofs.«410974_j45672682225711_2_alg».proof.Proof.KB.Reg4b
import proofs.«410974_j45672682225711_2_alg».proof.Proof.LibRegionSeg

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def reg0 : Pipeline.RegionSeg (pcfgs (F := F)) adm (pdats m ρ) () defs₀ 𝒱₀ L lv 0 :=
  .ofHeld launch0.toP rfl (body_obligation0 (Vin0 m ρ)) (fun _ _ => rfl) (fun _ _ => rfl) (fun _ => rfl) (W3 m ρ) (W4 m ρ)
    (fun _ _ => rfl) (hF0 m ρ) (hrest0 m ρ) (fun c => Pipeline.hin_ΦA c rfl) (fun c => Pipeline.hout_ΦA c rfl)

def reg1 : Pipeline.RegionSeg (pcfgs (F := F)) adm (pdats m ρ) () defs₀ 𝒱₀ L lv 1 :=
  .ofHeld launch1.toP rfl (body_obligation1 (Vin1 m ρ)) (fun _ _ => rfl) (fun _ _ => rfl) (fun _ => rfl) (W5 m ρ) (W6 m ρ)
    (fun _ _ => rfl) (hF1 m ρ) (hrest1 m ρ) (fun c => Pipeline.hin_ΦA c rfl) (fun c => Pipeline.hout_ΦA c rfl)

def reg2 : Pipeline.RegionSeg (pcfgs (F := F)) adm (pdats m ρ) () defs₀ 𝒱₀ L lv 2 :=
  .ofHeld launch2.toP rfl (body_obligation2 (Vin2 m ρ)) (fun _ _ => rfl) (fun _ _ => rfl) (fun _ => rfl) (W7 m ρ) (W8 m ρ)
    (fun _ _ => rfl) (hF2 m ρ) (hrest2 m ρ) (fun c => Pipeline.hin_ΦA c rfl) (fun c => Pipeline.hout_ΦA c rfl)

def reg3 : Pipeline.RegionSeg (pcfgs (F := F)) adm (pdats m ρ) () defs₀ 𝒱₀ L lv 3 :=
  .ofHeld launch3.toP rfl (body_obligation3 (Vin3 m ρ)) (fun _ _ => rfl) (fun _ _ => rfl) (fun _ => rfl) (W9 m ρ) (W10 m ρ)
    (fun _ _ => rfl) (hF3 m ρ) (hrest3 m ρ) (fun c => Pipeline.hin_ΦA c rfl) (fun c => Pipeline.hout_ΦA c rfl)

def reg4 : Pipeline.RegionSeg (pcfgs (F := F)) adm (pdats m ρ) () defs₀ 𝒱₀ L lv 4 :=
  .ofHeld launch4.toP rfl (body_obligation4 (Vin4 m ρ)) (fun _ _ => rfl) (fun _ _ => rfl) (fun _ => rfl) (W11 m ρ) (W12 m ρ)
    (fun _ _ => rfl) (hF4 m ρ) (hrest4 m ρ) (hin4 (Vin4 m ρ)) (hout4 (Vin4 m ρ))

def reg5 : Pipeline.RegionSeg (pcfgs (F := F)) adm (pdats m ρ) () defs₀ 𝒱₀ L lv 5 :=
  .ofHeld launch5.toP rfl (body_obligation5 (Vin5 m ρ)) (fun _ _ => rfl) (fun _ _ => rfl) (fun _ => rfl) (W13 m ρ) (W14 m ρ)
    (fun _ _ => rfl) (hF5 m ρ) (hrest5 m ρ) (fun c => Pipeline.hin_ΦA c rfl) (fun c => Pipeline.hout_ΦA c rfl)

def reg6 : Pipeline.RegionSeg (pcfgs (F := F)) adm (pdats m ρ) () defs₀ 𝒱₀ L lv 6 :=
  .ofHeld launch6.toP rfl (body_obligation6 (Vin6 m ρ)) (fun _ _ => rfl) (fun _ _ => rfl) (fun _ => rfl) (W14 m ρ) (W15 m ρ)
    (fun _ _ => rfl) (hF6 m ρ) (hrest6 m ρ) (fun c => Pipeline.hin_ΦA c rfl) (fun c => Pipeline.hout_ΦA c rfl)

end Cert.Kernel.Hand

end
-- ==== Proof.KB.Run.lean ====
import proofs.«410974_j45672682225711_2_alg».proof.Proof.KB.RunRegs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Rest hostSeg)
open Cert.Kernel.Gen

variable {F : FTy → Type} [FloatOps F]

variable (m : (ℓ : Loc nD τ sig) → Buf (Elt F) ℓ) (ρ : Dev nD → PrngReg)

/-- @main's fifteen segments in order: a host segment per stretch, a region per kernel call. -/
abbrev segs : List (Pipeline.Seg (pcfgs (F := F)) adm (pdats m ρ) () defs₀ 𝒱₀ L lv) :=
  [ .host (hostSeg hostOps0 hostOps0_sub hostOps0_fresh (W0 m ρ)),
    .host (hostSeg hostOps0_1 hostOps0_1_sub hostOps0_1_fresh (W1 m ρ)),
    .host (hostSeg hostOps0_2 hostOps0_2_sub hostOps0_2_fresh (W2 m ρ)),
    .region (reg0 m ρ),
    .host (hostSeg hostOps1 hostOps1_sub hostOps1_fresh (W4 m ρ)),
    .region (reg1 m ρ),
    .host (hostSeg hostOps2 hostOps2_sub hostOps2_fresh (W6 m ρ)),
    .region (reg2 m ρ),
    .host (hostSeg hostOps3 hostOps3_sub hostOps3_fresh (W8 m ρ)),
    .region (reg3 m ρ),
    .host (hostSeg hostOps4 hostOps4_sub hostOps4_fresh (W10 m ρ)),
    .region (reg4 m ρ),
    .host (hostSeg hostOps5 hostOps5_sub hostOps5_fresh (W12 m ρ)),
    .region (reg5 m ρ),
    .region (reg6 m ρ) ]

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W15 m ρ c b) → Q (⟨⟩, s)) :
    θ_run defs (onTc (τ := τ) (main (F := F))) ⟨m, fun _ => 0, ρ⟩ Q :=
  Pipeline.θ_run_held cellOf_inj m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()) ] from rfl]
      exact .rfl)
    (by simp only [segs, Pipeline.Seg.pipes_host, Pipeline.Seg.pipes_region, Pipeline.Seg.pipes_nil]; decide)
    (W15 m ρ)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩
    hQ

/-- Every argument array holds what the memory `m` holds there. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)

/-- The last contents are the launch's at every argument, so every argument ends as launched. -/
theorem args_kept {s : MemSt nD τ sig (Elt F)}
    (h : ∀ c : Dev nD, ∀ b ∈ Pipeline.ucRefs τ sig, s.mem ((c : Thread nD τ).1, b) = W15 m ρ c b) (c : Dev nD) : ArgsKept m s c :=
  have A (b : Ref sig .tc) (hu : ¬ (Proc.devRef .tc b : DevRef τ sig).isScoped) (hb : b ∉ wr15) :
      s.mem ((c.tc : Thread nD τ).loc b) = m ((c.tc : Thread nD τ).loc b) := (h c _ (mem_uc b hu)).trans (W15_arg m ρ c b hb)
  ⟨A main_arg0 (by decide) (by decide), A main_arg1 (by decide) (by decide), A main_arg2 (by decide) (by decide), A main_arg3 (by decide) (by decide), A main_arg4 (by decide) (by decide), A main_arg5 (by decide) (by decide), A main_arg6 (by decide) (by decide), A main_arg7 (by decide) (by decide), A main_arg8 (by decide) (by decide), A main_arg9 (by decide) (by decide), A main_arg10 (by decide) (by decide), A main_arg11 (by decide) (by decide), A main_arg12 (by decide) (by decide), A main_arg13 (by decide) (by decide)⟩

/-- The frame: every run of @main ends with every argument array as launched. -/
theorem frame : θ_run defs (onTc (τ := τ) (main (F := F))) ⟨m, fun _ => 0, ρ⟩ (fun r => ∀ c : Dev nD, ArgsKept m r.2 c) :=
  run_post m ρ fun _ h => args_kept m ρ h

end Cert.Kernel.Hand

end
-- ==== Proof.KI.Reg0.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :=
  ((cfg0.win w).blk t).view.read (Elt F) (V c (Pipeline.arrRef spec0 w))

/-- One store over the whole block, so the result is that store's payload. -/
def out0_3 (x0 : Vec F S2048x128 .f32) (x1 : Vec F S128x128 .f32) (x2 : Vec F S1x128 .f32) : Vec F S2048x128 .f32 :=
  View.canon [⟨Rect.unit ![0, 0] S2048x128.size inb_S2048x128_S2048x128_0_0,
    k0_pay1 (View.ld x0 (Rect.unit ![0, 0] S2048x128.size inb_S2048x128_S2048x128_0_0))
      (View.ld x1 (Rect.unit ![0, 0] S128x128.size inb_S128x128_S128x128_0_0))
      (View.ld x2 (Rect.unit ![0, 0] S1x128.size inb_S1x128_S1x128_0_0))⟩]

theorem sound_kernel0 (c : Dev nD) {E i arg1 harg1 arg2 harg2 arg3 harg3 arg4 harg4 x0 x1 x2 x3} {K : PUnit → sProp 𝕄} :
    iprop(owns c arg1 fullShare x0 ∗ owns c arg2 fullShare x1
        ∗ owns c arg3 fullShare x2 ∗ owns c arg4 fullShare x3
        ∗ (iprop(owns c arg1 fullShare x0 ∗ owns c arg2 fullShare x1
            ∗ owns c arg3 fullShare x2
            ∗ owns c arg4 fullShare (out0_3 x0 x1 x2)) -∗ K ⟨⟩))
      ⊢ wp frame (wpE defs₀ Variants.none c none) E (cc0__matmul_kernel i arg1 harg1 arg2 harg2 arg3 harg3 arg4 harg4) K := by
  simp only [cc0__matmul_kernel_eq_skeleton]; unfold cc0__matmul_kernel_skel owns
  iintro ⟨⟨%f1, %hf1, H1⟩, ⟨%f2, %hf2, H2⟩, ⟨%f3, %hf3, H3⟩, ⟨%f4, -, H4⟩, Hk⟩
  subst hf1 hf2 hf3
  sl_exec
  sl_step
  iapply Hk
  isplitl [H1]
  · iexists f1; iframe H1; ipureintro; rfl
  isplitl [H2]
  · iexists f2; iframe H2; ipureintro; rfl
  isplitl [H3]
  · iexists f3; iframe H3; ipureintro; rfl
  iexists _; iframe H4
  ipureintro
  exact View.read_writes_eq_canon _ _ _ (View.cover_of_tiled _ S2048x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 V c) defs₀ Variants.none () Set.univ := fun t => by
  rw [bigSep_W0, bigSep_W0]
  simp only [(dat0 V c).before_in_eq_fetched (0 : Fin 4) rfl (fun _ => rfl) (fun _ _ _ => rfl) (fun _ => rfl),
    (dat0 V c).before_in_eq_fetched (1 : Fin 4) rfl (fun _ => rfl) (fun _ _ _ => rfl) (fun _ => rfl),
    (dat0 V c).before_in_eq_fetched (2 : Fin 4) rfl (fun _ => rfl) (fun _ _ _ => rfl) (fun _ => rfl)]
  show _ ⊢ wp _ _ _ (bodyAt0 t) _
  dsimp only [dat0]
  iintro ⟨HΦ, Ho, ⟨%d0, H0⟩, ⟨%d1, H1⟩, ⟨%d2, H2⟩, ⟨%d3, H3⟩⟩
  iapply sound_kernel0 c
  iframe H0 H1 H2 H3
  iintro H
  iframe HΦ
  isplitl [Ho]; · iexact Ho
  iexact H

end Cert.KernelIdeal.Hand
-- ==== Proof.KI.Reg1.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S256x4096 .f32) (x1 : Vec F S4096x128 .f32) (x2 : Vec F S1x128 .f32) (x3 : Vec F S128x128 .f32) (x4 : Vec F S1x128 .f32) :
    Vec F S256x128 .f32 :=
  View.canon [⟨Rect.unit (s := S256x128) ![0, 0] S256x128.size inb_S256x128_S256x128_0_0,
    k1_pay1 (View.ld x0 (Rect.unit (s := S256x4096) ![0, 0] S256x4096.size inb_S256x4096_S256x4096_0_0))
      (View.ld x1 (Rect.unit (s := S4096x128) ![0, 0] S4096x128.size inb_S4096x128_S4096x128_0_0))
      (View.ld x2 (Rect.unit (s := S1x128) ![0, 0] S1x128.size inb_S1x128_S1x128_0_0))
      (View.ld x3 (Rect.unit (s := S128x128) ![0, 0] S128x128.size inb_S128x128_S128x128_0_0))⟩]

set_option maxHeartbeats 1000000 in
theorem sound_kernel1 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__gcn_fused_kernel i a0 ha0 a1 ha1 a2 ha2 a3 ha3 a4 ha4 a5 ha5) K := by
  simp only [cc1__gcn_fused_kernel_eq_skeleton]; unfold cc1__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S256x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := rfl

theorem body_obligation1 (c : Dev nD) : BodyObligation (dat1 (F := F) V c) (defs₀ (F := F)) Variants.none () Set.univ := fun t => by
  rw [bigSep_W1, bigSep_W1]
  sl_whnfR [defs₀, Defs.onTc]
  simp only [(dat1 V c).before_in_eq_fetched 0 rfl (fun _ => rfl) (fun _ _ _ => rfl) (fun _ => rfl),
    (dat1 V c).before_in_eq_fetched 1 rfl (fun _ => rfl) (fun _ _ _ => rfl) (fun _ => rfl),
    (dat1 V c).before_in_eq_fetched 2 rfl (fun _ => rfl) (fun _ _ _ => rfl) (fun _ => rfl),
    (dat1 V c).before_in_eq_fetched 3 rfl (fun _ => rfl) (fun _ _ _ => rfl) (fun _ => rfl),
    (dat1 V c).before_in_eq_fetched 4 rfl (fun _ => rfl) (fun _ _ _ => rfl) (fun _ => rfl)]
  dsimp only [dat1]
  iintro ⟨HΦ, Ho, ⟨%d0, H0⟩, ⟨%d1, H1⟩, ⟨%d2, H2⟩, ⟨%d3, H3⟩, ⟨%d4, H4⟩, ⟨%d5, H5⟩⟩
  iapply sound_kernel1 c
  iframe H0 H1 H2 H3 H4 H5
  iintro H
  isplitl [HΦ]; · iexact HΦ
  isplitl [Ho]; · iexact Ho
  iexact H

end Cert.KernelIdeal.Hand
-- ==== Proof.KI.Reg2.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S256x4096 .f32) (x1 : Vec F S4096x128 .f32) (x2 : Vec F S1x128 .f32) (x3 : Vec F S128x64 .f32) (x4 : Vec F S1x64 .f32) :
    Vec F S256x64 .f32 :=
  View.canon [⟨Rect.unit (s := S256x64) ![0, 0] S256x64.size inb_S256x64_S256x64_0_0,
    k2_pay1 (View.ld x0 (Rect.unit (s := S256x4096) ![0, 0] S256x4096.size inb_S256x4096_S256x4096_0_0))
      (View.ld x1 (Rect.unit (s := S4096x128) ![0, 0] S4096x128.size inb_S4096x128_S4096x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))⟩]

set_option maxHeartbeats 1000000 in
theorem sound_kernel2 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out2_5 x0 x1 x2 x3 x4)) -∗ K ⟨⟩))
      ⊢ wp frame (wpE (defs₀ (F := F)) Variants.none c none) E (cc2__gcn_fused_kernel i a0 ha0 a1 ha1 a2 ha2 a3 ha3 a4 ha4 a5 ha5) K := by
  simp only [cc2__gcn_fused_kernel_eq_skeleton]; unfold cc2__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S256x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := rfl

theorem body_obligation2 (c : Dev nD) : BodyObligation (dat2 (F := F) V c) (defs₀ (F := F)) Variants.none () Set.univ := fun t => by
  rw [bigSep_W2, bigSep_W2]
  sl_whnfR [defs₀, Defs.onTc]
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl),
    (dat2 V c).before_in_eq_fetched 3 rfl (fun _ => rfl) (fun _ _ _ => rfl) (fun _ => rfl),
    (dat2 V c).before_in_eq_fetched 4 rfl (fun _ => rfl) (fun _ _ _ => rfl) (fun _ => rfl)]
  dsimp only [dat2]
  iintro ⟨HΦ, Ho, ⟨%d0, H0⟩, ⟨%d1, H1⟩, ⟨%d2, H2⟩, ⟨%d3, H3⟩, ⟨%d4, H4⟩, ⟨%d5, H5⟩⟩
  iapply sound_kernel2 c
  iframe H0 H1 H2 H3 H4 H5
  iintro H
  isplitl [HΦ]; · iexact HΦ
  isplitl [Ho]; · iexact Ho
  iexact H

end Cert.KernelIdeal.Hand
-- ==== Proof.KI.Reg3.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :=
  ((cfg3.win w).blk t).view.read (Elt F) (V c (Pipeline.arrRef spec3 w))

/-- One store over the whole block, so the result is that store's payload. -/
def out3_3 (x0 : Vec F S2048x128 .f32) (x1 : Vec F S128x384 .f32) (x2 : Vec F S1x384 .f32) : Vec F S2048x384 .bf16 :=
  View.canon [⟨Rect.unit ![0, 0] S2048x384.size inb_S2048x384_S2048x384_0_0,
    k3_pay1 (View.ld x0 (Rect.unit ![0, 0] S2048x128.size inb_S2048x128_S2048x128_0_0))
      (View.ld x1 (Rect.unit ![0, 0] S128x384.size inb_S128x384_S128x384_0_0))
      (View.ld x2 (Rect.unit ![0, 0] S1x384.size inb_S1x384_S1x384_0_0))⟩]

theorem sound_kernel3 (c : Dev nD) {E i arg1 harg1 arg2 harg2 arg3 harg3 arg4 harg4 x0 x1 x2 x3} {K : PUnit → sProp 𝕄} :
    iprop(owns c arg1 fullShare x0 ∗ owns c arg2 fullShare x1
        ∗ owns c arg3 fullShare x2 ∗ owns c arg4 fullShare x3
        ∗ (iprop(owns c arg1 fullShare x0 ∗ owns c arg2 fullShare x1
            ∗ owns c arg3 fullShare x2
            ∗ owns c arg4 fullShare (out3_3 x0 x1 x2)) -∗ K ⟨⟩))
      ⊢ wp frame (wpE defs₀ Variants.none c none) E (cc3__matmul_kernel i arg1 harg1 arg2 harg2 arg3 harg3 arg4 harg4) K := by
  simp only [cc3__matmul_kernel_eq_skeleton]; unfold cc3__matmul_kernel_skel owns
  iintro ⟨⟨%f1, %hf1, H1⟩, ⟨%f2, %hf2, H2⟩, ⟨%f3, %hf3, H3⟩, ⟨%f4, -, H4⟩, Hk⟩
  subst hf1 hf2 hf3
  sl_exec
  sl_step
  iapply Hk
  isplitl [H1]
  · iexists f1; iframe H1; ipureintro; rfl
  isplitl [H2]
  · iexists f2; iframe H2; ipureintro; rfl
  isplitl [H3]
  · iexists f3; iframe H3; ipureintro; rfl
  iexists _; iframe H4
  ipureintro
  exact View.read_writes_eq_canon _ _ _ (View.cover_of_tiled _ S2048x384.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3_3 (iblk3 V c 0 t) (iblk3 V c 1 t) (iblk3 V c 2 t) := by dsimp only [dat3]

theorem body_obligation3 (c : Dev nD) : BodyObligation (dat3 V c) defs₀ Variants.none () Set.univ := fun t => by
  rw [bigSep_W3, bigSep_W3]
  simp only [(dat3 V c).before_in_eq_fetched (0 : Fin 4) rfl (fun _ => rfl) (fun _ _ _ => rfl) (fun _ => rfl),
    (dat3 V c).before_in_eq_fetched (1 : Fin 4) rfl (fun _ => rfl) (fun _ _ _ => rfl) (fun _ => rfl),
    (dat3 V c).before_in_eq_fetched (2 : Fin 4) rfl (fun _ => rfl) (fun _ _ _ => rfl) (fun _ => rfl)]
  show _ ⊢ wp _ _ _ (bodyAt3 t) _
  dsimp only [dat3]
  iintro ⟨HΦ, Ho, ⟨%d0, H0⟩, ⟨%d1, H1⟩, ⟨%d2, H2⟩, ⟨%d3, H3⟩⟩
  iapply sound_kernel3 c
  iframe H0 H1 H2 H3
  iintro H
  iframe HΦ
  isplitl [Ho]; · iexact Ho
  iexact H

end Cert.KernelIdeal.Hand
-- ==== Proof.KI.Reg4.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev St4 (F : FTy → Type) [FloatOps F] : Type :=
  Vec F S8x512x1 .f32 × Vec F S8x512x1 .f32 × Vec F S8x512x16 .f32

def mNext4 (xq xk : Vec F S8x512x16 .bf16) (m0 : Vec F S8x512x1 .f32) : Vec F S8x512x1 .f32 :=
  k4_pay2 (k4_pay9 xq xk m0)

def lNext4 (xq xk : Vec F S8x512x16 .bf16) (m0 l0 : Vec F S8x512x1 .f32) : Vec F S8x512x1 .f32 :=
  k4_pay12 xq xk m0 m0 l0

def aNext4 (xq xk xv : Vec F S8x512x16 .bf16) (m0 : Vec F S8x512x1 .f32) (a0 : Vec F S8x512x16 .f32) :
    Vec F S8x512x16 .f32 :=
  k4_pay1 (k4_pay7 xv) (k4_pay10 xq xk m0 m0) (k4_pay11 xq xk m0) a0

def step4 (s : St4 F) (xq xk xv : Vec F S8x512x16 .bf16) : St4 F :=
  (mNext4 xq xk s.1, lNext4 xq xk s.1 s.2.1, aNext4 xq xk xv s.1 s.2.2)

def reset4 : St4 F := (k4_pay4, k4_pay5, k4_pay6)

def out4_3 (a : Vec F S8x512x16 .f32) (l : Vec F S8x512x1 .f32) : Vec F S8x512x16 .bf16 := k4_pay3 a l

def pt4 (n : ℕ) : Fin cfg4.N := ⟨n % 64, by rw [show cfg4.N = 64 from N_4]; exact Nat.mod_lt _ (by decide)⟩

theorem pt4_val (t : Fin cfg4.N) : pt4 t.val = t :=
  Fin.ext (Nat.mod_eq_of_lt (lt_of_lt_of_eq t.isLt (show cfg4.N = 64 from N_4)))

def st4 (c : Dev nD) : ℕ → St4 F
  | 0 => step4 reset4 (iblk4 V c 0 (pt4 0)) (iblk4 V c 1 (pt4 0)) (iblk4 V c 2 (pt4 0))
  | n + 1 => step4 (if (n + 1) % 8 = 0 then reset4 else st4 c n)
      (iblk4 V c 0 (pt4 (n + 1))) (iblk4 V c 1 (pt4 (n + 1))) (iblk4 V c 2 (pt4 (n + 1)))

theorem st4_first (c : Dev nD) (n : ℕ) (h : n % 8 = 0) :
    st4 V c n = step4 reset4 (iblk4 V c 0 (pt4 n)) (iblk4 V c 1 (pt4 n)) (iblk4 V c 2 (pt4 n)) := by
  cases n with
  | zero => rfl
  | succ n => rw [st4, if_pos h]

theorem st4_next (c : Dev nD) (n : ℕ) (h : n % 8 ≠ 0) :
    st4 V c n = step4 (st4 V c (n - 1)) (iblk4 V c 0 (pt4 n)) (iblk4 V c 1 (pt4 n)) (iblk4 V c 2 (pt4 n)) := by
  cases n with
  | zero => exact absurd (Nat.zero_mod _) h
  | succ n => rw [st4, if_neg h]; rfl

abbrev cond4_0 (i : grid4.Coords) : Prop :=
  (Scalar.cmpi .ne (Scalar.extui (Scalar.cmpi .eq (BitVec.ofNat 32 (i 1).val) 0#32)) 0#32) = 1#1

abbrev cond4_1 (i : grid4.Coords) : Prop := k4_cond2 i = 1#1

theorem hcond4_0 : ∀ t : Fin cfg4.N, cond4_0 (grid4.coords t) ↔ t.val % 8 = 0 := by
  decide +kernel

theorem hcond4_1 : ∀ t : Fin cfg4.N, cond4_1 (grid4.coords t) ↔ t.val % 8 = 7 := by
  decide +kernel

theorem idleAt4_3 : ∀ t : Fin cfg4.N, ¬cond4_1 (grid4.coords t) → cfg4.idle 3 (grid4.coords t) = true := by
  decide +kernel
theorem noFlush4_3 : ∀ t : Fin cfg4.N, ¬cond4_1 (grid4.coords t) → (cfg4.win 3).flush t = false := by
  decide +kernel

theorem liveAt4_3 : ∀ t : Fin cfg4.N, cond4_1 (grid4.coords t) → cfg4.idle 3 (grid4.coords t) = false := by
  decide +kernel

abbrev scM4_0 : Memref sig .tc .vmem S8x512x1 .f32 := Memref.whole cc4_scratch0
abbrev scM4_1 : Memref sig .tc .vmem S8x512x1 .f32 := Memref.whole cc4_scratch1
abbrev scM4_2 : Memref sig .tc .vmem S8x512x16 .f32 := Memref.whole cc4_scratch2

def PhiS4 (c : Dev nD) : ℕ → sProp 𝕄
  | 0 => iprop((∃ r, prngReg c r) ∗ Pipeline.scopedRest spec4 c)
  | n + 1 => iprop(iprop(owns c scM4_0 fullShare (st4 V c n).1 ∗ owns c scM4_1 fullShare (st4 V c n).2.1
        ∗ owns c scM4_2 fullShare (st4 V c n).2.2)
      ∗ Pipeline.scopedRestBut spec4 c [cc4_scratch0, cc4_scratch1, cc4_scratch2] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (st4 V c t.val).2.2 (st4 V c t.val).2.1
  Φ t := PhiS4 V c t.val
  q _ := fullShare
  owed _ := 0

theorem A_eq4 (c : Dev nD) (w : Fin cfg4.W) : (dat4 V c).A w = V c (Pipeline.arrRef spec4 w) := by
  dsimp only [dat4]

theorem after4_3_last (c : Dev nD) (t : Fin cfg4.N) :
    (dat4 V c).after 3 t = out4_3 (st4 V c t.val).2.2 (st4 V c t.val).2.1 := by dsimp only [dat4]

theorem Phi4_eq (c : Dev nD) (t : Fin (cfg4.N + 1)) : (dat4 V c).Φ t = PhiS4 V c t.val := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem hin4 (c : Dev nD) :
    iprop((∃ r, prngReg c r) ∗ Pipeline.prefHeld (pcfgs (F := F) 4).pre c (fun _ => fullShare) ((cfgs 4).toPCfg_adm).1
        ∗ Pipeline.scopedRest spec4 c)
      ⊢ ((dat4 V c).Φ 0 : sProp 𝕄) := by
  rw [Phi4_eq, Fin.val_zero, PhiS4]
  iintro ⟨Hp, -, Hr⟩
  iframe

theorem hout4 (c : Dev nD) :
    ((dat4 V c).Φ (Fin.last cfg4.N) : sProp 𝕄)
      ⊢ iprop((∃ r, prngReg c r) ∗ Pipeline.ownSems0 (fun k : PEmpty => k.elim) c
        ∗ Pipeline.scopedRest spec4 c) := by
  rw [Phi4_eq, Fin.val_last, show cfg4.N = 63 + 1 from N_4, PhiS4, Pipeline.ownSems0_none, scopedRest4_split]
  simp only [owns_whole]
  iintro ⟨⟨H0, H1, H2⟩, Hr, Hp⟩
  iframe Hp Hr
  isplitr; · iempintro
  isplitl [H0]; · iexists _; iexact H0
  isplitl [H1]; · iexists _; iexact H1
  iexists _; iexact H2

end Cert.KernelIdeal.Hand
-- ==== Proof.KI.Reg5.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S2048x128 .bf16) (x1 : Vec F S128x128 .f32) (x2 : Vec F S1x128 .f32) (x3 : Vec F S128x64 .f32) (x4 : Vec F S1x64 .f32) :
    Vec F S2048x64 .f32 :=
  View.canon [⟨Rect.unit (s := S2048x64) ![0, 0] S2048x64.size inb_S2048x64_S2048x64_0_0,
    k5_pay1 (View.ld x0 (Rect.unit (s := S2048x128) ![0, 0] S2048x128.size inb_S2048x128_S2048x128_0_0))
      (View.ld x1 (Rect.unit (s := S128x128) ![0, 0] S128x128.size inb_S128x128_S128x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))⟩]

set_option maxHeartbeats 1000000 in
theorem sound_kernel5 (c : Dev nD) {E i a0 ha0 a1 ha1 a2 ha2 a3 ha3 a4 ha4 a5 ha5 x0 x1 x2 x3 x4 x5} {K : PUnit → sProp 𝕄} :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5_5 x0 x1 x2 x3 x4)) -∗ K ⟨⟩))
      ⊢ wp frame (wpE (defs₀ (F := F)) Variants.none c none) E (cc5__out_proj_fused_kernel i a0 ha0 a1 ha1 a2 ha2 a3 ha3 a4 ha4 a5 ha5) K := by
  simp only [cc5__out_proj_fused_kernel_eq_skeleton]; unfold cc5__out_proj_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2048x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  simp only [(dat5 V c).before_in_eq_fetched 0 rfl (fun _ => rfl) (fun _ _ _ => rfl) (fun _ => rfl),
    (dat5 V c).before_in_eq_fetched 1 rfl (fun _ => rfl) (fun _ _ _ => rfl) (fun _ => rfl),
    (dat5 V c).before_in_eq_fetched 2 rfl (fun _ => rfl) (fun _ _ _ => rfl) (fun _ => rfl),
    (dat5 V c).before_in_eq_fetched 3 rfl (fun _ => rfl) (fun _ _ _ => rfl) (fun _ => rfl),
    (dat5 V c).before_in_eq_fetched 4 rfl (fun _ => rfl) (fun _ _ _ => rfl) (fun _ => rfl)]
  dsimp only [dat5]
  iintro ⟨HΦ, Ho, ⟨%d0, H0⟩, ⟨%d1, H1⟩, ⟨%d2, H2⟩, ⟨%d3, H3⟩, ⟨%d4, H4⟩, ⟨%d5, H5⟩⟩
  iapply sound_kernel5 c
  iframe H0 H1 H2 H3 H4 H5
  iintro H
  isplitl [HΦ]; · iexact HΦ
  isplitl [Ho]; · iexact Ho
  iexact H

end Cert.KernelIdeal.Hand
-- ==== Proof.KI.Reg6.lean ====
import proofs.«410974_j45672682225711_2_alg».proof.Proof.Gen.KernelIdeal.Launch
import proofs.«410974_j45672682225711_2_alg».proof.Proof.Gen.KernelIdeal.Skeleton
import proofs.«410974_j45672682225711_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) :=
  ((cfg6.win w).blk t).view.read (Elt F) (V c (Pipeline.arrRef spec6 w))

abbrev r6_0 : Rect S2048x64 := Rect.unit ![0, 0] S2048x64.size inb_S2048x64_S2048x64_0_0

/-- One store over the whole block, so the result is that store's payload. -/
def out6_2 (x0 x1 : Vec F S2048x64 .f32) : Vec F S2048x64 .f32 :=
  View.canon [⟨r6_0, k6_pay1 (View.ld x0 r6_0) (View.ld x1 r6_0)⟩]

theorem sound_kernel6 (c : Dev nD) {E i arg1 harg1 arg2 harg2 arg3 harg3 x0 x1 x2} {K : PUnit → sProp 𝕄} :
    iprop(owns c arg1 fullShare x0 ∗ owns c arg2 fullShare x1
        ∗ owns c arg3 fullShare x2
        ∗ (iprop(owns c arg1 fullShare x0 ∗ owns c arg2 fullShare x1
            ∗ owns c arg3 fullShare (out6_2 x0 x1)) -∗ K ⟨⟩))
      ⊢ wp frame (wpE defs₀ Variants.none c none) E (cc6__combine_kernel i arg1 harg1 arg2 harg2 arg3 harg3) K := by
  simp only [cc6__combine_kernel_eq_skeleton]; unfold cc6__combine_kernel_skel owns
  iintro ⟨⟨%f0, %hf0, H0⟩, ⟨%f1, %hf1, H1⟩, ⟨%f2, -, H2⟩, Hk⟩
  subst hf0 hf1
  sl_exec
  sl_step
  iapply Hk
  isplitl [H0]
  · iexists f0; iframe H0; ipureintro; rfl
  isplitl [H1]
  · iexists f1; iframe H1; ipureintro; rfl
  iexists _; iframe H2
  ipureintro
  exact View.read_writes_eq_canon _ _ _ (View.cover_of_tiled _ S2048x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem body_obligation6 (c : Dev nD) : BodyObligation (dat6 V c) defs₀ Variants.none () Set.univ := fun t => by
  rw [bigSep_W6, bigSep_W6]
  simp only [(dat6 V c).before_in_eq_fetched (0 : Fin 3) rfl (fun _ => rfl) (fun _ _ _ => rfl) (fun _ => rfl),
    (dat6 V c).before_in_eq_fetched (1 : Fin 3) rfl (fun _ => rfl) (fun _ _ _ => rfl) (fun _ => rfl)]
  show _ ⊢ wp _ _ _ (bodyAt6 t) _
  dsimp only [dat6]
  iintro ⟨HΦ, Ho, ⟨%d0, H0⟩, ⟨%d1, H1⟩, ⟨%d2, H2⟩⟩
  iapply sound_kernel6 c
  iframe H0 H1 H2
  iintro H
  iframe HΦ
  isplitl [Ho]; · iexact Ho
  iexact H

end Cert.KernelIdeal.Hand
-- ==== Proof.KI.RunW.lean ====
import proofs.«410974_j45672682225711_2_alg».proof.Proof.Gen.KernelIdeal.Regions
import proofs.«410974_j45672682225711_2_alg».proof.Proof.KI.Reg0
import proofs.«410974_j45672682225711_2_alg».proof.Proof.KI.Reg1
import proofs.«410974_j45672682225711_2_alg».proof.Proof.KI.Reg2
import proofs.«410974_j45672682225711_2_alg».proof.Proof.KI.Reg3
import proofs.«410974_j45672682225711_2_alg».proof.Proof.KI.Reg4
import proofs.«410974_j45672682225711_2_alg».proof.Proof.KI.Reg5
import proofs.«410974_j45672682225711_2_alg».proof.Proof.KI.Reg6
import proofs.«410974_j45672682225711_2_alg».proof.Proof.LibRegionStep

noncomputable section

namespace Cert.KernelIdeal.Hand

open Idealize.ShloMosaic Idealize.ShloMosaic.TcCoe
open Idealize.ShloMosaic.Pipeline (Keeps)
open Cert.KernelIdeal.Gen

variable {F : FTy → Type} [FloatOps F]

abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

abbrev W1 : Dev nD → Valuation τ sig (Elt F) := fun c => StableHlo.after hostOps0 (W0 m ρ c)
theorem keeps1 : Keeps hostOps0_W (W0 m ρ) (W1 m ρ) := .after hostOps0 _ hostOps0_writes

abbrev W2 : Dev nD → Valuation τ sig (Elt F) := fun c => StableHlo.after hostOps0_1 (W1 m ρ c)
theorem keeps2 : Keeps hostOps0_1_W (W1 m ρ) (W2 m ρ) := .after hostOps0_1 _ hostOps0_1_writes

abbrev W3 : Dev nD → Valuation τ sig (Elt F) := fun c => StableHlo.after hostOps0_2 (W2 m ρ c)
theorem keeps3 : Keeps hostOps0_2_W (W2 m ρ) (W3 m ρ) := .after hostOps0_2 _ hostOps0_2_writes

abbrev Vin0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Vin0 m ρ) c).arrAt w cfg0.N
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  Eq.symm (Pipeline.withArrays_arr spec0 launch0.win.arr_inj c _ _ w)
theorem hrest0 (c : Dev nD) : ∀ b, b ∉ Finset.univ.image (Pipeline.arrRef spec0) → Vout0 m ρ c b = Vin0 m ρ c b :=
  Pipeline.withArrays_of_not_mem spec0 c _ _
theorem keeps4 : Keeps [main_v47] (W3 m ρ) (W4 m ρ) :=
  .exit (dat0 (Vin0 m ρ)) launch0.win.arr_inj _ (A_eq0 _) (by decide)

abbrev W5 : Dev nD → Valuation τ sig (Elt F) := fun c => StableHlo.after hostOps1 (W4 m ρ c)
theorem keeps5 : Keeps hostOps1_W (W4 m ρ) (W5 m ρ) := .after hostOps1 _ hostOps1_writes

abbrev Vin1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vin1 m ρ) c).arrAt w cfg1.N
abbrev Vout1 : (c : Dev nD) → (b : Ref sig .tc) → Buf (Elt F) ((c : Thread nD τ).loc b) := fun c b => W6 m ρ c b
theorem hF1 (c : Dev nD) (w : Fin cfg1.W) : (dat1 (Vin1 m ρ) c).arrAt w cfg1.N = Vout1 m ρ c (Pipeline.arrRef spec1 w) :=
  Eq.symm (Pipeline.withArrays_arr spec1 launch1.win.arr_inj c _ _ w)
theorem hrest1 (c : Dev nD) : ∀ b, b ∉ Finset.univ.image (Pipeline.arrRef spec1) → Vout1 m ρ c b = Vin1 m ρ c b :=
  Pipeline.withArrays_of_not_mem spec1 c _ _
theorem keeps6 : Keeps [main_v51] (W5 m ρ) (W6 m ρ) :=
  .exit (dat1 (Vin1 m ρ)) launch1.win.arr_inj _ (A_eq1 _) (by decide)

abbrev W7 : Dev nD → Valuation τ sig (Elt F) := fun c => StableHlo.after hostOps2 (W6 m ρ c)
theorem keeps7 : Keeps hostOps2_W (W6 m ρ) (W7 m ρ) := .after hostOps2 _ hostOps2_writes

abbrev Vin2 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (Vin2 m ρ) c).arrAt w cfg2.N
abbrev Vout2 : (c : Dev nD) → (b : Ref sig .tc) → Buf (Elt F) ((c : Thread nD τ).loc b) := fun c b => W8 m ρ c b
theorem hF2 (c : Dev nD) (w : Fin cfg2.W) : (dat2 (Vin2 m ρ) c).arrAt w cfg2.N = Vout2 m ρ c (Pipeline.arrRef spec2 w) :=
  Eq.symm (Pipeline.withArrays_arr spec2 launch2.win.arr_inj c _ _ w)
theorem hrest2 (c : Dev nD) : ∀ b, b ∉ Finset.univ.image (Pipeline.arrRef spec2) → Vout2 m ρ c b = Vin2 m ρ c b :=
  Pipeline.withArrays_of_not_mem spec2 c _ _
theorem keeps8 : Keeps [main_v54] (W7 m ρ) (W8 m ρ) :=
  .exit (dat2 (Vin2 m ρ)) launch2.win.arr_inj _ (A_eq2 _) (by decide)

abbrev W9 : Dev nD → Valuation τ sig (Elt F) := fun c => StableHlo.after hostOps3 (W8 m ρ c)
theorem keeps9 : Keeps hostOps3_W (W8 m ρ) (W9 m ρ) := .after hostOps3 _ hostOps3_writes

abbrev Vin3 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (Vin3 m ρ) c).arrAt w cfg3.N
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  Eq.symm (Pipeline.withArrays_arr spec3 launch3.win.arr_inj c _ _ w)
theorem hrest3 (c : Dev nD) : ∀ b, b ∉ Finset.univ.image (Pipeline.arrRef spec3) → Vout3 m ρ c b = Vin3 m ρ c b :=
  Pipeline.withArrays_of_not_mem spec3 c _ _
theorem keeps10 : Keeps [main_v57] (W9 m ρ) (W10 m ρ) :=
  .exit (dat3 (Vin3 m ρ)) launch3.win.arr_inj _ (A_eq3 _) (by decide)

abbrev W11 : Dev nD → Valuation τ sig (Elt F) := fun c => StableHlo.after hostOps4 (W10 m ρ c)
theorem keeps11 : Keeps hostOps4_W (W10 m ρ) (W11 m ρ) := .after hostOps4 _ hostOps4_writes

abbrev Vin4 : (c : Dev nD) → (b : Ref sig .tc) → Buf (Elt F) ((c : Thread nD τ).loc b) := fun c b => W11 m ρ c b
def W12 (c : Dev nD) : Valuation τ sig (Elt F) :=
  Pipeline.withArrays spec4 c (W11 m ρ c) fun w => (dat4 (Vin4 m ρ) c).arrAt w cfg4.N
abbrev Vout4 : (c : Dev nD) → (b : Ref sig .tc) → Buf (Elt F) ((c : Thread nD τ).loc b) := fun c b => W12 m ρ c b
theorem hF4 (c : Dev nD) (w : Fin cfg4.W) : (dat4 (Vin4 m ρ) c).arrAt w cfg4.N = Vout4 m ρ c (Pipeline.arrRef spec4 w) :=
  Eq.symm (Pipeline.withArrays_arr spec4 launch4.win.arr_inj c _ _ w)
theorem hrest4 (c : Dev nD) : ∀ b, b ∉ Finset.univ.image (Pipeline.arrRef spec4) → Vout4 m ρ c b = Vin4 m ρ c b :=
  Pipeline.withArrays_of_not_mem spec4 c _ _
theorem keeps12 : Keeps [main_v67] (W11 m ρ) (W12 m ρ) :=
  .exit (dat4 (Vin4 m ρ)) launch4.win.arr_inj _ (A_eq4 _) (by decide)

abbrev W13 : Dev nD → Valuation τ sig (Elt F) := fun c => StableHlo.after hostOps5 (W12 m ρ c)
theorem keeps13 : Keeps hostOps5_W (W12 m ρ) (W13 m ρ) := .after hostOps5 _ hostOps5_writes

abbrev Vin5 : (c : Dev nD) → (b : Ref sig .tc) → Buf (Elt F) ((c : Thread nD τ).loc b) := fun c b => W13 m ρ c b
def W14 (c : Dev nD) : Valuation τ sig (Elt F) :=
  Pipeline.withArrays spec5 c (W13 m ρ c) fun w => (dat5 (Vin5 m ρ) c).arrAt w cfg5.N
abbrev Vout5 : (c : Dev nD) → (b : Ref sig .tc) → Buf (Elt F) ((c : Thread nD τ).loc b) := fun c b => W14 m ρ c b
theorem hF5 (c : Dev nD) (w : Fin cfg5.W) : (dat5 (Vin5 m ρ) c).arrAt w cfg5.N = Vout5 m ρ c (Pipeline.arrRef spec5 w) :=
  Eq.symm (Pipeline.withArrays_arr spec5 launch5.win.arr_inj c _ _ w)
theorem hrest5 (c : Dev nD) : ∀ b, b ∉ Finset.univ.image (Pipeline.arrRef spec5) → Vout5 m ρ c b = Vin5 m ρ c b :=
  Pipeline.withArrays_of_not_mem spec5 c _ _
theorem keeps14 : Keeps [main_v73] (W13 m ρ) (W14 m ρ) :=
  .exit (dat5 (Vin5 m ρ)) launch5.win.arr_inj _ (A_eq5 _) (by decide)

abbrev Vin6 : (c : Dev nD) → (b : Ref sig .tc) → Buf (Elt F) ((c : Thread nD τ).loc b) := fun c b => W14 m ρ c b
def W15 (c : Dev nD) : Valuation τ sig (Elt F) :=
  Pipeline.withArrays spec6 c (W14 m ρ c) fun w => (dat6 (Vin6 m ρ) c).arrAt w cfg6.N
abbrev Vout6 : (c : Dev nD) → (b : Ref sig .tc) → Buf (Elt F) ((c : Thread nD τ).loc b) := fun c b => W15 m ρ c b
theorem hF6 (c : Dev nD) (w : Fin cfg6.W) : (dat6 (Vin6 m ρ) c).arrAt w cfg6.N = Vout6 m ρ c (Pipeline.arrRef spec6 w) :=
  Eq.symm (Pipeline.withArrays_arr spec6 launch6.win.arr_inj c _ _ w)
theorem hrest6 (c : Dev nD) : ∀ b, b ∉ Finset.univ.image (Pipeline.arrRef spec6) → Vout6 m ρ c b = Vin6 m ρ c b :=
  Pipeline.withArrays_of_not_mem spec6 c _ _
theorem keeps15 : Keeps [main_v74] (W14 m ρ) (W15 m ρ) :=
  .exit (dat6 (Vin6 m ρ)) launch6.win.arr_inj _ (A_eq6 _) (by decide)

theorem result_eq (c : Dev nD) : W15 m ρ c (Proc.devRef .tc main_v74) = (dat6 (Vin6 m ρ) c).arrAt 2 cfg6.N :=
  (hF6 m ρ c 2).symm

abbrev wr2 : List (Ref sig .tc) := hostOps0_W ++ hostOps0_1_W
theorem kept2 : Keeps wr2 (W0 m ρ) (W2 m ρ) := (keeps1 m ρ).trans (keeps2 m ρ)
abbrev wr3 : List (Ref sig .tc) := wr2 ++ hostOps0_2_W
theorem kept3 : Keeps wr3 (W0 m ρ) (W3 m ρ) := (kept2 m ρ).trans (keeps3 m ρ)
abbrev wr4 : List (Ref sig .tc) := wr3 ++ [main_v47]
theorem kept4 : Keeps wr4 (W0 m ρ) (W4 m ρ) := (kept3 m ρ).trans (keeps4 m ρ)
abbrev wr5 : List (Ref sig .tc) := wr4 ++ hostOps1_W
theorem kept5 : Keeps wr5 (W0 m ρ) (W5 m ρ) := (kept4 m ρ).trans (keeps5 m ρ)
abbrev wr6 : List (Ref sig .tc) := wr5 ++ [main_v51]
theorem kept6 : Keeps wr6 (W0 m ρ) (W6 m ρ) := (kept5 m ρ).trans (keeps6 m ρ)
abbrev wr7 : List (Ref sig .tc) := wr6 ++ hostOps2_W
theorem kept7 : Keeps wr7 (W0 m ρ) (W7 m ρ) := (kept6 m ρ).trans (keeps7 m ρ)
abbrev wr8 : List (Ref sig .tc) := wr7 ++ [main_v54]
theorem kept8 : Keeps wr8 (W0 m ρ) (W8 m ρ) := (kept7 m ρ).trans (keeps8 m ρ)
abbrev wr9 : List (Ref sig .tc) := wr8 ++ hostOps3_W
theorem kept9 : Keeps wr9 (W0 m ρ) (W9 m ρ) := (kept8 m ρ).trans (keeps9 m ρ)
abbrev wr10 : List (Ref sig .tc) := wr9 ++ [main_v57]
theorem kept10 : Keeps wr10 (W0 m ρ) (W10 m ρ) := (kept9 m ρ).trans (keeps10 m ρ)
abbrev wr11 : List (Ref sig .tc) := wr10 ++ hostOps4_W
theorem kept11 : Keeps wr11 (W0 m ρ) (W11 m ρ) := (kept10 m ρ).trans (keeps11 m ρ)
abbrev wr12 : List (Ref sig .tc) := wr11 ++ [main_v67]
theorem kept12 : Keeps wr12 (W0 m ρ) (W12 m ρ) := (kept11 m ρ).trans (keeps12 m ρ)
abbrev wr13 : List (Ref sig .tc) := wr12 ++ hostOps5_W
theorem kept13 : Keeps wr13 (W0 m ρ) (W13 m ρ) := (kept12 m ρ).trans (keeps13 m ρ)
abbrev wr14 : List (Ref sig .tc) := wr13 ++ [main_v73]
theorem kept14 : Keeps wr14 (W0 m ρ) (W14 m ρ) := (kept13 m ρ).trans (keeps14 m ρ)
abbrev wr15 : List (Ref sig .tc) := wr14 ++ [main_v74]
theorem kept15 : Keeps wr15 (W0 m ρ) (W15 m ρ) := (kept14 m ρ).trans (keeps15 m ρ)

/-- For the launch arguments: none of them is in `wr15`. -/
theorem W15_arg (c : Dev nD) (r : Ref sig .tc) (h : r ∉ wr15) :
    W15 m ρ c (Proc.devRef .tc r) = m ((c : Thread nD τ).loc r) :=
  kept15 m ρ c r h

end Cert.KernelIdeal.Hand

end
-- ==== Proof.KI.Reg4b.lean ====
import proofs.«410974_j45672682225711_2_alg».proof.Proof.KI.Reg4
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Whole

variable {sig' : RefSig} {κ : Kind} {sp : Space} {e : EltTy} {Val : EltTy → Type} [∀ e, Nonempty (Val e)]

private theorem zero3_4 : (![0, 0, 0] : Fin 3 → ℕ) = fun _ => 0 := by funext a; fin_cases a <;> rfl

-- A store through the full rectangle at zero offsets, made last, leaves exactly its payload.
private theorem read_writes_whole4 {S : Shape} (v : View sig' κ sp S e) (f : v.ty.Contents Val) {off : Fin S.rank → Nat}
    (h : off = fun _ => 0) (inb : ∀ a, off a + S.size a ≤ S.size a) (p : S.Idx → Val e)
    (L : List (View.Piece Val S e)) :
    v.read Val (v.writes Val f ((⟨Rect.unit off S.size inb, p⟩ : View.Piece Val S e) :: L)) = p := by
  rw [View.read_writes_eq_canon _ _ _ (fun y => ⟨_, List.mem_cons.mpr (Or.inl rfl), View.mem_set_unit_zero h inb y⟩),
    View.canon_cons_unit_zero h]

end Whole

-- One key block updates the carried state (reset first at a row's start); the last block of a row stores the quotient.
theorem sound_kernel4 (c : Dev nD) {E : Set ℕ} {i : grid4.Coords}
    {arg2 arg3 arg4 arg5 : Memref sig .tc .vmem S8x512x16 .bf16} {arg6 arg7 : Memref sig .tc .vmem S8x512x1 .f32}
    {arg8 : Memref sig .tc .vmem S8x512x16 .f32} {harg2 : arg2.IsWhole} {harg3 : arg3.IsWhole} {harg4 : arg4.IsWhole}
    {harg5 : arg5.IsWhole} {harg6 : arg6.IsWhole} {harg7 : arg7.IsWhole} {harg8 : arg8.IsWhole}
    {xq xk xv : Vec F S8x512x16 .bf16} (xo : Vec F S8x512x16 .bf16) {o : Vec F S8x512x16 .bf16}
    (m0 l0 : Vec F S8x512x1 .f32) (a0 : Vec F S8x512x16 .f32) {s : St4 F}
    (hs : s = step4 (if cond4_0 i then reset4 else (m0, l0, a0)) xq xk xv)
    (ho : o = if cond4_1 i then out4_3 s.2.2 s.2.1 else xo)
    {K : PUnit → sProp 𝕄} :
    iprop(owns c arg2 fullShare xq ∗ owns c arg3 fullShare xk ∗ owns c arg4 fullShare xv ∗ owns c arg5 fullShare xo
        ∗ owns c arg6 fullShare m0 ∗ owns c arg7 fullShare l0 ∗ owns c arg8 fullShare a0
        ∗ (iprop(owns c arg2 fullShare xq ∗ owns c arg3 fullShare xk ∗ owns c arg4 fullShare xv
            ∗ owns c arg5 fullShare o ∗ owns c arg6 fullShare s.1 ∗ owns c arg7 fullShare s.2.1
            ∗ owns c arg8 fullShare s.2.2) -∗ K ⟨⟩))
      ⊢ wp frame (wpE (defs₀ (F := F)) Variants.none c none) E
          (cc4__attn_kernel i arg2 harg2 arg3 harg3 arg4 harg4 arg5 harg5 arg6 harg6 arg7 harg7 arg8 harg8) K := by
  subst ho hs
  by_cases hc0 : cond4_0 i <;> by_cases hc1 : cond4_1 i
  all_goals
    (first | rw [if_pos hc0] | rw [if_neg hc0]); (first | rw [if_pos hc1] | rw [if_neg hc1])
    simp only [cc4__attn_kernel_eq_skeleton]; unfold cc4__attn_kernel_skel
    simp only [k4_part1_eq_skeleton]; unfold k4_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    subst hf2 hf3 hf4 hf5 hf6 hf7 hf8
    sl_exec (disch := first | exact hc0 | exact hc1)
    sl_step
    iapply Hk
    isplitl [H2]; iexists _; iframe H2; ipureintro; rotate_left
    isplitl [H3]; iexists _; iframe H3; ipureintro; rotate_left
    isplitl [H4]; iexists _; iframe H4; ipureintro; rotate_left
    isplitl [H5]; iexists _; iframe H5; ipureintro; rotate_left
    isplitl [H6]; iexists _; iframe H6; ipureintro; rotate_left
    isplitl [H7]; iexists _; iframe H7; ipureintro; rotate_left
    iexists _; iframe H8; ipureintro
    all_goals
      first
      | (try sl_unfold_run_names)
        rw [read_writes_whole4 _ _ zero3_4]
        (try simp only [View.readCov_cons_toLoadRect, View.readAt_eq_ld, View.ld_unit_zero (S := S8x512x16) zero3_4,
          View.ld_unit_zero (S := S8x512x1) zero3_4])
        rfl
      | rfl

-- Some state is always carried; unless a row starts, it is the carried state after the preceding point.
theorem PhiS4_any (c : Dev nD) (n : ℕ) : PhiS4 V c n ⊢ iprop(∃ s : St4 F, ⌜n % 8 ≠ 0 → s = st4 V c (n - 1)⌝
      ∗ iprop(owns c scM4_0 fullShare s.1 ∗ owns c scM4_1 fullShare s.2.1 ∗ owns c scM4_2 fullShare s.2.2)
      ∗ Pipeline.scopedRestBut spec4 c [cc4_scratch0, cc4_scratch1, cc4_scratch2] ∗ (∃ r, prngReg c r)) := by
  cases n with
  | zero =>
    rw [PhiS4, scopedRest4_split]; simp only [owns_whole]
    iintro ⟨Hg, ⟨⟨%e0, H0⟩, ⟨%e1, H1⟩, ⟨%e2, H2⟩⟩, Hr⟩
    iexists (e0, e1, e2); isplitr; · ipureintro; exact fun h => (h rfl).elim
    iframe
  | succ n =>
    rw [PhiS4]
    iintro H; iexists (st4 V c n); isplitr; · ipureintro; exact fun _ => rfl
    iexact H

-- The carried state after a point is the update of the state found there, or of the reset state at a row's start.
theorem st4_step (c : Dev nD) (t : Fin cfg4.N) (s : St4 F) (hs : t.val % 8 ≠ 0 → s = st4 V c (t.val - 1)) :
    st4 V c t.val = step4 (if cond4_0 (grid4.coords t) then reset4 else s)
      (iblk4 V c 0 t) (iblk4 V c 1 t) (iblk4 V c 2 t) := by
  by_cases h : t.val % 8 = 0
  · rw [if_pos ((hcond4_0 t).mpr h), st4_first V c _ h, pt4_val]
  · rw [if_neg fun h' => h ((hcond4_0 t).mp h'), hs h, st4_next V c _ h, pt4_val]

-- The result block is the quotient at the last block of a row and is left as found elsewhere.
theorem leaves4_3 (c : Dev nD) (t : Fin cfg4.N) (d) :
    owns c (st4_3 t) fullShare (if cond4_1 (grid4.coords t) then
        out4_3 (st4 V c t.val).2.2 (st4 V c t.val).2.1 else (dat4 V c).before 3 t d)
      ⊢ ((dat4 V c).leavesExact 3 t : sProp 𝕄) := by
  by_cases h : cond4_1 (grid4.coords t)
  · rw [if_pos h, ← after4_3_last]; unfold Dat.leavesExact; rw [liveAt4_3 t h]; try exact .rfl
  · rw [if_neg h, Dat.leavesExact_idle (dat4 V c) 3 t (idleAt4_3 t h) (noFlush4_3 t h)]
    iintro H; iexists d; iexact H

theorem body_obligation4 (c : Dev nD) :
    BodyObligation (dat4 (F := F) V c) (defs₀ (F := F)) Variants.none () Set.univ := fun t => by
  rw [bigSep_W4, bigSep_W4]
  show _ ⊢ wp _ _ _ (bodyAt4 t) _
  simp only [before4_0, before4_1, before4_2]
  simp only [Phi4_eq, Fin.val_succ, Fin.coe_castSucc]
  rw [PhiS4]
  refine (sep_mono_left (PhiS4_any V c t.val)).trans ?_
  iintro ⟨⟨%s, %hs, ⟨HS0, HS1, HS2⟩, Hrest, Hg⟩, Ho, ⟨%d0, H0⟩, ⟨%d1, H1⟩, ⟨%d2, H2⟩, ⟨%d3, H3⟩⟩
  iapply (sound_kernel4 c ((dat4 V c).before 3 t d3) s.1 s.2.1 s.2.2 (st4_step V c t s hs) rfl)
  iframe H0 H1 H2 H3 HS0 HS1 HS2
  iintro ⟨H0, H1, H2, H3, HS0, HS1, HS2⟩
  iframe HS0 HS1 HS2 Hrest Hg
  isplitl [Ho]; · iexact Ho
  isplitl [H0]; · iexact H0
  isplitl [H1]; · iexact H1
  isplitl [H2]; · iexact H2
  iapply (leaves4_3 V c t d3); iexact H3

end Cert.KernelIdeal.Hand
-- ==== Proof.KI.RunRegs.lean ====
import proofs.«410974_j45672682225711_2_alg».proof.Proof.KI.RunW
import proofs.«410974_j45672682225711_2_alg».proof.Proof.KI.Reg4b
import proofs.«410974_j45672682225711_2_alg».proof.Proof.LibRegionSeg

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def reg0 : Pipeline.RegionSeg (pcfgs (F := F)) adm (pdats m ρ) () defs₀ 𝒱₀ L lv 0 :=
  .ofHeld launch0.toP rfl (body_obligation0 (Vin0 m ρ)) (fun _ _ => rfl) (fun _ _ => rfl) (fun _ => rfl) (W3 m ρ) (W4 m ρ)
    (fun _ _ => rfl) (hF0 m ρ) (hrest0 m ρ) (fun c => Pipeline.hin_ΦA c rfl) (fun c => Pipeline.hout_ΦA c rfl)

def reg1 : Pipeline.RegionSeg (pcfgs (F := F)) adm (pdats m ρ) () defs₀ 𝒱₀ L lv 1 :=
  .ofHeld launch1.toP rfl (body_obligation1 (Vin1 m ρ)) (fun _ _ => rfl) (fun _ _ => rfl) (fun _ => rfl) (W5 m ρ) (W6 m ρ)
    (fun _ _ => rfl) (hF1 m ρ) (hrest1 m ρ) (fun c => Pipeline.hin_ΦA c rfl) (fun c => Pipeline.hout_ΦA c rfl)

def reg2 : Pipeline.RegionSeg (pcfgs (F := F)) adm (pdats m ρ) () defs₀ 𝒱₀ L lv 2 :=
  .ofHeld launch2.toP rfl (body_obligation2 (Vin2 m ρ)) (fun _ _ => rfl) (fun _ _ => rfl) (fun _ => rfl) (W7 m ρ) (W8 m ρ)
    (fun _ _ => rfl) (hF2 m ρ) (hrest2 m ρ) (fun c => Pipeline.hin_ΦA c rfl) (fun c => Pipeline.hout_ΦA c rfl)

def reg3 : Pipeline.RegionSeg (pcfgs (F := F)) adm (pdats m ρ) () defs₀ 𝒱₀ L lv 3 :=
  .ofHeld launch3.toP rfl (body_obligation3 (Vin3 m ρ)) (fun _ _ => rfl) (fun _ _ => rfl) (fun _ => rfl) (W9 m ρ) (W10 m ρ)
    (fun _ _ => rfl) (hF3 m ρ) (hrest3 m ρ) (fun c => Pipeline.hin_ΦA c rfl) (fun c => Pipeline.hout_ΦA c rfl)

def reg4 : Pipeline.RegionSeg (pcfgs (F := F)) adm (pdats m ρ) () defs₀ 𝒱₀ L lv 4 :=
  .ofHeld launch4.toP rfl (body_obligation4 (Vin4 m ρ)) (fun _ _ => rfl) (fun _ _ => rfl) (fun _ => rfl) (W11 m ρ) (W12 m ρ)
    (fun _ _ => rfl) (hF4 m ρ) (hrest4 m ρ) (hin4 (Vin4 m ρ)) (hout4 (Vin4 m ρ))

def reg5 : Pipeline.RegionSeg (pcfgs (F := F)) adm (pdats m ρ) () defs₀ 𝒱₀ L lv 5 :=
  .ofHeld launch5.toP rfl (body_obligation5 (Vin5 m ρ)) (fun _ _ => rfl) (fun _ _ => rfl) (fun _ => rfl) (W13 m ρ) (W14 m ρ)
    (fun _ _ => rfl) (hF5 m ρ) (hrest5 m ρ) (fun c => Pipeline.hin_ΦA c rfl) (fun c => Pipeline.hout_ΦA c rfl)

def reg6 : Pipeline.RegionSeg (pcfgs (F := F)) adm (pdats m ρ) () defs₀ 𝒱₀ L lv 6 :=
  .ofHeld launch6.toP rfl (body_obligation6 (Vin6 m ρ)) (fun _ _ => rfl) (fun _ _ => rfl) (fun _ => rfl) (W14 m ρ) (W15 m ρ)
    (fun _ _ => rfl) (hF6 m ρ) (hrest6 m ρ) (fun c => Pipeline.hin_ΦA c rfl) (fun c => Pipeline.hout_ΦA c rfl)

end Cert.KernelIdeal.Hand

end
-- ==== Proof.KI.Run.lean ====
import proofs.«410974_j45672682225711_2_alg».proof.Proof.KI.RunRegs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Rest hostSeg)
open Cert.KernelIdeal.Gen

variable {F : FTy → Type} [FloatOps F]

variable (m : (ℓ : Loc nD τ sig) → Buf (Elt F) ℓ) (ρ : Dev nD → PrngReg)

/-- @main's fifteen segments in order: a host segment per stretch, a region per kernel call. -/
abbrev segs : List (Pipeline.Seg (pcfgs (F := F)) adm (pdats m ρ) () defs₀ 𝒱₀ L lv) :=
  [ .host (hostSeg hostOps0 hostOps0_sub hostOps0_fresh (W0 m ρ)),
    .host (hostSeg hostOps0_1 hostOps0_1_sub hostOps0_1_fresh (W1 m ρ)),
    .host (hostSeg hostOps0_2 hostOps0_2_sub hostOps0_2_fresh (W2 m ρ)),
    .region (reg0 m ρ),
    .host (hostSeg hostOps1 hostOps1_sub hostOps1_fresh (W4 m ρ)),
    .region (reg1 m ρ),
    .host (hostSeg hostOps2 hostOps2_sub hostOps2_fresh (W6 m ρ)),
    .region (reg2 m ρ),
    .host (hostSeg hostOps3 hostOps3_sub hostOps3_fresh (W8 m ρ)),
    .region (reg3 m ρ),
    .host (hostSeg hostOps4 hostOps4_sub hostOps4_fresh (W10 m ρ)),
    .region (reg4 m ρ),
    .host (hostSeg hostOps5 hostOps5_sub hostOps5_fresh (W12 m ρ)),
    .region (reg5 m ρ),
    .region (reg6 m ρ) ]

set_option backward.isDefEq.respectTransparency.types false in
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W15 m ρ c b) → Q (⟨⟩, s)) :
    θ_run defs (onTc (τ := τ) (main (F := F))) ⟨m, fun _ => 0, ρ⟩ Q :=
  Pipeline.θ_run_held cellOf_inj m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()) ] from rfl]
      exact .rfl)
    (by simp only [segs, Pipeline.Seg.pipes_host, Pipeline.Seg.pipes_region, Pipeline.Seg.pipes_nil]; decide)
    (W15 m ρ)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩
    hQ

/-- Every argument array holds what the memory `m` holds there. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)

/-- The last contents are the launch's at every argument, so every argument ends as launched. -/
theorem args_kept {s : MemSt nD τ sig (Elt F)}
    (h : ∀ c : Dev nD, ∀ b ∈ Pipeline.ucRefs τ sig, s.mem ((c : Thread nD τ).1, b) = W15 m ρ c b) (c : Dev nD) : ArgsKept m s c :=
  have A (b : Ref sig .tc) (hu : ¬ (Proc.devRef .tc b : DevRef τ sig).isScoped) (hb : b ∉ wr15) :
      s.mem ((c.tc : Thread nD τ).loc b) = m ((c.tc : Thread nD τ).loc b) := (h c _ (mem_uc b hu)).trans (W15_arg m ρ c b hb)
  ⟨A main_arg0 (by decide) (by decide), A main_arg1 (by decide) (by decide), A main_arg2 (by decide) (by decide), A main_arg3 (by decide) (by decide), A main_arg4 (by decide) (by decide), A main_arg5 (by decide) (by decide), A main_arg6 (by decide) (by decide), A main_arg7 (by decide) (by decide), A main_arg8 (by decide) (by decide), A main_arg9 (by decide) (by decide), A main_arg10 (by decide) (by decide), A main_arg11 (by decide) (by decide), A main_arg12 (by decide) (by decide), A main_arg13 (by decide) (by decide)⟩

/-- The frame: every run of @main ends with every argument array as launched. -/
theorem frame : θ_run defs (onTc (τ := τ) (main (F := F))) ⟨m, fun _ => 0, ρ⟩ (fun r => ∀ c : Dev nD, ArgsKept m r.2 c) :=
  run_post m ρ fun _ h => args_kept m ρ h

end Cert.KernelIdeal.Hand

end
-- ==== Proof.RefFrame.lean ====
import proofs.«410974_j45672682225711_2_alg».proof.Proof.RefRun
import proofs.«410974_j45672682225711_2_alg».proof.Proof.RefRead
import proofs.«410974_j45672682225711_2_alg».proof.Defs
import proofs.«410974_j45672682225711_2_alg».proof.Proof.Gen.ReferenceIdeal
import proofs.«410974_j45672682225711_2_alg».proof.Proof.Gen.Pre_finite_inputs

noncomputable section

namespace Cert.RefFrame

open Idealize.ShloMosaic Idealize.SL.Sem

theorem frame_ref : Cert.frame_ReferenceIdeal :=
  fun m ρ _ => (θ_run (Cert.ReferenceIdeal.defs (F := Ideal)) _ _).mono (fun _ h c => (h c).2)
    (Cert.ReferenceIdeal.Value.run (F := Ideal) m ρ)

theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

end Cert.RefFrame

end
-- ==== Proof.KI.RunValue.lean ====
import proofs.«410974_j45672682225711_2_alg».proof.Proof.KI.Run

noncomputable section

namespace Cert.KernelIdeal.Hand

open Idealize.ShloMosaic Idealize.ShloMosaic.TcCoe Idealize.SL.Sem
open Cert.KernelIdeal.Gen

variable {F : FTy → Type} [FloatOps F]

variable (m : (ℓ : Loc nD τ sig) → Buf (Elt F) ℓ) (ρ : Dev nD → PrngReg)

/-- The run with its value: the result array ends at the last contents, every argument array as launched. -/
theorem run_value : θ_run defs (onTc (τ := τ) (main (F := F))) ⟨m, fun _ => 0, ρ⟩ (fun r => ∀ c : Dev nD,
      r.2.mem ((c.tc : Thread nD τ).loc main_v74) = W15 m ρ c (Proc.devRef .tc main_v74) ∧ ArgsKept m r.2 c) :=
  run_post m ρ fun _ h c => ⟨h c _ (mem_uc main_v74 (by decide)), args_kept m ρ h c⟩

end Cert.KernelIdeal.Hand

end
-- ==== Proof.KI.HostRead.lean ====
import proofs.«410974_j45672682225711_2_alg».proof.Proof.Gen.KernelIdeal.Launch
import Idealize.ShloMosaic.Lib.StableHlo.Run
import Idealize.ShloMosaic.Lib.ValueLayout

noncomputable section

namespace Cert.KernelIdeal.Hand

open Cert.KernelIdeal Cert.KernelIdeal.Gen
open Idealize.ShloMosaic Idealize.ShloMosaic.StableHlo Idealize.ShloMosaic.ValueIdx

theorem host1_v49 (W : Valuation τ sig (Elt Ideal)) (k : Fin 128) :
    (StableHlo.after (hostOps1 (F := Ideal)) W (Proc.devRef .tc main_v49) : S1x128.Idx → EReal) (ix2 0 k) = (W (Proc.devRef .tc main_arg3) : S128.Idx → EReal) (ix1 k) := by
  after_results
  exact shapeCast_a_1a_apply _ _ 0 k

theorem host2_v52 (W : Valuation τ sig (Elt Ideal)) (k : Fin 128) :
    (StableHlo.after (hostOps2 (F := Ideal)) W (Proc.devRef .tc main_v52) : S1x128.Idx → EReal) (ix2 0 k) = (W (Proc.devRef .tc main_arg5) : S128.Idx → EReal) (ix1 k) := by
  after_results
  exact shapeCast_a_1a_apply _ _ 0 k

theorem host2_v53 (W : Valuation τ sig (Elt Ideal)) (j : Fin 64) :
    (StableHlo.after (hostOps2 (F := Ideal)) W (Proc.devRef .tc main_v53) : S1x64.Idx → EReal) (ix2 0 j) = (W (Proc.devRef .tc main_arg7) : S64.Idx → EReal) (ix1 j) := by
  after_results
  exact shapeCast_a_1a_apply _ _ 0 j

theorem host3_v55 (W : Valuation τ sig (Elt Ideal)) (a : Fin 128) (b : Fin 384) :
    (StableHlo.after (hostOps3 (F := Ideal)) W (Proc.devRef .tc main_v55) : S128x384.Idx → EReal) (ix2 a b) = (W (Proc.devRef .tc main_arg8) : S384x128.Idx → EReal) (ix2 b a) := by
  after_results
  exact transpose_ix2_apply _ _ a b

theorem host3_v56 (W : Valuation τ sig (Elt Ideal)) (j : Fin 384) :
    (StableHlo.after (hostOps3 (F := Ideal)) W (Proc.devRef .tc main_v56) : S1x384.Idx → EReal) (ix2 0 j) = (W (Proc.devRef .tc main_arg9) : S384.Idx → EReal) (ix1 j) := by
  after_results
  exact shapeCast_a_1a_apply _ _ 0 j

/-- Splitting 128 columns as 8 x 16 (and merging them back) keeps the row-major position: (n * 8 + h) * 16 + d = n * 128 + (16 h + d). -/
theorem split_pos (n : Fin 4096) (h : Fin 8) (d : Fin 16) :
    (S4096x128.rowMajor (ix2 n ⟨16 * h.val + d.val, by have := h.isLt; have := d.isLt; omega⟩)).val = (S4096x8x16.rowMajor (ix3 n h d)).val := by
  rw [Shape.rowMajor_val_two, Shape.rowMajor_val_three]
  show n.val * 128 + (16 * h.val + d.val) = (n.val * 8 + h.val) * 16 + d.val
  omega

/-- Head h of the 128-column band that starts at column o, the head axis moved to the front: entry (h, n, d) is entry (n, o + 16 h + d). -/
theorem band_head (o : ℕ) (X : S4096x384.Idx → EReal) (hs : S4096x384.Slices ![0, o] S4096x128)
    (h : Fin 8) (n : Fin 4096) (d : Fin 16) (k : Fin 384) (hk : k.val = o + 16 * h.val + d.val) :
    transpose S8x4096x16 [1, 0, 2] (shapeCast S4096x8x16 (extractStridedSlice S4096x128 ![0, o] X hs)
      shapeCasts_S4096x128_S4096x8x16) transposes_S4096x8x16_S8x4096x16_1_0_2 (ix3 h n d) = X (ix2 n k) :=
  (transpose_apply _ _ _ _ (ix3 n h d) (fun b => match b with | ⟨0, _⟩ => rfl | ⟨1, _⟩ => rfl | ⟨2, _⟩ => rfl)).trans
    ((shapeCast_apply _ _ _ _ (split_pos n h d)).trans
      (slice2_axis1_apply o X hs n _ k (by show k.val = o + (16 * h.val + d.val); omega)))

theorem host4_v62 (W : Valuation τ sig (Elt Ideal)) (h : Fin 8) (n : Fin 4096) (d : Fin 16) :
    (StableHlo.after (hostOps4 (F := Ideal)) W (Proc.devRef .tc main_v62) : S8x4096x16.Idx → EReal) (ix3 h n d)
      = (W (Proc.devRef .tc main_v57) : S4096x384.Idx → EReal) (ix2 n ⟨16 * h.val + d.val, by have := h.isLt; have := d.isLt; omega⟩) := by
  after_results
  exact band_head 0 _ _ h n d _ (by show 16 * h.val + d.val = 0 + 16 * h.val + d.val; omega)

theorem host4_v64 (W : Valuation τ sig (Elt Ideal)) (h : Fin 8) (n : Fin 4096) (d : Fin 16) :
    (StableHlo.after (hostOps4 (F := Ideal)) W (Proc.devRef .tc main_v64) : S8x4096x16.Idx → EReal) (ix3 h n d)
      = (W (Proc.devRef .tc main_v57) : S4096x384.Idx → EReal) (ix2 n ⟨128 + 16 * h.val + d.val, by have := h.isLt; have := d.isLt; omega⟩) := by
  after_results
  exact band_head 128 _ _ h n d _ (by show 128 + 16 * h.val + d.val = 128 + 16 * h.val + d.val; omega)

theorem host4_v66 (W : Valuation τ sig (Elt Ideal)) (h : Fin 8) (n : Fin 4096) (d : Fin 16) :
    (StableHlo.after (hostOps4 (F := Ideal)) W (Proc.devRef .tc main_v66) : S8x4096x16.Idx → EReal) (ix3 h n d)
      = (W (Proc.devRef .tc main_v57) : S4096x384.Idx → EReal) (ix2 n ⟨256 + 16 * h.val + d.val, by have := h.isLt; have := d.isLt; omega⟩) := by
  after_results
  exact band_head 256 _ _ h n d _ (by show 256 + 16 * h.val + d.val = 256 + 16 * h.val + d.val; omega)

theorem host5_v69 (W : Valuation τ sig (Elt Ideal)) (h : Fin 8) (n : Fin 4096) (d : Fin 16) :
    (StableHlo.after (hostOps5 (F := Ideal)) W (Proc.devRef .tc main_v69) : S4096x128.Idx → EReal) (ix2 n ⟨16 * h.val + d.val, by have := h.isLt; have := d.isLt; omega⟩)
      = (W (Proc.devRef .tc main_v67) : S8x4096x16.Idx → EReal) (ix3 h n d) := by
  after_results
  exact (shapeCast_apply _ _ _ (ix3 n h d) (split_pos n h d).symm).trans
    (transpose_apply _ _ _ _ (ix3 h n d) (fun b => match b with | ⟨0, _⟩ => rfl | ⟨1, _⟩ => rfl | ⟨2, _⟩ => rfl))

theorem host5_v70 (W : Valuation τ sig (Elt Ideal)) (a : Fin 128) (b : Fin 128) :
    (StableHlo.after (hostOps5 (F := Ideal)) W (Proc.devRef .tc main_v70) : S128x128.Idx → EReal) (ix2 a b) = (W (Proc.devRef .tc main_arg10) : S128x128.Idx → EReal) (ix2 b a) := by
  after_results
  exact transpose_ix2_apply _ _ a b

theorem host5_v71 (W : Valuation τ sig (Elt Ideal)) (k : Fin 128) :
    (StableHlo.after (hostOps5 (F := Ideal)) W (Proc.devRef .tc main_v71) : S1x128.Idx → EReal) (ix2 0 k) = (W (Proc.devRef .tc main_arg11) : S128.Idx → EReal) (ix1 k) := by
  after_results
  exact shapeCast_a_1a_apply _ _ 0 k

theorem host5_v72 (W : Valuation τ sig (Elt Ideal)) (j : Fin 64) :
    (StableHlo.after (hostOps5 (F := Ideal)) W (Proc.devRef .tc main_v72) : S1x64.Idx → EReal) (ix2 0 j) = (W (Proc.devRef .tc main_arg13) : S64.Idx → EReal) (ix1 j) := by
  after_results
  exact shapeCast_a_1a_apply _ _ 0 j

end Cert.KernelIdeal.Hand
-- ==== Proof.LibReal.lean ====
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

noncomputable section

namespace Cert.RealVal

open Idealize.ShloMosaic

open scoped BigOperators

def IsReal {ι : Type} (v : ι → EReal) : Prop := ∀ i, v i ≠ ⊤ ∧ v i ≠ ⊥

def Real1 (x : EReal) : Prop := x ≠ ⊤ ∧ x ≠ ⊥

theorem real1_coe (r : ℝ) : Real1 (r : EReal) := ⟨EReal.coe_ne_top r, EReal.coe_ne_bot r⟩

theorem Real1.exists_coe {x : EReal} (h : Real1 x) : ∃ r : ℝ, x = (r : EReal) :=
  ⟨x.toReal, (EReal.coe_toReal h.1 h.2).symm⟩

theorem real1_zero : Real1 (0 : EReal) := by
  have := real1_coe 0
  rwa [EReal.coe_zero] at this

theorem real1_one : Real1 (1 : EReal) := by
  have := real1_coe 1
  rwa [EReal.coe_one] at this

theorem Real1.add {a b : EReal} (ha : Real1 a) (hb : Real1 b) : Real1 (a + b) := by
  obtain ⟨r, rfl⟩ := ha.exists_coe
  obtain ⟨q, rfl⟩ := hb.exists_coe
  rw [← EReal.coe_add]
  exact real1_coe _

theorem Real1.mul {a b : EReal} (ha : Real1 a) (hb : Real1 b) : Real1 (a * b) := by
  obtain ⟨r, rfl⟩ := ha.exists_coe
  obtain ⟨q, rfl⟩ := hb.exists_coe
  rw [← EReal.coe_mul]
  exact real1_coe _

theorem Real1.max {a b : EReal} (ha : Real1 a) (hb : Real1 b) : Real1 (max a b) := by
  rcases max_choice a b with h | h <;> rw [h] <;> assumption

theorem real1_sum {κ : Type} (s : Finset κ) (f : κ → EReal) (h : ∀ k ∈ s, Real1 (f k)) : Real1 (∑ k ∈ s, f k) :=
  Finset.sum_induction f Real1 (fun _ _ ha hb => ha.add hb) real1_zero h

theorem Real1.rsqrt {x : EReal} (hx : Real1 x) (hpos : 0 < x) : Real1 (Ideal.rsqrt x) := by
  obtain ⟨r, rfl⟩ := hx.exists_coe
  have hr : 0 < r := by exact_mod_cast hpos
  rw [Ideal.rsqrt_coe, if_neg (not_lt.mpr hr.le), if_neg hr.ne']
  exact real1_coe _

section Arrays
variable {s t : Shape} {φ : FTy}

theorem constant_zero_apply (s : Shape) (i : s.Idx) : constant (F := Ideal) s .f32 0x00000000#32 i = 0 :=
  Ideal.ofBits_zero_f32

theorem constant_one_apply (s : Shape) (i : s.Idx) : constant (F := Ideal) s .f32 0x3F800000#32 i = 1 :=
  Ideal.ofBits_one_f32

theorem isReal_constant_zero (s : Shape) : IsReal (constant (F := Ideal) s .f32 0x00000000#32) := fun i => by
  rw [constant_zero_apply]; exact real1_zero

theorem isReal_constant_one (s : Shape) : IsReal (constant (F := Ideal) s .f32 0x3F800000#32) := fun i => by
  rw [constant_one_apply]; exact real1_one

theorem isReal_broadcastInDim (dims : Fin s.rank → Fin t.rank) (h : s.BroadcastsInDim t dims) {x : s.Idx → EReal}
    (hx : IsReal x) : IsReal (broadcastInDim t dims h x) :=
  fun _ => hx _

theorem isReal_mulf {x y : FVec Ideal s φ} (hx : IsReal x) (hy : IsReal y) : IsReal (mulf x y) :=
  fun i => Real1.mul (hx i) (hy i)

theorem isReal_addf {x y : FVec Ideal s φ} (hx : IsReal x) (hy : IsReal y) : IsReal (addf x y) :=
  fun i => Real1.add (hx i) (hy i)

theorem isReal_maximumf {x y : FVec Ideal s φ} (hx : IsReal x) (hy : IsReal y) : IsReal (maximumf x y) :=
  fun i => Real1.max (hx i) (hy i)

theorem isReal_gather {si : Shape} {w : Nat} (d : GatherDims s si t) {x : s.Idx → EReal} (hx : IsReal x) (idx : IVec si w) :
    IsReal (Host.gather d x idx) :=
  fun _ => hx _

theorem isReal_scatterAdd {si u : Shape} {w : Nat} (d : ScatterDims s si u) {x : FVec Ideal s φ} (hx : IsReal x)
    (idx : IVec si w) {upd : FVec Ideal u φ} (hu : IsReal upd) : IsReal (Host.scatterAdd d x idx upd) :=
  fun i => by
    have e : Host.scatterAdd d x idx upd i = Ideal.hostScatterAdd d x idx upd i := rfl
    rw [e]
    unfold Ideal.hostScatterAdd
    exact Real1.add (hx i) (real1_sum _ _ fun j _ => hu j)

theorem isReal_dotGeneral {sl sr so : Shape} {φ₁ φ₂ : FTy} (d : DotDims sl sr so) (prec : Option ContractPrecision)
    {lhs : FVec Ideal sl φ₁} (hl : IsReal lhs) {rhs : FVec Ideal sr φ₂} (hr : IsReal rhs) :
    IsReal (Host.dotGeneral d prec lhs rhs) :=
  fun j => by
    show Real1 (FloatOps.dotGeneral d prec .single lhs rhs j)
    rw [Ideal.dotGeneral_apply]
    exact real1_sum _ _ fun k _ => Real1.mul (hl _) (hr _)

end Arrays

end Cert.RealVal

end
-- ==== Proof.EdgesPure.lean ====
import Idealize.ShloMosaic.Lib.ValueIdx
import Idealize.ShloMosaic.Lib.Pipeline.Value
import Idealize.ShloMosaic.PureOps.Ideal
import proofs.«410974_j45672682225711_2_alg».proof.Proof.LibReal

noncomputable section

namespace Cert.EdgesPure

open Idealize.ShloMosaic Idealize.ShloMosaic.ValueIdx Cert.RealVal

theorem concat1_apply_left {n₁ n₂ n : Nat} {α : Type} (a : (⟨1, ![n₁]⟩ : Shape).Idx → α) (b : (⟨1, ![n₂]⟩ : Shape).Idx → α)
    (h : Shape.Concatenates [(⟨1, ![n₁]⟩ : Shape), (⟨1, ![n₂]⟩ : Shape)] (⟨1, ![n]⟩ : Shape) (0 : Fin 1))
    (e : Fin n) (he : e.val < n₁) :
    concatenate (⟨1, ![n]⟩ : Shape) (0 : Fin 1) [⟨(⟨1, ![n₁]⟩ : Shape), a⟩, ⟨(⟨1, ![n₂]⟩ : Shape), b⟩] h (ix1 e)
      = a (ix1 (⟨e.val, he⟩ : Fin n₁)) :=
  concatenate_pair_apply_left (t := (⟨1, ![n]⟩ : Shape)) (0 : Fin 1) a b h (ix1 e) rfl (ix1 (⟨e.val, he⟩ : Fin n₁))
    (fun c => by match c with | ⟨0, _⟩ => rfl)

theorem concat1_apply_right {n₁ n₂ n : Nat} {α : Type} (a : (⟨1, ![n₁]⟩ : Shape).Idx → α) (b : (⟨1, ![n₂]⟩ : Shape).Idx → α)
    (h : Shape.Concatenates [(⟨1, ![n₁]⟩ : Shape), (⟨1, ![n₂]⟩ : Shape)] (⟨1, ![n]⟩ : Shape) (0 : Fin 1))
    (e : Fin n) (he : n₁ ≤ e.val) (he2 : e.val - n₁ < n₂) :
    concatenate (⟨1, ![n]⟩ : Shape) (0 : Fin 1) [⟨(⟨1, ![n₁]⟩ : Shape), a⟩, ⟨(⟨1, ![n₂]⟩ : Shape), b⟩] h (ix1 e)
      = b (ix1 (⟨e.val - n₁, he2⟩ : Fin n₂)) :=
  concatenate_pair_apply_right (t := (⟨1, ![n]⟩ : Shape)) (0 : Fin 1) a b h (ix1 e) rfl rfl (ix1 (⟨e.val - n₁, he2⟩ : Fin n₂))
    (fun c hc => by match c with | ⟨0, _⟩ => exact absurd rfl hc)
    (by show (e.val - n₁) + n₁ = e.val; omega)

theorem concatCols_apply_zero {R : Nat} {α : Type} (a b : (⟨2, ![R, 1]⟩ : Shape).Idx → α)
    (h : Shape.Concatenates [(⟨2, ![R, 1]⟩ : Shape), (⟨2, ![R, 1]⟩ : Shape)] (⟨2, ![R, 2]⟩ : Shape) (1 : Fin 2)) (e : Fin R) :
    concatenate (⟨2, ![R, 2]⟩ : Shape) (1 : Fin 2) [⟨(⟨2, ![R, 1]⟩ : Shape), a⟩, ⟨(⟨2, ![R, 1]⟩ : Shape), b⟩] h (ix2 e (0 : Fin 2))
      = a (ix2 e (0 : Fin 1)) :=
  concatenate_pair_apply_left (t := (⟨2, ![R, 2]⟩ : Shape)) (1 : Fin 2) a b h (ix2 e (0 : Fin 2)) rfl (ix2 e (0 : Fin 1))
    (fun c => by match c with | ⟨0, _⟩ => rfl | ⟨1, _⟩ => rfl)

theorem concatCols_apply_one {R : Nat} {α : Type} (a b : (⟨2, ![R, 1]⟩ : Shape).Idx → α)
    (h : Shape.Concatenates [(⟨2, ![R, 1]⟩ : Shape), (⟨2, ![R, 1]⟩ : Shape)] (⟨2, ![R, 2]⟩ : Shape) (1 : Fin 2)) (e : Fin R) :
    concatenate (⟨2, ![R, 2]⟩ : Shape) (1 : Fin 2) [⟨(⟨2, ![R, 1]⟩ : Shape), a⟩, ⟨(⟨2, ![R, 1]⟩ : Shape), b⟩] h (ix2 e (1 : Fin 2))
      = b (ix2 e (0 : Fin 1)) :=
  concatenate_pair_apply_right (t := (⟨2, ![R, 2]⟩ : Shape)) (1 : Fin 2) a b h (ix2 e (1 : Fin 2)) rfl rfl (ix2 e (0 : Fin 1))
    (fun c hc => by match c with | ⟨0, _⟩ => rfl | ⟨1, _⟩ => exact absurd rfl hc)
    (by show 0 + 1 = 1; rfl)

theorem column_apply {R : Nat} {α : Type} (hR : R ≠ 1)
    (h : (⟨1, ![R]⟩ : Shape).BroadcastsInDim (⟨2, ![R, 1]⟩ : Shape) (![0] : Fin 1 → Fin 2)) (x : (⟨1, ![R]⟩ : Shape).Idx → α) (e : Fin R) :
    broadcastInDim (⟨2, ![R, 1]⟩ : Shape) (![0] : Fin 1 → Fin 2) h x (ix2 e (0 : Fin 1)) = x (ix1 e) :=
  broadcastInDim_apply _ h x (ix2 e (0 : Fin 1)) (ix1 e) (fun c => by
    match c with
    | ⟨0, _⟩ => show e.val = if R = 1 then 0 else e.val; rw [if_neg hR])

theorem toInt_ofNat_small (k : Nat) (hk : k < 4096) : (BitVec.ofNat 32 k).toInt = (k : Int) := by
  have h1 : (BitVec.ofNat 32 k).toNat = k := by
    rw [BitVec.toNat_ofNat]; omega
  rw [BitVec.toInt_eq_toNat_of_lt (by rw [h1]; omega), h1]

theorem wrap_eq (x : BitVec 32) (h0 : 0 ≤ x.toInt) :
    Scalar.select (IntOp.cmpi .slt x 0#32) (IntOp.addi x 4096#32) x = x := by
  have hs : x.slt 0#32 = false := by
    unfold BitVec.slt
    rw [decide_eq_false_iff_not]
    show ¬ x.toInt < (0#32 : BitVec 32).toInt
    rw [BitVec.toInt_zero]; omega
  have hc : IntOp.cmpi .slt x 0#32 = 0#1 := by
    show BitVec.ofBool (x.slt 0#32) = 0#1
    rw [hs]; rfl
  unfold Scalar.select
  rw [hc, if_neg (by decide)]

theorem wrapped_apply {s : Shape} (y zero c : IVec s 32) (i : s.Idx) (hz : zero i = 0#32) (hc : c i = 4096#32)
    (h0 : 0 ≤ (y i).toInt) : select (cmpi .slt y zero) (addi y c) y i = y i := by
  show Scalar.select (IntOp.cmpi .slt (y i) (zero i)) (IntOp.addi (y i) (c i)) (y i) = y i
  rw [hz, hc]
  exact wrap_eq _ h0

abbrev EList : Type := (⟨2, ![2, 131072]⟩ : Shape).Idx → BitVec 32

def InRange (x1 : EList) : Prop := ∀ i : (⟨2, ![2, 131072]⟩ : Shape).Idx, 0 ≤ (x1 i).toInt ∧ (x1 i).toInt < 4096

def endI (x1 : EList) (k : Fin 2) (e : Fin 135168) : Fin 4096 :=
  if h : e.val < 131072 then
    ⟨(x1 (ix2 k (⟨e.val, h⟩ : Fin 131072))).toInt.toNat % 4096, Nat.mod_lt _ (by decide)⟩
  else ⟨(e.val - 131072) % 4096, Nat.mod_lt _ (by decide)⟩

theorem endI_of_lt (x1 : EList) (hr : InRange x1) (k : Fin 2) (e : Fin 135168) (h : e.val < 131072) :
    ((endI x1 k e).val : Int) = (x1 (ix2 k (⟨e.val, h⟩ : Fin 131072))).toInt := by
  unfold endI
  rw [dif_pos h]
  have := hr (ix2 k (⟨e.val, h⟩ : Fin 131072))
  show (((x1 (ix2 k (⟨e.val, h⟩ : Fin 131072))).toInt.toNat % 4096 : Nat) : Int) = _
  omega

theorem endI_of_ge (x1 : EList) (k : Fin 2) (e : Fin 135168) (h : 131072 ≤ e.val) :
    (endI x1 k e).val = e.val - 131072 := by
  unfold endI
  rw [dif_neg (by omega)]
  have := e.isLt
  show (e.val - 131072) % 4096 = e.val - 131072
  omega

theorem cat_toInt (x1 : EList) (hr : InRange x1) (k : Fin 2) (a : (⟨1, ![131072]⟩ : Shape).Idx → BitVec 32)
    (ha : ∀ e : Fin 131072, a (ix1 e) = x1 (ix2 k e))
    (hc : Shape.Concatenates [(⟨1, ![131072]⟩ : Shape), (⟨1, ![4096]⟩ : Shape)] (⟨1, ![135168]⟩ : Shape) (0 : Fin 1))
    (e : Fin 135168) :
    (concatenate (⟨1, ![135168]⟩ : Shape) (0 : Fin 1)
        [⟨(⟨1, ![131072]⟩ : Shape), a⟩, ⟨(⟨1, ![4096]⟩ : Shape), iotaInDim (⟨1, ![4096]⟩ : Shape) 32 (0 : Fin 1)⟩] hc (ix1 e)).toInt
      = ((endI x1 k e).val : Int) := by
  by_cases h : e.val < 131072
  · rw [concat1_apply_left _ _ hc e h, ha, endI_of_lt x1 hr k e h]
  · have h2 : e.val - 131072 < 4096 := by have := e.isLt; omega
    rw [concat1_apply_right _ _ hc e (by omega) h2, endI_of_ge x1 k e (by omega)]
    show (BitVec.ofNat 32 (e.val - 131072)).toInt = _
    rw [toInt_ofNat_small _ h2]

theorem isReal_where_rsqrt {s : Shape} (deg zero z : FVec Ideal s .f32) (hdeg : IsReal deg) (hzero : ∀ i, zero i = 0)
    (hz : IsReal z) : IsReal (select (cmpf (F := Ideal) .ogt deg zero) (Host.rsqrt deg) z) := fun i => by
  show Real1 (Scalar.select (Ideal.cmp .ogt (deg i) (zero i)) (Ideal.rsqrt (deg i)) (z i))
  unfold Scalar.select
  split
  · rename_i h
    have hpos : zero i < deg i := by
      by_contra hn
      have hc : Ideal.cmp .ogt (deg i) (zero i) = BitVec.ofBool (decide (zero i < deg i)) := rfl
      rw [hc, decide_eq_false hn] at h
      exact absurd h (by decide)
    rw [hzero] at hpos
    exact Real1.rsqrt (hdeg i) hpos
  · exact hz i

end Cert.EdgesPure

end
-- ==== Proof.LibScatterLand.lean ====
import Idealize.ShloMosaic.Lib.ValueIdx
import Idealize.ShloMosaic.PureOps.Ideal
import Idealize.ShloMosaic.PureOps.Contract

namespace Cert.Scatter

open Idealize.ShloMosaic Idealize.ShloMosaic.ValueIdx

/-- An update lands on entry (i, k) of a matrix exactly when start plus window coordinate is i on the rows and k on the columns. -/
theorem resultIdx?_eq_some_iff {N M w : Nat} {si u : Shape} (d : ScatterDims ⟨2, ![N, M]⟩ si u)
    (j : u.Idx) (idx : IVec si w) (i : Fin N) (k : Fin M) :
    d.resultIdx? j idx = some (ix2 i k)
      ↔ d.start j idx (0 : Fin 2) + (d.window j (0 : Fin 2) : Nat) = (i.val : Int)
        ∧ d.start j idx (1 : Fin 2) + (d.window j (1 : Fin 2) : Nat) = (k.val : Int) := by
  have hi := i.isLt
  have hk := k.isLt
  unfold ScatterDims.resultIdx?
  constructor
  · intro hEq
    split at hEq
    · rename_i h
      have hf := Option.some.inj hEq
      have h0 : (d.start j idx (0 : Fin 2) + (d.window j (0 : Fin 2) : Nat)).toNat = i.val :=
        congrArg (fun f : (⟨2, ![N, M]⟩ : Shape).Idx => (f (0 : Fin 2)).val) hf
      have h1 : (d.start j idx (1 : Fin 2) + (d.window j (1 : Fin 2) : Nat)).toNat = k.val :=
        congrArg (fun f : (⟨2, ![N, M]⟩ : Shape).Idx => (f (1 : Fin 2)).val) hf
      have b0 := (h (0 : Fin 2)).1
      have b1 := (h (1 : Fin 2)).1
      exact ⟨by omega, by omega⟩
    · exact absurd hEq (by simp)
  · rintro ⟨h0, h1⟩
    have hall : ∀ a : Fin 2, 0 ≤ d.start j idx a + (d.window j a : Nat)
        ∧ d.start j idx a + (d.window j a : Nat) < ((⟨2, ![N, M]⟩ : Shape).size a : Nat) := by
      intro a
      match a with
      | ⟨0, _⟩ =>
        show 0 ≤ d.start j idx (0 : Fin 2) + (d.window j (0 : Fin 2) : Nat)
          ∧ d.start j idx (0 : Fin 2) + (d.window j (0 : Fin 2) : Nat) < (N : Int)
        omega
      | ⟨1, _⟩ =>
        show 0 ≤ d.start j idx (1 : Fin 2) + (d.window j (1 : Fin 2) : Nat)
          ∧ d.start j idx (1 : Fin 2) + (d.window j (1 : Fin 2) : Nat) < (M : Int)
        omega
    rw [dif_pos hall]
    refine congrArg some (funext fun a => Fin.ext ?_)
    match a with
    | ⟨0, _⟩ =>
      show (d.start j idx (0 : Fin 2) + (d.window j (0 : Fin 2) : Nat)).toNat = i.val
      omega
    | ⟨1, _⟩ =>
      show (d.start j idx (1 : Fin 2) + (d.window j (1 : Fin 2) : Nat)).toNat = k.val
      omega

end Cert.Scatter
-- ==== Proof.Lib2DScatter.lean ====
import proofs.«410974_j45672682225711_2_alg».proof.Proof.LibScatterLand

noncomputable section

namespace Cert.Scatter2D

open Idealize.ShloMosaic Idealize.ShloMosaic.ValueIdx

/-- The dimension numbers of a scatter of scalars [R] into a matrix [N, M] at index pairs [R, 2]. -/
abbrev pairDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section
variable {N M R w : Nat}
  (wf : ScatterDims.WF ⟨2, ![N, M]⟩ ⟨2, ![R, 2]⟩ ⟨1, ![R]⟩ [] [0, 1] [0, 1] 1)
  (idx : IVec ⟨2, ![R, 2]⟩ w) (e : Fin R)

/-- On each axis the window of update e starts at that word of e's index pair, read signed. -/
theorem start_eq (a : Fin 2) : (pairDims N M R wf).start (ix1 e) idx a = (idx (ix2 e a)).toInt := by
  unfold ScatterDims.start
  rw [dif_pos (show a ∈ (pairDims N M R wf).scatterDimsToOperandDims from by fin_cases a <;> simp)]
  refine congrArg (fun t => (idx t).toInt) (funext fun b => Fin.ext ?_)
  fin_cases a <;> fin_cases b <;> rfl

theorem window_zero (a : Fin 2) : (pairDims N M R wf).window (ix1 e) a = 0 := by
  unfold ScatterDims.window
  rw [dif_neg (by fin_cases a <;> simp [ScatterDims.sKept, Shape.kept])]

/-- Update e lands on (i, j) exactly when the two words of e's index pair, read signed, are i and j. -/
theorem resultIdx?_eq_some_iff (i : Fin N) (j : Fin M) :
    (pairDims N M R wf).resultIdx? (ix1 e) idx = some (ix2 i j)
      ↔ (idx (ix2 e (0 : Fin 2))).toInt = (i.val : Int) ∧ (idx (ix2 e (1 : Fin 2))).toInt = (j.val : Int) := by
  rw [Cert.Scatter.resultIdx?_eq_some_iff, start_eq, start_eq, window_zero, window_zero]
  exact ⟨fun ⟨h0, h1⟩ => ⟨by omega, by omega⟩, fun ⟨h0, h1⟩ => ⟨by omega, by omega⟩⟩

end

/-- The accumulating scatter read at (i, j): the table there plus the updates e whose index pair is (i, j). -/
theorem scatterAdd_pairs_apply {N M R w : Nat} {φ : FTy}
    (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ)
    (i : Fin N) (j : Fin M) :
    Host.scatterAdd (pairDims N M R wf) x idx upd (ix2 i j)
      = x (ix2 i j) + ∑ e ∈ Finset.univ.filter (fun e : Fin R =>
            (idx (ix2 e (0 : Fin 2))).toInt = (i.val : Int) ∧ (idx (ix2 e (1 : Fin 2))).toInt = (j.val : Int)),
          upd (ix1 e) := by
  unfold Host.scatterAdd
  rw [Ideal.hostScatterAdd_def]
  unfold Ideal.hostScatterAdd
  refine congrArg (x (ix2 i j) + ·) ?_
  symm
  refine Finset.sum_nbij' (fun e : Fin R => (ix1 e : (⟨1, ![R]⟩ : Shape).Idx))
    (fun k : (⟨1, ![R]⟩ : Shape).Idx => (k (0 : Fin 1) : Fin R)) ?_ ?_ ?_ ?_ ?_
  · intro e he
    rw [Finset.mem_filter] at he ⊢
    exact ⟨Finset.mem_univ _, (resultIdx?_eq_some_iff wf idx e i j).mpr he.2⟩
  · intro k hk
    obtain ⟨a, rfl⟩ : ∃ a, k = ix1 a := ⟨k 0, eq_ix1 k⟩
    rw [Finset.mem_filter] at hk ⊢
    exact ⟨Finset.mem_univ _, (resultIdx?_eq_some_iff wf idx a i j).mp hk.2⟩
  · intro e _
    rfl
  · intro k hk
    exact (eq_ix1 k).symm
  · intro e _
    rfl

end Cert.Scatter2D

end
-- ==== Proof.Edges.lean ====
import proofs.«410974_j45672682225711_2_alg».proof.Proof.RefRead
import proofs.«410974_j45672682225711_2_alg».proof.Proof.EdgesPure
import proofs.«410974_j45672682225711_2_alg».proof.Proof.Lib2DScatter
import proofs.«410974_j45672682225711_2_alg».proof.Proof.Gen.KernelIdeal

noncomputable section

namespace Cert.Edges

open Idealize.ShloMosaic Idealize.ShloMosaic.ValueIdx Cert.RealVal Cert.ReferenceIdeal.Read Cert.EdgesPure

abbrev EdgeList (F : FTy → Type) : Type := (⟨Cert.ReferenceIdeal.S2x131072, .i32⟩ : BufTy).Contents (Elt F)

def InRange (x1 : EdgeList Ideal) : Prop :=
  ∀ i : Cert.ReferenceIdeal.S2x131072.Idx, 0 ≤ (x1 i).toInt ∧ (x1 i).toInt < 4096

def rI (x1 : EdgeList Ideal) (e : Fin 135168) : Fin 4096 := endI x1 (0 : Fin 2) e

def cI (x1 : EdgeList Ideal) (e : Fin 135168) : Fin 4096 := endI x1 (1 : Fin 2) e

theorem v1_at (x1 : EdgeList Ideal) (e : Fin 131072) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

theorem v3_at (x1 : EdgeList Ideal) (e : Fin 131072) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

theorem v5_toInt (x1 : EdgeList Ideal) (hr : InRange x1) (e : Fin 135168) :
    (val_main_v5 (F := Ideal) x1 (ix1 e)).toInt = ((rI x1 e).val : Int) :=
  cat_toInt x1 hr 0 (val_main_v1 (F := Ideal) x1) (v1_at x1) _ e

theorem v6_toInt (x1 : EdgeList Ideal) (hr : InRange x1) (e : Fin 135168) :
    (val_main_v6 (F := Ideal) x1 (ix1 e)).toInt = ((cI x1 e).val : Int) :=
  cat_toInt x1 hr 1 (val_main_v3 (F := Ideal) x1) (v3_at x1) _ e

theorem v36_toInt (x1 : EdgeList Ideal) (hr : InRange x1) (e : Fin 135168) :
    (val_main_v36 (F := Ideal) x1 (ix2 e (0 : Fin 1))).toInt = ((rI x1 e).val : Int) := by
  have h5 := v5_toInt x1 hr e
  have hcol : val_main_v36 (F := Ideal) x1 (ix2 e (0 : Fin 1)) = val_main_v35 (F := Ideal) x1 (ix1 e) :=
    column_apply (by decide) _ (val_main_v35 (F := Ideal) x1) e
  have hw : val_main_v35 (F := Ideal) x1 (ix1 e) = val_main_v5 (F := Ideal) x1 (ix1 e) :=
    wrapped_apply (val_main_v5 (F := Ideal) x1) (val_main_v31 (F := Ideal)) (val_main_v33 (F := Ideal)) (ix1 e) rfl rfl
      (by rw [h5]; omega)
  rw [hcol, hw, h5]

theorem v27_toInt (x1 : EdgeList Ideal) (hr : InRange x1) (e : Fin 135168) :
    (val_main_v27 (F := Ideal) x1 (ix2 e (0 : Fin 1))).toInt = ((cI x1 e).val : Int) := by
  have h6 := v6_toInt x1 hr e
  have hcol : val_main_v27 (F := Ideal) x1 (ix2 e (0 : Fin 1)) = val_main_v26 (F := Ideal) x1 (ix1 e) :=
    column_apply (by decide) _ (val_main_v26 (F := Ideal) x1) e
  have hw : val_main_v26 (F := Ideal) x1 (ix1 e) = val_main_v6 (F := Ideal) x1 (ix1 e) :=
    wrapped_apply (val_main_v6 (F := Ideal) x1) (val_main_v22 (F := Ideal)) (val_main_v24 (F := Ideal)) (ix1 e) rfl rfl
      (by rw [h6]; omega)
  rw [hcol, hw, h6]

theorem v42_toInt (x1 : EdgeList Ideal) (hr : InRange x1) (e : Fin 135168) :
    (val_main_v42 (F := Ideal) x1 (ix2 e (0 : Fin 1))).toInt = ((cI x1 e).val : Int) := by
  have hcol : val_main_v42 (F := Ideal) x1 (ix2 e (0 : Fin 1)) = val_main_v6 (F := Ideal) x1 (ix1 e) :=
    column_apply (by decide) _ (val_main_v6 (F := Ideal) x1) e
  rw [hcol, v6_toInt x1 hr e]

theorem deg_real (x1 : EdgeList Ideal) : IsReal (val_main_v10 (F := Ideal) x1) :=
  isReal_scatterAdd _ (isReal_broadcastInDim _ _ (isReal_constant_zero _)) _
    (isReal_broadcastInDim _ _ (isReal_constant_one _))

theorem dinv_real (x1 : EdgeList Ideal) : IsReal (val_main_v14 (F := Ideal) x1) :=
  isReal_where_rsqrt (val_main_v10 (F := Ideal) x1) (val_main_v11 (F := Ideal)) (val_main_call0_v1 (F := Ideal))
    (deg_real x1) (fun i => Ideal.ofBits_zero_f32) (isReal_broadcastInDim _ _ (isReal_constant_zero _))

theorem norm_real (x1 : EdgeList Ideal) : IsReal (val_main_v29 (F := Ideal) x1) :=
  isReal_mulf (isReal_gather _ (dinv_real x1) _) (isReal_gather _ (dinv_real x1) _)

section Dense
variable {F : FTy → Type} [FloatOps F]

def idxK (x1 : EdgeList F) : IVec Cert.KernelIdeal.S135168x2 32 :=
  concatenate Cert.KernelIdeal.S135168x2 1
    [⟨Cert.KernelIdeal.S135168x1, val_main_v27 (F := F) x1⟩, ⟨Cert.KernelIdeal.S135168x1, val_main_v36 (F := F) x1⟩]
    Cert.KernelIdeal.Gen.concatenates_S135168x1_S135168x1_S135168x2_d1

def AhatK (x1 : EdgeList F) : FVec F Cert.KernelIdeal.S4096x4096 .f32 :=
  Host.scatterAdd Cert.KernelIdeal.scatter_S4096x4096_S135168x2_S135168_n_01_01_1
    (broadcastInDim Cert.KernelIdeal.S4096x4096 ![] Cert.KernelIdeal.Gen.bcast_S_S4096x4096
      (constant (F := F) Cert.KernelIdeal.S_ .f32 0x00000000#32))
    (idxK x1) (val_main_v29 (F := F) x1)

end Dense

theorem idxK_zero (x1 : EdgeList Ideal) (e : Fin 135168) :
    idxK (F := Ideal) x1 (ix2 e (0 : Fin 2)) = val_main_v27 (F := Ideal) x1 (ix2 e (0 : Fin 1)) :=
  concatCols_apply_zero _ _ _ e

theorem idxK_one (x1 : EdgeList Ideal) (e : Fin 135168) :
    idxK (F := Ideal) x1 (ix2 e (1 : Fin 2)) = val_main_v36 (F := Ideal) x1 (ix2 e (0 : Fin 1)) :=
  concatCols_apply_one _ _ _ e

theorem Ahat_apply (x1 : EdgeList Ideal) (hr : InRange x1) (i j : Fin 4096) :
    AhatK (F := Ideal) x1 (ix2 i j)
      = ∑ e ∈ Finset.univ.filter (fun e : Fin 135168 => cI x1 e = i ∧ rI x1 e = j), val_main_v29 (F := Ideal) x1 (ix1 e) := by
  unfold AhatK
  refine (Cert.Scatter2D.scatterAdd_pairs_apply (N := 4096) (M := 4096) (R := 135168) (w := 32) (φ := .f32)
    Cert.KernelIdeal.Gen.scatter_S4096x4096_S135168x2_S135168_n_01_01_1_wf _ (idxK (F := Ideal) x1)
    (val_main_v29 (F := Ideal) x1) i j).trans ?_
  have hz : (broadcastInDim Cert.KernelIdeal.S4096x4096 ![] Cert.KernelIdeal.Gen.bcast_S_S4096x4096
      (constant (F := Ideal) Cert.KernelIdeal.S_ .f32 0x00000000#32) (ix2 i j) : EReal) = 0 := constant_zero_apply _ _
  rw [hz, zero_add]
  refine Finset.sum_congr (Finset.filter_congr fun e _ => ?_) (fun _ _ => rfl)
  rw [idxK_zero, idxK_one, v27_toInt x1 hr e, v36_toInt x1 hr e, Fin.ext_iff, Fin.ext_iff]
  omega

theorem Ahat_real (x1 : EdgeList Ideal) : IsReal (AhatK (F := Ideal) x1) :=
  isReal_scatterAdd _ (isReal_broadcastInDim _ _ (isReal_constant_zero _)) _ (norm_real x1)

end Cert.Edges

end
-- ==== Proof.EdgesEntry.lean ====
import proofs.«410974_j45672682225711_2_alg».proof.Proof.Gen.KernelIdeal.Launch
import Idealize.ShloMosaic.Lib.StableHlo.Run

noncomputable section

namespace Cert.EdgesEntry

open Cert.KernelIdeal Cert.KernelIdeal.Gen
open Idealize.ShloMosaic Idealize.ShloMosaic.TcCoe Idealize.SL.Sem Idealize.ShloMosaic.StableHlo

variable {F : FTy → Type} [FloatOps F]

def kWrap (y : (⟨S135168, .i32⟩ : BufTy).Contents (Elt F)) : (⟨S135168, .i32⟩ : BufTy).Contents (Elt F) :=
  select (cmpi .slt y (broadcastInDim S135168 ![] bcast_S_S135168 (constantI S_ 32 0#32)))
    (addi y (broadcastInDim S135168 ![] bcast_S_S135168 (constantI S_ 32 4096#32))) y

def kCol (y : (⟨S135168, .i32⟩ : BufTy).Contents (Elt F)) : (⟨S135168x1, .i32⟩ : BufTy).Contents (Elt F) :=
  broadcastInDim S135168x1 ![0] bcast_S135168_S135168x1_0 y

def kNormOf (r c : (⟨S135168, .i32⟩ : BufTy).Contents (Elt F)) (dinv : (⟨S4096, .f32⟩ : BufTy).Contents (Elt F)) :
    (⟨S135168, .f32⟩ : BufTy).Contents (Elt F) :=
  mulf (Host.gather gather_S4096_S135168x1_S135168_n_0_n_n_0_1_1 dinv (kCol (F := F) (kWrap (F := F) r)))
    (Host.gather gather_S4096_S135168x1_S135168_n_0_n_n_0_1_1 dinv (kCol (F := F) (kWrap (F := F) c)))

def kIdx (r c : (⟨S135168, .i32⟩ : BufTy).Contents (Elt F)) : (⟨S135168x2, .i32⟩ : BufTy).Contents (Elt F) :=
  concatenate S135168x2 1 [⟨S135168x1, kCol (F := F) (kWrap (F := F) c)⟩, ⟨S135168x1, kCol (F := F) (kWrap (F := F) r)⟩]
    concatenates_S135168x1_S135168x1_S135168x2_d1

def kAhatOf (r c : (⟨S135168, .i32⟩ : BufTy).Contents (Elt F)) (dinv : (⟨S4096, .f32⟩ : BufTy).Contents (Elt F)) :
    (⟨S4096x4096, .f32⟩ : BufTy).Contents (Elt F) :=
  Host.scatterAdd scatter_S4096x4096_S135168x2_S135168_n_01_01_1
    (broadcastInDim S4096x4096 ![] bcast_S_S4096x4096 (constant (F := F) S_ .f32 0x00000000#32))
    (kIdx (F := F) r c) (kNormOf r c dinv)

abbrev opsA : List (HloOp τ sig (Elt F)) :=
  ( StableHlo.nullary main_c (constantI S_ 32 0#32)
  :: StableHlo.unary main_c main_v15 (broadcastInDim S135168 ![] bcast_S_S135168)
  :: StableHlo.binary main_v5 main_v15 main_v16 (cmpi .slt)
  :: StableHlo.nullary main_c_3 (constantI S_ 32 4096#32)
  :: StableHlo.unary main_c_3 main_v17 (broadcastInDim S135168 ![] bcast_S_S135168)
  :: StableHlo.binary main_v5 main_v17 main_v18 (addi)
  :: StableHlo.ternary main_v16 main_v18 main_v5 main_v19 (select)
  :: StableHlo.unary main_v19 main_v20 (broadcastInDim S135168x1 ![0] bcast_S135168_S135168x1_0)
  :: StableHlo.binary main_v14 main_v20 main_v21 ((fun x i => Host.gather gather_S4096_S135168x1_S135168_n_0_n_n_0_1_1 x i))
  :: StableHlo.nullary main_c_4 (constantI S_ 32 0#32)
  :: StableHlo.unary main_c_4 main_v22 (broadcastInDim S135168 ![] bcast_S_S135168)
  :: StableHlo.binary main_v6 main_v22 main_v23 (cmpi .slt)
  :: StableHlo.nullary main_c_5 (constantI S_ 32 4096#32)
  :: StableHlo.unary main_c_5 main_v24 (broadcastInDim S135168 ![] bcast_S_S135168)
  :: StableHlo.binary main_v6 main_v24 main_v25 (addi)
  :: StableHlo.ternary main_v23 main_v25 main_v6 main_v26 (select)
  :: StableHlo.unary main_v26 main_v27 (broadcastInDim S135168x1 ![0] bcast_S135168_S135168x1_0)
  :: StableHlo.binary main_v14 main_v27 main_v28 ((fun x i => Host.gather gather_S4096_S135168x1_S135168_n_0_n_n_0_1_1 x i))
  :: StableHlo.binary main_v21 main_v28 main_v29 (mulf)
  :: [] )

abbrev opsB : List (HloOp τ sig (Elt F)) :=
  ( StableHlo.nullary main_cst_6 (constant S_ .f32 0x00000000#32)
  :: StableHlo.unary main_cst_6 main_v30 (broadcastInDim S4096x4096 ![] bcast_S_S4096x4096)
  :: StableHlo.nullary main_c_7 (constantI S_ 32 0#32)
  :: StableHlo.unary main_c_7 main_v31 (broadcastInDim S135168 ![] bcast_S_S135168)
  :: StableHlo.binary main_v6 main_v31 main_v32 (cmpi .slt)
  :: StableHlo.nullary main_c_8 (constantI S_ 32 4096#32)
  :: StableHlo.unary main_c_8 main_v33 (broadcastInDim S135168 ![] bcast_S_S135168)
  :: StableHlo.binary main_v6 main_v33 main_v34 (addi)
  :: StableHlo.ternary main_v32 main_v34 main_v6 main_v35 (select)
  :: StableHlo.nullary main_c_9 (constantI S_ 32 0#32)
  :: StableHlo.unary main_c_9 main_v36 (broadcastInDim S135168 ![] bcast_S_S135168)
  :: StableHlo.binary main_v5 main_v36 main_v37 (cmpi .slt)
  :: StableHlo.nullary main_c_10 (constantI S_ 32 4096#32)
  :: StableHlo.unary main_c_10 main_v38 (broadcastInDim S135168 ![] bcast_S_S135168)
  :: StableHlo.binary main_v5 main_v38 main_v39 (addi)
  :: StableHlo.ternary main_v37 main_v39 main_v5 main_v40 (select)
  :: StableHlo.unary main_v35 main_v41 (broadcastInDim S135168x1 ![0] bcast_S135168_S135168x1_0)
  :: StableHlo.unary main_v40 main_v42 (broadcastInDim S135168x1 ![0] bcast_S135168_S135168x1_0)
  :: [] )

abbrev opsC : List (HloOp τ sig (Elt F)) :=
  ( StableHlo.binary main_v41 main_v42 main_v43 ((fun a b => concatenate S135168x2 1 [⟨S135168x1, a⟩, ⟨S135168x1, b⟩] concatenates_S135168x1_S135168x1_S135168x2_d1))
  :: StableHlo.ternary main_v30 main_v43 main_v29 main_v44 ((fun x i u => Host.scatterAdd scatter_S4096x4096_S135168x2_S135168_n_01_01_1 x i u))
  :: StableHlo.nullary main_cst_11 (constant S_ .f32 0x00000000#32)
  :: StableHlo.unary main_cst_11 main_v45 (broadcastInDim S128 ![] bcast_S_S128)
  :: StableHlo.reshape main_v45 main_v46 rfl shapeCasts_S128_S1x128
  :: [] )

theorem ops_split : (hostOps0_2 : List (HloOp τ sig (Elt F))) = opsA ++ (opsB ++ opsC) := rfl

theorem after_append' (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

theorem C_v44 (W : Valuation τ sig (Elt F)) :
    StableHlo.after (opsC (F := F)) W main_v44
      = Host.scatterAdd scatter_S4096x4096_S135168x2_S135168_n_01_01_1 (W main_v30)
          (concatenate S135168x2 1 [⟨S135168x1, W main_v41⟩, ⟨S135168x1, W main_v42⟩] concatenates_S135168x1_S135168x1_S135168x2_d1)
          (W main_v29) := by
  after_results

def kZeroRow : (⟨S1x128, .f32⟩ : BufTy).Contents (Elt F) :=
  shapeCast S1x128 (broadcastInDim S128 ![] bcast_S_S128 (constant (F := F) S_ .f32 0x00000000#32)) shapeCasts_S128_S1x128

theorem C_v46 (W : Valuation τ sig (Elt F)) : StableHlo.after (opsC (F := F)) W main_v46 = kZeroRow (F := F) := by
  after_results_simp
  rfl

theorem B_v41 (W : Valuation τ sig (Elt F)) :
    StableHlo.after (opsB (F := F)) W main_v41 = kCol (F := F) (kWrap (F := F) (W main_v6)) := by
  after_results_simp
  rfl

theorem B_v42 (W : Valuation τ sig (Elt F)) :
    StableHlo.after (opsB (F := F)) W main_v42 = kCol (F := F) (kWrap (F := F) (W main_v5)) := by
  after_results_simp
  rfl

theorem B_v30 (W : Valuation τ sig (Elt F)) :
    StableHlo.after (opsB (F := F)) W main_v30
      = broadcastInDim S4096x4096 ![] bcast_S_S4096x4096 (constant (F := F) S_ .f32 0x00000000#32) := by
  after_results_simp

theorem B_v29 (W : Valuation τ sig (Elt F)) : StableHlo.after (opsB (F := F)) W main_v29 = W main_v29 := by
  after_results_simp

theorem A_v29 (W : Valuation τ sig (Elt F)) :
    StableHlo.after (opsA (F := F)) W main_v29 = kNormOf (W main_v5) (W main_v6) (W main_v14) := by
  after_results_simp
  rfl

theorem A_v5 (W : Valuation τ sig (Elt F)) : StableHlo.after (opsA (F := F)) W main_v5 = W main_v5 := by
  after_results_simp

theorem A_v6 (W : Valuation τ sig (Elt F)) : StableHlo.after (opsA (F := F)) W main_v6 = W main_v6 := by
  after_results_simp

theorem stage3_v44 (W : Valuation τ sig (Elt F)) :
    StableHlo.after (hostOps0_2 (F := F)) W main_v44 = kAhatOf (W main_v5) (W main_v6) (W main_v14) := by
  rw [ops_split, after_append', after_append', C_v44, B_v30, B_v41, B_v42, B_v29, A_v29, A_v5, A_v6]
  rfl

theorem stage3_v46 (W : Valuation τ sig (Elt F)) : StableHlo.after (hostOps0_2 (F := F)) W main_v46 = kZeroRow (F := F) := by
  rw [ops_split, after_append', after_append', C_v46]

theorem stage2_v14 (W : Valuation τ sig (Elt F)) :
    StableHlo.after (hostOps0_1 (F := F)) W main_v14
      = select (W main_v12) (W main_v13) (broadcastInDim S4096 ![] bcast_S_S4096 (id (W main_cst_2))) := by
  after_results
  all_goals rfl

theorem stage2_v5 (W : Valuation τ sig (Elt F)) : StableHlo.after (hostOps0_1 (F := F)) W main_v5 = W main_v5 := by
  after_results

theorem stage2_v6 (W : Valuation τ sig (Elt F)) : StableHlo.after (hostOps0_1 (F := F)) W main_v6 = W main_v6 := by
  after_results

def kV5 (x1 : (⟨S2x131072, .i32⟩ : BufTy).Contents (Elt F)) : (⟨S135168, .i32⟩ : BufTy).Contents (Elt F) :=
  concatenate S135168 0
    [⟨S131072, shapeCast S131072 (extractStridedSlice S1x131072 ![0, 0] x1 slices_S2x131072_S1x131072_0_0) shapeCasts_S1x131072_S131072⟩,
     ⟨S4096, iotaInDim S4096 32 0⟩] concatenates_S131072_S4096_S135168_d0

def kV6 (x1 : (⟨S2x131072, .i32⟩ : BufTy).Contents (Elt F)) : (⟨S135168, .i32⟩ : BufTy).Contents (Elt F) :=
  concatenate S135168 0
    [⟨S131072, shapeCast S131072 (extractStridedSlice S1x131072 ![1, 0] x1 slices_S2x131072_S1x131072_1_0) shapeCasts_S1x131072_S131072⟩,
     ⟨S4096, iotaInDim S4096 32 0⟩] concatenates_S131072_S4096_S135168_d0

def kDeg (x1 : (⟨S2x131072, .i32⟩ : BufTy).Contents (Elt F)) : (⟨S4096, .f32⟩ : BufTy).Contents (Elt F) :=
  Host.scatterAdd scatter_S4096_S135168x1_S135168_n_0_0_1
    (broadcastInDim S4096 ![] bcast_S_S4096 (constant (F := F) S_ .f32 0x00000000#32))
    (kCol (F := F) (kV6 (F := F) x1))
    (broadcastInDim S135168 ![] bcast_S_S135168 (constant (F := F) S_ .f32 0x3F800000#32))

theorem stage1_v5 (W : Valuation τ sig (Elt F)) : StableHlo.after (hostOps0 (F := F)) W main_v5 = kV5 (F := F) (W main_arg1) := by
  after_results
  all_goals rfl

theorem stage1_v6 (W : Valuation τ sig (Elt F)) : StableHlo.after (hostOps0 (F := F)) W main_v6 = kV6 (F := F) (W main_arg1) := by
  after_results
  all_goals rfl

theorem stage1_v12 (W : Valuation τ sig (Elt F)) :
    StableHlo.after (hostOps0 (F := F)) W main_v12
      = cmpf (F := F) .ogt (kDeg (F := F) (W main_arg1)) (broadcastInDim S4096 ![] bcast_S_S4096 (constant (F := F) S_ .f32 0x00000000#32)) := by
  after_results
  all_goals rfl

theorem stage1_v13 (W : Valuation τ sig (Elt F)) :
    StableHlo.after (hostOps0 (F := F)) W main_v13 = Host.rsqrt (kDeg (F := F) (W main_arg1)) := by
  after_results
  all_goals rfl

theorem stage1_cst2 (W : Valuation τ sig (Elt F)) :
    StableHlo.after (hostOps0 (F := F)) W main_cst_2 = constant (F := F) S_ .f32 0x00000000#32 := by
  after_results
  all_goals rfl

def kDinv (x1 : (⟨S2x131072, .i32⟩ : BufTy).Contents (Elt F)) : (⟨S4096, .f32⟩ : BufTy).Contents (Elt F) :=
  select (cmpf (F := F) .ogt (kDeg (F := F) x1) (broadcastInDim S4096 ![] bcast_S_S4096 (constant (F := F) S_ .f32 0x00000000#32)))
    (Host.rsqrt (kDeg (F := F) x1)) (broadcastInDim S4096 ![] bcast_S_S4096 (id (constant (F := F) S_ .f32 0x00000000#32)))

def kAhat (x1 : (⟨S2x131072, .i32⟩ : BufTy).Contents (Elt F)) : (⟨S4096x4096, .f32⟩ : BufTy).Contents (Elt F) :=
  kAhatOf (kV5 (F := F) x1) (kV6 (F := F) x1) (kDinv (F := F) x1)

theorem entry_v44 (W0 : Valuation τ sig (Elt F)) :
    StableHlo.after (hostOps0_2 (F := F)) (StableHlo.after (hostOps0_1 (F := F)) (StableHlo.after (hostOps0 (F := F)) W0)) main_v44
      = kAhat (F := F) (W0 main_arg1) := by
  rw [stage3_v44, stage2_v5, stage2_v6, stage2_v14, stage1_v5, stage1_v6, stage1_v12, stage1_v13, stage1_cst2]
  rfl

theorem entry_v46 (W0 : Valuation τ sig (Elt F)) :
    StableHlo.after (hostOps0_2 (F := F)) (StableHlo.after (hostOps0_1 (F := F)) (StableHlo.after (hostOps0 (F := F)) W0)) main_v46
      = kZeroRow (F := F) :=
  stage3_v46 _

end Cert.EdgesEntry

end
-- ==== Proof.EdgesLink.lean ====
import proofs.«410974_j45672682225711_2_alg».proof.Proof.Edges
import proofs.«410974_j45672682225711_2_alg».proof.Proof.EdgesEntry

noncomputable section

namespace Cert.Edges

open Cert.KernelIdeal Cert.KernelIdeal.Gen
open Idealize.ShloMosaic Idealize.ShloMosaic.TcCoe Idealize.SL.Sem Idealize.ShloMosaic.StableHlo
open Cert.ReferenceIdeal.Read Cert.EdgesEntry Cert.RealVal

section Generic
variable {F : FTy → Type} [FloatOps F]

theorem kV5_eq (x1 : EdgeList F) : kV5 (F := F) x1 = val_main_v5 (F := F) x1 := rfl
theorem kV6_eq (x1 : EdgeList F) : kV6 (F := F) x1 = val_main_v6 (F := F) x1 := rfl
theorem kDinv_eq (x1 : EdgeList F) : kDinv (F := F) x1 = val_main_v14 (F := F) x1 := rfl

theorem kColWrap5_eq (x1 : EdgeList F) : kCol (F := F) (kWrap (F := F) (val_main_v5 (F := F) x1)) = val_main_v36 (F := F) x1 := rfl
theorem kColWrap6_eq (x1 : EdgeList F) : kCol (F := F) (kWrap (F := F) (val_main_v6 (F := F) x1)) = val_main_v27 (F := F) x1 := rfl

theorem kNorm_eq (x1 : EdgeList F) :
    kNormOf (F := F) (val_main_v5 (F := F) x1) (val_main_v6 (F := F) x1) (val_main_v14 (F := F) x1) = val_main_v29 (F := F) x1 := rfl

theorem kIdx_eq (x1 : EdgeList F) : kIdx (F := F) (val_main_v5 (F := F) x1) (val_main_v6 (F := F) x1) = idxK (F := F) x1 := by
  unfold kIdx idxK
  rw [kColWrap5_eq, kColWrap6_eq]

theorem kAhat_eq (x1 : EdgeList F) : kAhat (F := F) x1 = AhatK (F := F) x1 := by
  unfold kAhat kAhatOf AhatK
  rw [kV5_eq, kV6_eq, kDinv_eq, kIdx_eq, kNorm_eq]

end Generic

theorem kernel_entry_v44 (W0 : Valuation τ sig (Elt Ideal)) :
    StableHlo.after (hostOps0_2 (F := Ideal)) (StableHlo.after (hostOps0_1 (F := Ideal)) (StableHlo.after (hostOps0 (F := Ideal)) W0)) main_v44
      = AhatK (F := Ideal) (W0 main_arg1) :=
  (entry_v44 W0).trans (kAhat_eq _)

theorem kernel_entry_v46 (W0 : Valuation τ sig (Elt Ideal)) (y : S1x128.Idx) :
    (StableHlo.after (hostOps0_2 (F := Ideal)) (StableHlo.after (hostOps0_1 (F := Ideal)) (StableHlo.after (hostOps0 (F := Ideal)) W0)) main_v46
      : (⟨S1x128, .f32⟩ : BufTy).Contents (Elt Ideal)) y = (0 : EReal) := by
  rw [entry_v46]
  exact Ideal.ofBits_zero_f32

end Cert.Edges

end
-- ==== Proof.PreFacts.lean ====
import proofs.«410974_j45672682225711_2_alg».proof.Pre_finite_inputs
import proofs.«410974_j45672682225711_2_alg».proof.Proof.Gen.Pre_finite_inputs
import proofs.«410974_j45672682225711_2_alg».proof.Proof.LibReal
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Cert.Pre_finite_inputs Cert.Pre_finite_inputs.Facts Cert.RealVal

instance : Subsingleton S_.Idx := ⟨fun a b => funext fun d => d.elim0⟩

theorem ofBits_inf : Ideal.ofBits .f32 0x7F800000#32 = (⊤ : EReal) := by simp [Ideal.ofBits, Ideal.ieee]

/-- max(x, -x) < +∞ excludes both infinities. -/
theorem real1_of_abs_lt_inf (x : EReal)
    (h : Ideal.cmp .olt (max x (-x)) (Ideal.ofBits .f32 0x7F800000#32) = 1#1) : Real1 x := by
  rw [ofBits_inf] at h
  unfold Ideal.cmp at h
  have hlt : max x (-x) < ⊤ := by
    simpa only [StableHlo.Predicate.ofBool_eq_one_iff, decide_eq_true_eq] using h
  rw [max_lt_iff] at hlt
  refine ⟨ne_of_lt hlt.1, fun hb => ?_⟩
  rw [hb] at hlt
  exact absurd hlt.2 (by simp)

/-- An "and" over all axes that is one met only ones. -/
theorem isReal_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) : IsReal x := fun i =>
  real1_of_abs_lt_inf (x i) (Host.reduce_andi_all _ _ hr h0 _ e i)

theorem range_of_all {s : Shape} {axes : List (Fin s.rank)} (x : IVec s 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 0#32)))
            (cmpi .slt x (broadcastInDim s ![] hb (constantI S_ 32 4096#32))))
          (constantI S_ 1 1#1) hr h0 ValueIdx.ix0 = 1#1) (i : s.Idx) : 0 ≤ (x i).toInt ∧ (x i).toInt < 4096 := by
  obtain ⟨hge, hlt⟩ := (IntOp.andi_eq_one (c := IntOp.cmpi .sge (x i) 0#32) (d := IntOp.cmpi .slt (x i) 4096#32)).1
    (Host.reduce_andi_all _ _ hr h0 _ e i)
  exact ⟨IntOp.cmpi_sge.1 hge, IntOp.cmpi_slt.1 hlt⟩

theorem and_split (a b : IVec S_ 1) (i : S_.Idx) (h : andi a b i = 1#1) : a i = 1#1 ∧ b i = 1#1 :=
  IntOp.andi_eq_one.1 h

variable [Cert.Pre_finite_inputs.Facts] {x0 : FVec Ideal S4096x128 .f32} {x1 : IVec S2x131072 32}
  {x2 : FVec Ideal S128x128 .f32} {x3 : FVec Ideal S128 .f32} {x4 : FVec Ideal S128x128 .f32} {x5 : FVec Ideal S128 .f32}
  {x6 : FVec Ideal S128x64 .f32} {x7 : FVec Ideal S64 .f32} {x8 : FVec Ideal S384x128 .f32} {x9 : FVec Ideal S384 .f32}
  {x10 : FVec Ideal S128x128 .f32} {x11 : FVec Ideal S128 .f32} {x12 : FVec Ideal S128x64 .f32} {x13 : FVec Ideal S64 .f32}
  (h : fn (F := Ideal) x0 x1 x2 x3 x4 x5 x6 x7 x8 x9 x10 x11 x12 x13 = fun _ => 1#1)
include h

/-- The precondition is an "and" of fourteen all-reductions, so each of them is one. -/
theorem decode : (IsReal x0 ∧ IsReal x2 ∧ IsReal x3 ∧ IsReal x4 ∧ IsReal x8 ∧ IsReal x9)
    ∧ ∀ i : S2x131072.Idx, 0 ≤ (x1 i).toInt ∧ (x1 i).toInt < 4096 := by
  have h0 := congrFun h ValueIdx.ix0
  dsimp only [fn, fn_part1, fn_part2, fn_part3, fn_part4] at h0
  obtain ⟨h0, e1⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, e9⟩ := and_split _ _ _ h0
  obtain ⟨h0, e8⟩ := and_split _ _ _ h0
  obtain ⟨h0, -⟩ := and_split _ _ _ h0
  obtain ⟨h0, -⟩ := and_split _ _ _ h0
  obtain ⟨h0, -⟩ := and_split _ _ _ h0
  obtain ⟨h0, e4⟩ := and_split _ _ _ h0
  obtain ⟨h0, e3⟩ := and_split _ _ _ h0
  obtain ⟨e0, e2⟩ := and_split _ _ _ h0
  exact ⟨⟨isReal_of_all x0 _ _ _ e0, isReal_of_all x2 _ _ _ e2, isReal_of_all x3 _ _ _ e3, isReal_of_all x4 _ _ _ e4,
    isReal_of_all x8 _ _ _ e8, isReal_of_all x9 _ _ _ e9⟩, range_of_all x1 _ _ _ e1⟩

theorem real_x0 : IsReal x0 := (decode h).1.1
theorem real_x2 : IsReal x2 := (decode h).1.2.1
theorem real_x3 : IsReal x3 := (decode h).1.2.2.1
theorem real_x4 : IsReal x4 := (decode h).1.2.2.2.1
theorem real_x8 : IsReal x8 := (decode h).1.2.2.2.2.1
theorem real_x9 : IsReal x9 := (decode h).1.2.2.2.2.2
theorem edge_range : ∀ i : S2x131072.Idx, 0 ≤ (x1 i).toInt ∧ (x1 i).toInt < 4096 := (decode h).2

end Cert.PreFacts

end
-- ==== Proof.LibRowGather2.lean ====
import Idealize.ShloMosaic.Lib.ValueIdx

noncomputable section

namespace Cert.RowGather2

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

theorem one_not_mem_startIndexMap : ¬ (1 : Fin 2) ∈ (rowDims N C R wf).startIndexMap := fun h =>
  absurd (congrArg Fin.val (List.mem_singleton.mp h)) Nat.one_ne_zero

theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.LibRowScatter.lean ====
import proofs.«410974_j45672682225711_2_alg».proof.Proof.LibScatterLand

noncomputable section

namespace Cert.RowScatter

open Idealize.ShloMosaic Idealize.ShloMosaic.ValueIdx

/-- The dimension numbers of a scatter of rows [R, C] into a table [N, C] at a column [R, 1] of row indices. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  refine congrArg (fun t => (idx t).toInt) (funext fun b => Fin.ext ?_)
  fin_cases b <;> rfl

theorem start_col : (rowDims N C R wf).start (ix2 e c) idx (1 : Fin 2) = 0 := by
  unfold ScatterDims.start
  rw [dif_neg (fun h => absurd (congrArg Fin.val (List.mem_singleton.mp h)) Nat.one_ne_zero)]

theorem window_row : (rowDims N C R wf).window (ix2 e c) (0 : Fin 2) = 0 := by
  unfold ScatterDims.window
  rw [dif_neg (by simp [ScatterDims.sKept, Shape.kept])]

theorem window_col : (rowDims N C R wf).window (ix2 e c) (1 : Fin 2) = c.val := by
  unfold ScatterDims.window
  rw [dif_pos (by simp [ScatterDims.sKept, Shape.kept])]
  rfl

/-- Update (e, c) lands on (i, c') exactly when row e's index, read signed, is i and the columns agree. -/
theorem resultIdx?_eq_some_iff (i : Fin N) (c' : Fin C) :
    (rowDims N C R wf).resultIdx? (ix2 e c) idx = some (ix2 i c')
      ↔ (idx (ix2 e (0 : Fin 1))).toInt = (i.val : Int) ∧ c = c' := by
  rw [Cert.Scatter.resultIdx?_eq_some_iff, start_row, start_col, window_row, window_col]
  exact ⟨fun ⟨h0, h1⟩ => ⟨by omega, Fin.ext (by omega)⟩, fun ⟨h0, h1⟩ => ⟨by omega, by rw [h1]; omega⟩⟩

end

/-- The accumulating scatter read at (i, c): the table there plus the updates (e, c) of the rows e whose index is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.GcnMath.lean ====
import Mathlib.Data.EReal.Basic
import Mathlib.Algebra.BigOperators.Ring.Finset
import Mathlib.Algebra.BigOperators.Group.Finset.Basic
import proofs.«410974_j45672682225711_2_alg».proof.Proof.LibReal

noncomputable section

namespace Cert.GcnMath

open Cert.RealVal

open scoped BigOperators

theorem coe_sum {κ : Type} (s : Finset κ) (f : κ → ℝ) : ((∑ k ∈ s, f k : ℝ) : EReal) = ∑ k ∈ s, (f k : EReal) := by
  classical
  refine Finset.induction_on s ?_ fun a s ha ih => ?_
  · rw [Finset.sum_empty, Finset.sum_empty, EReal.coe_zero]
  · rw [Finset.sum_insert ha, Finset.sum_insert ha, EReal.coe_add, ih]

theorem dense_eq_edges_real {E N : Type} [Fintype E] [Fintype N] [DecidableEq N] (c r : E → N) (w : E → ℝ) (y : N → ℝ)
    (i : N) :
    ∑ l : N, (∑ e ∈ Finset.univ.filter (fun e => c e = i ∧ r e = l), w e) * y l
      = ∑ e ∈ Finset.univ.filter (fun e => c e = i), y (r e) * w e := by
  rw [← Finset.sum_fiberwise (Finset.univ.filter (fun e => c e = i)) r (fun e => y (r e) * w e)]
  refine Finset.sum_congr rfl fun l _ => ?_
  rw [Finset.sum_mul, Finset.filter_filter]
  refine Finset.sum_congr rfl fun e he => ?_
  rw [(Finset.mem_filter.mp he).2.2, mul_comm]

theorem dense_eq_edges {E N : Type} [Fintype E] [Fintype N] [DecidableEq N] (c r : E → N) (w : E → EReal) (y : N → EReal)
    (hw : ∀ e, Real1 (w e)) (hy : ∀ l, Real1 (y l)) (i : N) :
    ∑ l : N, (∑ e ∈ Finset.univ.filter (fun e => c e = i ∧ r e = l), w e) * y l
      = ∑ e ∈ Finset.univ.filter (fun e => c e = i), y (r e) * w e := by
  choose wr hwr using fun e => (hw e).exists_coe
  choose yr hyr using fun l => (hy l).exists_coe
  have e1 : ∀ l : N, (∑ e ∈ Finset.univ.filter (fun e => c e = i ∧ r e = l), w e) * y l
      = (((∑ e ∈ Finset.univ.filter (fun e => c e = i ∧ r e = l), wr e) * yr l : ℝ) : EReal) := fun l => by
    rw [EReal.coe_mul, coe_sum, hyr l]
    exact congrArg (· * (yr l : EReal)) (Finset.sum_congr rfl fun e _ => hwr e)
  have e2 : ∀ e : E, y (r e) * w e = ((yr (r e) * wr e : ℝ) : EReal) := fun e => by
    rw [EReal.coe_mul, hyr (r e), hwr e]
  rw [Finset.sum_congr rfl fun l _ => e1 l, Finset.sum_congr rfl fun e _ => e2 e, ← coe_sum, ← coe_sum]
  exact congrArg _ (dense_eq_edges_real c r wr yr i)

end Cert.GcnMath

end
-- ==== Proof.RefGcn.lean ====
import proofs.«410974_j45672682225711_2_alg».proof.Proof.RefRead
import proofs.«410974_j45672682225711_2_alg».proof.Proof.LibRowGather2
import proofs.«410974_j45672682225711_2_alg».proof.Proof.LibRowScatter
import proofs.«410974_j45672682225711_2_alg».proof.Proof.LibReal
import proofs.«410974_j45672682225711_2_alg».proof.Proof.GcnMath

noncomputable section

namespace Cert.RefGcn

open Cert.ReferenceIdeal Cert.ReferenceIdeal.Gen Cert.ReferenceIdeal.Read Idealize.ShloMosaic Idealize.ShloMosaic.ValueIdx
  Cert.RealVal

open scoped BigOperators

theorem gatherDims_eq : gather_S4096x128_S135168x1_S135168x128_1_0_n_n_0_1_1128
    = Cert.RowGather2.rowDims 4096 128 135168
        Cert.ReferenceIdeal.Gen.gather_S4096x128_S135168x1_S135168x128_1_0_n_n_0_1_1128_wf := rfl

theorem scatterDims_eq : scatter_S4096x128_S135168x1_S135168x128_1_0_0_1
    = Cert.RowScatter.rowDims 4096 128 135168
        Cert.ReferenceIdeal.Gen.scatter_S4096x128_S135168x1_S135168x128_1_0_0_1_wf := rfl

section Aggregate

variable (T : FVec Ideal S4096x128 .f32) (ir ic : IVec S135168x1 32) (nrm : FVec Ideal S135168 .f32)
  (Z : FVec Ideal S4096x128 .f32) (N2 : FVec Ideal S135168x128 .f32) (rI cI : Fin 135168 → Fin 4096)

theorem gather_row (hr : ∀ e : Fin 135168, (ir (ix2 e (0 : Fin 1))).toInt = ((rI e).val : Int)) (e : Fin 135168) (k : Fin 128) :
    Host.gather gather_S4096x128_S135168x1_S135168x128_1_0_n_n_0_1_1128 T ir (ix2 e k) = T (ix2 (rI e) k) := by
  rw [gatherDims_eq]
  refine (Cert.RowGather2.gather_rows_apply (N := 4096) (by decide) _ T ir e k).trans
    (congrArg (fun a : Fin 4096 => T (ix2 a k)) (Fin.ext ?_))
  show min (ir (ix2 e (0 : Fin 1))).toInt.toNat (4096 - 1) = (rI e).val
  rw [hr e]
  have := (rI e).isLt
  omega

theorem agg_apply (hT : IsReal T) (hn : IsReal nrm) (hZ : ∀ j, Z j = 0)
    (hN2 : ∀ (e : Fin 135168) (k : Fin 128), N2 (ix2 e k) = nrm (ix1 e))
    (hr : ∀ e : Fin 135168, (ir (ix2 e (0 : Fin 1))).toInt = ((rI e).val : Int))
    (hc : ∀ e : Fin 135168, (ic (ix2 e (0 : Fin 1))).toInt = ((cI e).val : Int))
    (Ahat : (⟨2, ![4096, 4096]⟩ : Shape).Idx → EReal)
    (hA : ∀ i l : Fin 4096, Ahat (ix2 i l)
      = ∑ e ∈ Finset.univ.filter (fun e : Fin 135168 => cI e = i ∧ rI e = l), nrm (ix1 e))
    (i : Fin 4096) (k : Fin 128) :
    Host.scatterAdd scatter_S4096x128_S135168x1_S135168x128_1_0_0_1 Z ic
        (mulf (Host.gather gather_S4096x128_S135168x1_S135168x128_1_0_n_n_0_1_1128 T ir) N2) (ix2 i k)
      = ∑ l : Fin 4096, Ahat (ix2 i l) * T (ix2 l k) := by

  have hR : ∑ l : Fin 4096, Ahat (ix2 i l) * T (ix2 l k)
      = ∑ e ∈ Finset.univ.filter (fun e : Fin 135168 => cI e = i), T (ix2 (rI e) k) * nrm (ix1 e) := by
    calc ∑ l : Fin 4096, Ahat (ix2 i l) * T (ix2 l k)
        = ∑ l : Fin 4096, (∑ e ∈ Finset.univ.filter (fun e : Fin 135168 => cI e = i ∧ rI e = l), nrm (ix1 e))
            * T (ix2 l k) := Finset.sum_congr rfl fun l _ => by rw [hA i l]
      _ = ∑ e ∈ Finset.univ.filter (fun e : Fin 135168 => cI e = i), T (ix2 (rI e) k) * nrm (ix1 e) :=
          Cert.GcnMath.dense_eq_edges cI rI (fun e => nrm (ix1 e)) (fun l => T (ix2 l k)) (fun e => hn (ix1 e))
            (fun l => hT (ix2 l k)) i

  have hf : Finset.univ.filter (fun e : Fin 135168 => (ic (ix2 e (0 : Fin 1))).toInt = (i.val : Int))
      = Finset.univ.filter (fun e : Fin 135168 => cI e = i) := by
    refine Finset.filter_congr fun e _ => ?_
    rw [hc e]
    exact ⟨fun h => Fin.ext (by omega), fun h => by rw [h]⟩
  rw [scatterDims_eq, Cert.RowScatter.scatterAdd_rows_apply, hZ, zero_add, hR, hf]
  refine Finset.sum_congr rfl fun e _ => ?_
  show Host.gather gather_S4096x128_S135168x1_S135168x128_1_0_n_n_0_1_1128 T ir (ix2 e k) * N2 (ix2 e k)
    = T (ix2 (rI e) k) * nrm (ix1 e)
  rw [gather_row T ir rI hr e k, hN2 e k]

end Aggregate

section Stages

variable (x0 : (⟨S4096x128, .f32⟩ : BufTy).Contents (Elt Ideal)) (x1 : (⟨S2x131072, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

theorem v39_apply (e : Fin 135168) (k : Fin 128) :
    val_main_v39 (F := Ideal) x1 (ix2 e k) = val_main_v29 (F := Ideal) x1 (ix1 e) := by
  rw [val_main_v39_apply, val_main_v38_apply]
  exact congrArg (val_main_v29 (F := Ideal) x1) (funext fun a => match a with | ⟨0, _⟩ => rfl)

theorem v83_apply (e : Fin 135168) (k : Fin 128) :
    val_main_v83 (F := Ideal) x1 (ix2 e k) = val_main_v73 (F := Ideal) x1 (ix1 e) := by
  rw [val_main_v83_apply, val_main_v82_apply]
  exact congrArg (val_main_v73 (F := Ideal) x1) (funext fun a => match a with | ⟨0, _⟩ => rfl)

theorem v45_apply (i : Fin 4096) (k : Fin 128) : val_main_v45 (F := Ideal) x3 (ix2 i k) = x3 (ix1 k) := by
  rw [val_main_v45_apply, val_main_v44_apply]
  exact congrArg x3 (funext fun a => match a with | ⟨0, _⟩ => rfl)

theorem v89_apply (i : Fin 4096) (k : Fin 128) : val_main_v89 (F := Ideal) x5 (ix2 i k) = x5 (ix1 k) := by
  rw [val_main_v89_apply, val_main_v88_apply]
  exact congrArg x5 (funext fun a => match a with | ⟨0, _⟩ => rfl)

theorem v94_apply (i : Fin 4096) (j : Fin 64) : val_main_v94 (F := Ideal) x7 (ix2 i j) = x7 (ix1 j) := by
  rw [val_main_v94_apply, val_main_v93_apply]
  exact congrArg x7 (funext fun a => match a with | ⟨0, _⟩ => rfl)

theorem v41_apply (j : S4096x128.Idx) : val_main_v41 (F := Ideal) j = 0 := by
  rw [val_main_v41_apply, val_main_cst_8_apply]; exact Ideal.ofBits_zero_f32
theorem v85_apply (j : S4096x128.Idx) : val_main_v85 (F := Ideal) j = 0 := by
  rw [val_main_v85_apply, val_main_cst_19_apply]; exact Ideal.ofBits_zero_f32
theorem call1_v0_apply (j : S4096x128.Idx) : val_main_call1_v0 (F := Ideal) j = 0 := by
  rw [val_main_call1_v0_apply, val_main_call1_cst_apply]; exact Ideal.ofBits_zero_f32
theorem call3_v0_apply (j : S4096x128.Idx) : val_main_call3_v0 (F := Ideal) j = 0 := by
  rw [val_main_call3_v0_apply, val_main_call3_cst_apply]; exact Ideal.ofBits_zero_f32

theorem isReal_v30 (h0 : IsReal x0) (h2 : IsReal x2) : IsReal (val_main_v30 (F := Ideal) x0 x2) := by
  unfold val_main_v30
  exact isReal_dotGeneral _ _ h0 h2

theorem isReal_v41 : IsReal (val_main_v41 (F := Ideal)) := fun j => by rw [v41_apply]; exact real1_zero
theorem isReal_call1_v0 : IsReal (val_main_call1_v0 (F := Ideal)) := fun j => by rw [call1_v0_apply]; exact real1_zero

theorem isReal_v40 (hn : IsReal (val_main_v29 (F := Ideal) x1)) (h0 : IsReal x0) (h2 : IsReal x2) :
    IsReal (val_main_v40 (F := Ideal) x0 x1 x2) := by
  unfold val_main_v40 val_main_v37 val_main_v39 val_main_v38
  exact isReal_mulf (isReal_gather _ (isReal_v30 x0 x2 h0 h2) _) (isReal_broadcastInDim _ _ (isReal_broadcastInDim _ _ hn))

theorem isReal_v47 (hn : IsReal (val_main_v29 (F := Ideal) x1)) (h0 : IsReal x0) (h2 : IsReal x2) (h3 : IsReal x3) :
    IsReal (val_main_v47 (F := Ideal) x0 x1 x2 x3) := by
  unfold val_main_v47 val_main_v46 val_main_v43 val_main_v45 val_main_v44
  exact isReal_maximumf
    (isReal_addf (isReal_scatterAdd _ isReal_v41 _ (isReal_v40 x0 x1 x2 hn h0 h2))
      (isReal_broadcastInDim _ _ (isReal_broadcastInDim _ _ h3)))
    isReal_call1_v0

theorem isReal_v74 (hn : IsReal (val_main_v29 (F := Ideal) x1)) (h0 : IsReal x0) (h2 : IsReal x2) (h3 : IsReal x3)
    (h4 : IsReal x4) : IsReal (val_main_v74 (F := Ideal) x0 x1 x2 x3 x4) := by
  unfold val_main_v74
  exact isReal_dotGeneral _ _ (isReal_v47 x0 x1 x2 x3 hn h0 h2 h3) h4

section Layer1

variable (rI cI : Fin 135168 → Fin 4096)
  (hr : ∀ e : Fin 135168, (val_main_v36 (F := Ideal) x1 (ix2 e (0 : Fin 1))).toInt = ((rI e).val : Int))
  (hc : ∀ e : Fin 135168, (val_main_v42 (F := Ideal) x1 (ix2 e (0 : Fin 1))).toInt = ((cI e).val : Int))
  (hn : IsReal (val_main_v29 (F := Ideal) x1))
  (Ahat : (⟨2, ![4096, 4096]⟩ : Shape).Idx → EReal)
  (hA : ∀ i l : Fin 4096, Ahat (ix2 i l)
    = ∑ e ∈ Finset.univ.filter (fun e : Fin 135168 => cI e = i ∧ rI e = l), val_main_v29 (F := Ideal) x1 (ix1 e))
  (h0 : IsReal x0) (h2 : IsReal x2)

include hr hc hn hA h0 h2

theorem ref_v43 (i : Fin 4096) (k : Fin 128) :
    val_main_v43 (F := Ideal) x0 x1 x2 (ix2 i k)
      = ∑ l : Fin 4096, Ahat (ix2 i l) * val_main_v30 (F := Ideal) x0 x2 (ix2 l k) := by
  unfold val_main_v43 val_main_v40 val_main_v37
  exact agg_apply (val_main_v30 (F := Ideal) x0 x2) (val_main_v36 (F := Ideal) x1) (val_main_v42 (F := Ideal) x1)
    (val_main_v29 (F := Ideal) x1) (val_main_v41 (F := Ideal)) (val_main_v39 (F := Ideal) x1) rI cI
    (isReal_v30 x0 x2 h0 h2) hn v41_apply (v39_apply x1) hr hc Ahat hA i k

theorem ref_layer1 (i : Fin 4096) (k : Fin 128) :
    val_main_v47 (F := Ideal) x0 x1 x2 x3 (ix2 i k)
      = max ((∑ l : Fin 4096, Ahat (ix2 i l) * val_main_v30 (F := Ideal) x0 x2 (ix2 l k)) + x3 (ix1 k)) 0 := by

  show max (val_main_v43 (F := Ideal) x0 x1 x2 (ix2 i k) + val_main_v45 (F := Ideal) x3 (ix2 i k))
    (val_main_call1_v0 (F := Ideal) (ix2 i k)) = _
  rw [ref_v43 x0 x1 x2 rI cI hr hc hn Ahat hA h0 h2 i k, v45_apply, call1_v0_apply]

theorem ref_v74 (i : Fin 4096) (j : Fin 128) :
    val_main_v74 (F := Ideal) x0 x1 x2 x3 x4 (ix2 i j)
      = ∑ k : Fin 128, max ((∑ l : Fin 4096, Ahat (ix2 i l) * val_main_v30 (F := Ideal) x0 x2 (ix2 l k)) + x3 (ix1 k)) 0
          * x4 (ix2 k j) := by
  rw [val_main_v74_apply]
  refine Finset.sum_congr rfl fun k _ => ?_
  rw [show lidx_main_v74 (ix2 i j) k = ix2 i k from funext fun a => match a with | ⟨0, _⟩ => rfl | ⟨1, _⟩ => rfl,
    show ridx_main_v74 (ix2 i j) k = ix2 k j from funext fun a => match a with | ⟨0, _⟩ => rfl | ⟨1, _⟩ => rfl,
    ref_layer1 x0 x1 x2 x3 rI cI hr hc hn Ahat hA h0 h2 i k]

end Layer1

section Layer2

variable (rI cI : Fin 135168 → Fin 4096)
  (hr : ∀ e : Fin 135168, (val_main_v36 (F := Ideal) x1 (ix2 e (0 : Fin 1))).toInt = ((rI e).val : Int))
  (hc : ∀ e : Fin 135168, (val_main_v42 (F := Ideal) x1 (ix2 e (0 : Fin 1))).toInt = ((cI e).val : Int))
  (hn : IsReal (val_main_v29 (F := Ideal) x1))
  (Ahat : (⟨2, ![4096, 4096]⟩ : Shape).Idx → EReal)
  (hA : ∀ i l : Fin 4096, Ahat (ix2 i l)
    = ∑ e ∈ Finset.univ.filter (fun e : Fin 135168 => cI e = i ∧ rI e = l), val_main_v29 (F := Ideal) x1 (ix1 e))
  (h0 : IsReal x0) (h2 : IsReal x2) (h3 : IsReal x3) (h4 : IsReal x4)

include hr hc hn hA h0 h2 h3 h4

theorem ref_v87 (i : Fin 4096) (k : Fin 128) :
    val_main_v87 (F := Ideal) x0 x1 x2 x3 x4 (ix2 i k)
      = ∑ l : Fin 4096, Ahat (ix2 i l) * val_main_v74 (F := Ideal) x0 x1 x2 x3 x4 (ix2 l k) := by
  unfold val_main_v87 val_main_v84 val_main_v81
  exact agg_apply (val_main_v74 (F := Ideal) x0 x1 x2 x3 x4) (val_main_v80 (F := Ideal) x1) (val_main_v86 (F := Ideal) x1)
    (val_main_v73 (F := Ideal) x1) (val_main_v85 (F := Ideal)) (val_main_v83 (F := Ideal) x1) rI cI
    (isReal_v74 x0 x1 x2 x3 x4 hn h0 h2 h3 h4) hn v85_apply (v83_apply x1) hr hc Ahat hA i k

theorem ref_layer2 (i : Fin 4096) (k : Fin 128) :
    val_main_v91 (F := Ideal) x0 x1 x2 x3 x4 x5 (ix2 i k)
      = max ((∑ l : Fin 4096, Ahat (ix2 i l) * val_main_v74 (F := Ideal) x0 x1 x2 x3 x4 (ix2 l k)) + x5 (ix1 k)) 0 := by
  show max (val_main_v87 (F := Ideal) x0 x1 x2 x3 x4 (ix2 i k) + val_main_v89 (F := Ideal) x5 (ix2 i k))
    (val_main_call3_v0 (F := Ideal) (ix2 i k)) = _
  rw [ref_v87 x0 x1 x2 x3 x4 rI cI hr hc hn Ahat hA h0 h2 h3 h4 i k, v89_apply, call3_v0_apply]

theorem ref_v95' (i : Fin 4096) (j : Fin 64) :
    val_main_v95 (F := Ideal) x0 x1 x2 x3 x4 x5 x6 x7 (ix2 i j)
      = (∑ k : Fin 128,
          max ((∑ l : Fin 4096, Ahat (ix2 i l) * val_main_v74 (F := Ideal) x0 x1 x2 x3 x4 (ix2 l k)) + x5 (ix1 k)) 0
            * x6 (ix2 k j)) + x7 (ix1 j) := by
  rw [val_main_v95_apply, val_main_v92_apply, v94_apply, Ideal.addf_def]
  refine congrArg (· + x7 (ix1 j)) (Finset.sum_congr rfl fun k _ => ?_)
  rw [show lidx_main_v92 (ix2 i j) k = ix2 i k from funext fun a => match a with | ⟨0, _⟩ => rfl | ⟨1, _⟩ => rfl,
    show ridx_main_v92 (ix2 i j) k = ix2 k j from funext fun a => match a with | ⟨0, _⟩ => rfl | ⟨1, _⟩ => rfl,
    ref_layer2 x0 x1 x2 x3 x4 x5 rI cI hr hc hn Ahat hA h0 h2 h3 h4 i k]

end Layer2

end Stages

end Cert.RefGcn

end
-- ==== Proof.RefLayout.lean ====
import proofs.«410974_j45672682225711_2_alg».proof.Proof.RefRead

noncomputable section

namespace Cert.RefLayout

open Cert.ReferenceIdeal Cert.ReferenceIdeal.Gen Cert.ReferenceIdeal.Read
open Idealize.ShloMosaic Idealize.ShloMosaic.ValueIdx

variable {F : FTy → Type} [FloatOps F]

theorem v96_at (x8 : (⟨S384x128, .f32⟩ : BufTy).Contents (Elt F)) (a : Fin 128) (b : Fin 384) :
    val_main_v96 (F := F) x8 (ix2 a b) = x8 (ix2 b a) := by
  rw [val_main_v96_apply]
  congr 1; funext c
  match c with
  | ⟨0, _⟩ => rfl
  | ⟨1, _⟩ => rfl

theorem v128_at (x10 : (⟨S128x128, .f32⟩ : BufTy).Contents (Elt F)) (a : Fin 128) (b : Fin 128) :
    val_main_v128 (F := F) x10 (ix2 a b) = x10 (ix2 b a) := by
  rw [val_main_v128_apply]
  congr 1; funext c
  match c with
  | ⟨0, _⟩ => rfl
  | ⟨1, _⟩ => rfl

theorem v105_at (x0 : (⟨S4096x128, .f32⟩ : BufTy).Contents (Elt F)) (x8 : (⟨S384x128, .f32⟩ : BufTy).Contents (Elt F)) (x9 : (⟨S384, .f32⟩ : BufTy).Contents (Elt F))
    (h : Fin 8) (n : Fin 4096) (d : Fin 16) :
    val_main_v105 (F := F) x0 x8 x9 (ix3 h n d)
      = val_main_v100 (F := F) x0 x8 x9 (ix2 n ⟨16 * h.val + d.val, by have := h.isLt; have := d.isLt; omega⟩) := by
  have hh := h.isLt; have hd := d.isLt; have hn := n.isLt
  rw [val_main_v105_apply, val_main_v104_apply, val_main_v101_apply]
  congr 1; funext a
  match a with
  | ⟨0, _⟩ => apply Fin.ext; show ((n.val * 8 + h.val) * 16 + d.val) / 128 = n.val; omega
  | ⟨1, _⟩ => apply Fin.ext; show ((n.val * 8 + h.val) * 16 + d.val) % 128 = 16 * h.val + d.val; omega

theorem v107_at (x0 : (⟨S4096x128, .f32⟩ : BufTy).Contents (Elt F)) (x8 : (⟨S384x128, .f32⟩ : BufTy).Contents (Elt F)) (x9 : (⟨S384, .f32⟩ : BufTy).Contents (Elt F))
    (h : Fin 8) (n : Fin 4096) (d : Fin 16) :
    val_main_v107 (F := F) x0 x8 x9 (ix3 h n d)
      = val_main_v100 (F := F) x0 x8 x9 (ix2 n ⟨128 + 16 * h.val + d.val, by have := h.isLt; have := d.isLt; omega⟩) := by
  have hh := h.isLt; have hd := d.isLt; have hn := n.isLt
  rw [val_main_v107_apply, val_main_v106_apply, val_main_v102_apply]
  congr 1; funext a
  match a with
  | ⟨0, _⟩ => apply Fin.ext; show ((n.val * 8 + h.val) * 16 + d.val) / 128 = n.val; omega
  | ⟨1, _⟩ => apply Fin.ext; show 128 + ((n.val * 8 + h.val) * 16 + d.val) % 128 = 128 + 16 * h.val + d.val; omega

theorem v109_at (x0 : (⟨S4096x128, .f32⟩ : BufTy).Contents (Elt F)) (x8 : (⟨S384x128, .f32⟩ : BufTy).Contents (Elt F)) (x9 : (⟨S384, .f32⟩ : BufTy).Contents (Elt F))
    (h : Fin 8) (n : Fin 4096) (d : Fin 16) :
    val_main_v109 (F := F) x0 x8 x9 (ix3 h n d)
      = val_main_v100 (F := F) x0 x8 x9 (ix2 n ⟨256 + 16 * h.val + d.val, by have := h.isLt; have := d.isLt; omega⟩) := by
  have hh := h.isLt; have hd := d.isLt; have hn := n.isLt
  rw [val_main_v109_apply, val_main_v108_apply, val_main_v103_apply]
  congr 1; funext a
  match a with
  | ⟨0, _⟩ => apply Fin.ext; show ((n.val * 8 + h.val) * 16 + d.val) / 128 = n.val; omega
  | ⟨1, _⟩ => apply Fin.ext; show 256 + ((n.val * 8 + h.val) * 16 + d.val) % 128 = 256 + 16 * h.val + d.val; omega

theorem v127_at (x0 : (⟨S4096x128, .f32⟩ : BufTy).Contents (Elt F)) (x8 : (⟨S384x128, .f32⟩ : BufTy).Contents (Elt F)) (x9 : (⟨S384, .f32⟩ : BufTy).Contents (Elt F))
    (h : Fin 8) (n : Fin 4096) (d : Fin 16) :
    val_main_v127 (F := F) x0 x8 x9 (ix2 n ⟨16 * h.val + d.val, by have := h.isLt; have := d.isLt; omega⟩)
      = val_main_v125 (F := F) x0 x8 x9 (ix3 h n d) := by
  have hh := h.isLt; have hd := d.isLt; have hn := n.isLt
  rw [val_main_v127_apply, val_main_v126_apply]
  congr 1; funext a
  match a with
  | ⟨0, _⟩ => apply Fin.ext; show (n.val * 128 + (16 * h.val + d.val)) / 16 % 8 = h.val; omega
  | ⟨1, _⟩ => apply Fin.ext; show (n.val * 128 + (16 * h.val + d.val)) / 128 = n.val; omega
  | ⟨2, _⟩ => apply Fin.ext; show (n.val * 128 + (16 * h.val + d.val)) % 16 = d.val; omega

end Cert.RefLayout
-- ==== Proof.AttnSpec.lean ====
import Idealize.ShloMosaic.PureOps.Ideal
import Mathlib.Algebra.BigOperators.Fin
import Mathlib.Order.CompleteLattice.Finset

noncomputable section

namespace Cert.AttnSpec

open Idealize.ShloMosaic

def tileIdx (t : Fin 8) (j : Fin 512) : Fin 4096 := ⟨512 * t.val + j.val, by have := t.isLt; have := j.isLt; omega⟩

def tileMax (s : Fin 4096 → EReal) (t : Fin 8) : EReal := Finset.univ.sup fun j : Fin 512 => s (tileIdx t j)

def step (s v : Fin 4096 → EReal) (t : Fin 8) (S : EReal × EReal × EReal) : EReal × EReal × EReal :=
  let m' := max S.1 (tileMax s t)
  (m',
   Ideal.exp (S.1 - m') * S.2.1 + ∑ j : Fin 512, Ideal.exp (s (tileIdx t j) - m'),
   Ideal.exp (S.1 - m') * S.2.2 + ∑ j : Fin 512, Ideal.exp (s (tileIdx t j) - m') * v (tileIdx t j))

def stateAfter (s v : Fin 4096 → EReal) : ℕ → EReal × EReal × EReal
  | 0 => (⊥, 0, 0)
  | n + 1 => if h : n < 8 then step s v ⟨n, h⟩ (stateAfter s v n) else stateAfter s v n

def online (s v : Fin 4096 → EReal) : EReal :=
  Ideal.div (stateAfter s v 8).2.2 (stateAfter s v 8).2.1

end Cert.AttnSpec

end
-- ==== Proof.AttnMath.lean ====
import proofs.«410974_j45672682225711_2_alg».proof.Proof.AttnSpec
import proofs.«410974_j45672682225711_2_alg».proof.Proof.LibReal
import Mathlib.Analysis.SpecialFunctions.Exp
import Mathlib.Algebra.BigOperators.Fin
import Mathlib.Data.Finset.Lattice.Fold
import Mathlib.Tactic.FieldSimp
import Mathlib.Tactic.Ring

noncomputable section

namespace Cert.AttnMath

open Idealize.ShloMosaic Cert.AttnSpec Cert.RealVal
open scoped BigOperators

theorem coe_sum {κ : Type} (S : Finset κ) (f : κ → ℝ) :
    ((∑ k ∈ S, f k : ℝ) : EReal) = ∑ k ∈ S, (f k : EReal) :=
  map_sum (⟨⟨Real.toEReal, EReal.coe_zero⟩, EReal.coe_add⟩ : ℝ →+ EReal) f S

theorem coe_max (a b : ℝ) : ((max a b : ℝ) : EReal) = max (a : EReal) (b : EReal) :=
  EReal.coe_strictMono.monotone.map_max

def tileEquiv : Fin 8 × Fin 512 ≃ Fin 4096 where
  toFun p := tileIdx p.1 p.2
  invFun i := (⟨i.val / 512, by have := i.isLt; omega⟩, ⟨i.val % 512, Nat.mod_lt _ (by norm_num)⟩)
  left_inv := by
    rintro ⟨t, j⟩
    have := t.isLt
    have := j.isLt
    refine Prod.ext (Fin.ext ?_) (Fin.ext ?_) <;> simp only [tileIdx] <;> omega
  right_inv := by
    intro i
    refine Fin.ext ?_
    simp only [tileIdx]
    omega

theorem sum_tiles (f : Fin 4096 → ℝ) : ∑ t : Fin 8, ∑ j : Fin 512, f (tileIdx t j) = ∑ i, f i := by
  rw [← Fintype.sum_prod_type']
  exact Equiv.sum_comp tileEquiv f

def tileSum (f : Fin 4096 → ℝ) (t : ℕ) : ℝ :=
  if h : t < 8 then ∑ j : Fin 512, f (tileIdx ⟨t, h⟩ j) else 0

def partSum (f : Fin 4096 → ℝ) (n : ℕ) : ℝ := ∑ t ∈ Finset.range n, tileSum f t

theorem partSum_succ (f : Fin 4096 → ℝ) (n : ℕ) : partSum f (n + 1) = partSum f n + tileSum f n :=
  Finset.sum_range_succ _ _

theorem partSum_eight (f : Fin 4096 → ℝ) : partSum f 8 = ∑ i, f i := by
  rw [partSum, ← Fin.sum_univ_eq_sum_range, ← sum_tiles]
  refine Finset.sum_congr rfl fun t _ => ?_
  rw [tileSum, dif_pos t.isLt]

theorem tileSum_mul (c : ℝ) (f : Fin 4096 → ℝ) (t : ℕ) : tileSum (fun i => c * f i) t = c * tileSum f t := by
  unfold tileSum
  split_ifs
  · rw [Finset.mul_sum]
  · rw [mul_zero]

theorem partSum_mul (c : ℝ) (f : Fin 4096 → ℝ) (n : ℕ) : partSum (fun i => c * f i) n = c * partSum f n := by
  simp only [partSum, tileSum_mul, Finset.mul_sum]

theorem exp_rescale (m m' x : ℝ) : Real.exp (m - m') * Real.exp (x - m) = Real.exp (x - m') := by
  rw [← Real.exp_add]
  congr 1
  ring

def RealState (sr vr : Fin 4096 → ℝ) (n : ℕ) (m : ℝ) : EReal × EReal × EReal :=
  ((m : EReal), ((partSum (fun i => Real.exp (sr i - m)) n : ℝ) : EReal),
    ((partSum (fun i => Real.exp (sr i - m) * vr i) n : ℝ) : EReal))

theorem tileMax_coe (sr : Fin 4096 → ℝ) (t : Fin 8) :
    ∃ μ : ℝ, tileMax (fun j => (sr j : EReal)) t = (μ : EReal) := by
  obtain ⟨j, -, hj⟩ := Finset.exists_mem_eq_sup (Finset.univ : Finset (Fin 512)) Finset.univ_nonempty
    (fun j => ((sr (tileIdx t j) : ℝ) : EReal))
  exact ⟨sr (tileIdx t j), hj⟩

theorem step_real (sr vr : Fin 4096 → ℝ) (t : Fin 8) (m l a : ℝ) : ∃ m' : ℝ,
    step (fun j => (sr j : EReal)) (fun j => (vr j : EReal)) t ((m : EReal), (l : EReal), (a : EReal)) =
      ((m' : EReal),
        ((Real.exp (m - m') * l + ∑ j : Fin 512, Real.exp (sr (tileIdx t j) - m') : ℝ) : EReal),
        ((Real.exp (m - m') * a + ∑ j : Fin 512, Real.exp (sr (tileIdx t j) - m') * vr (tileIdx t j) : ℝ) : EReal)) := by
  obtain ⟨μ, hμ⟩ := tileMax_coe sr t
  refine ⟨max m μ, ?_⟩
  simp only [step, hμ, ← coe_max]
  simp only [← EReal.coe_sub, Ideal.exp_coe, ← EReal.coe_mul, ← coe_sum, ← EReal.coe_add]

theorem state_one (sr vr : Fin 4096 → ℝ) : ∃ m : ℝ,
    stateAfter (fun j => (sr j : EReal)) (fun j => (vr j : EReal)) 1 = RealState sr vr 1 m := by
  obtain ⟨μ, hμ⟩ := tileMax_coe sr ⟨0, by norm_num⟩
  refine ⟨μ, ?_⟩
  have h1 : ∀ f : Fin 4096 → ℝ, partSum f 1 = ∑ j : Fin 512, f (tileIdx ⟨0, by norm_num⟩ j) := fun f => by
    rw [partSum, Finset.sum_range_one, tileSum, dif_pos (by norm_num)]
  rw [RealState, h1, h1]
  simp only [stateAfter, step, Nat.ofNat_pos, dite_true, hμ, bot_sup_eq, max_bot_left, EReal.bot_sub, Ideal.exp_bot,
    mul_zero, zero_add]
  simp only [← EReal.coe_sub, Ideal.exp_coe, ← EReal.coe_mul, ← coe_sum]

theorem state_real (sr vr : Fin 4096 → ℝ) (n : ℕ) (h1 : 1 ≤ n) : n ≤ 8 → ∃ m : ℝ,
    stateAfter (fun j => (sr j : EReal)) (fun j => (vr j : EReal)) n = RealState sr vr n m := by
  induction n, h1 using Nat.le_induction with
  | base => exact fun _ => state_one sr vr
  | succ n hn ih =>
    intro h8
    have hlt : n < 8 := by omega
    obtain ⟨m, hm⟩ := ih (by omega)
    obtain ⟨m', hm'⟩ := step_real sr vr ⟨n, hlt⟩ m (partSum (fun i => Real.exp (sr i - m)) n)
      (partSum (fun i => Real.exp (sr i - m) * vr i) n)
    refine ⟨m', ?_⟩
    rw [stateAfter, dif_pos hlt, hm, RealState, hm', RealState, partSum_succ, partSum_succ, tileSum, tileSum,
      dif_pos hlt, dif_pos hlt, ← partSum_mul, ← partSum_mul]
    have e1 : (fun i => Real.exp (m - m') * Real.exp (sr i - m)) = fun i => Real.exp (sr i - m') :=
      funext fun i => exp_rescale m m' (sr i)
    have e2 : (fun i => Real.exp (m - m') * (Real.exp (sr i - m) * vr i)) = fun i => Real.exp (sr i - m') * vr i :=
      funext fun i => by rw [← mul_assoc, exp_rescale]
    rw [e1, e2]

theorem online_eq_softmax_shift (s v : Fin 4096 → EReal) (hs : ∀ j, Real1 (s j)) (hv : ∀ j, Real1 (v j))
    (M : EReal) (hM : Real1 M) :
    online s v = ∑ j : Fin 4096, Ideal.div (Ideal.exp (s j - M)) (∑ j' : Fin 4096, Ideal.exp (s j' - M)) * v j := by
  choose sr hsr using fun j => (hs j).exists_coe
  choose vr hvr using fun j => (hv j).exists_coe
  obtain rfl : s = fun j => (sr j : EReal) := funext hsr
  obtain rfl : v = fun j => (vr j : EReal) := funext hvr
  obtain ⟨Mr, rfl⟩ := hM.exists_coe
  obtain ⟨m, hm⟩ := state_real sr vr 8 (by norm_num) le_rfl
  have hLm : 0 < ∑ i, Real.exp (sr i - m) :=
    Finset.sum_pos (fun i _ => Real.exp_pos _) ⟨⟨0, by norm_num⟩, Finset.mem_univ _⟩
  have hLM : 0 < ∑ i, Real.exp (sr i - Mr) :=
    Finset.sum_pos (fun i _ => Real.exp_pos _) ⟨⟨0, by norm_num⟩, Finset.mem_univ _⟩
  have hresc : ∀ i, Real.exp (sr i - Mr) = Real.exp (m - Mr) * Real.exp (sr i - m) :=
    fun i => (exp_rescale m Mr (sr i)).symm
  have hLeq : ∑ i, Real.exp (sr i - Mr) = Real.exp (m - Mr) * ∑ i, Real.exp (sr i - m) := by
    rw [Finset.mul_sum]
    exact Finset.sum_congr rfl fun i _ => hresc i
  simp only [online, hm, RealState, partSum_eight]
  simp only [← EReal.coe_sub, Ideal.exp_coe, ← coe_sum]
  simp only [Ideal.div_coe hLm.ne', Ideal.div_coe hLM.ne', ← EReal.coe_mul, ← coe_sum]
  congr 1
  rw [Finset.sum_mul]
  refine Finset.sum_congr rfl fun i _ => ?_
  rw [hLeq, hresc i]
  have hc : Real.exp (m - Mr) ≠ 0 := Real.exp_ne_zero _
  field_simp

end Cert.AttnMath

end
-- ==== Proof.RefAttn.lean ====
import proofs.«410974_j45672682225711_2_alg».proof.Proof.RefRead
import proofs.«410974_j45672682225711_2_alg».proof.Proof.AttnMath
import Idealize.ShloMosaic.PureOps.Reduce
import Idealize.ShloMosaic.Lib.IdealHost
import Idealize.ShloMosaic.Lib.ValueIdx
import Mathlib.Analysis.SpecialFunctions.Sqrt

noncomputable section

namespace Cert.RefAttn

open Idealize.ShloMosaic Idealize.ShloMosaic.ValueIdx Cert.RealVal Cert.AttnSpec Cert.ReferenceIdeal Cert.ReferenceIdeal.Gen
  Cert.ReferenceIdeal.Read
open scoped BigOperators

theorem ofBits_quarter : Ideal.ofBits .f32 0x3E800000#32 = (((1 : ℝ) / 4 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem sqrt_sixteen : Ideal.sqrt ((16 : ℝ) : EReal) = ((4 : ℝ) : EReal) := by
  rw [Ideal.sqrt_coe, if_neg (by norm_num)]
  congr 1
  rw [show (16 : ℝ) = 4 ^ 2 by norm_num]
  exact Real.sqrt_sq (by norm_num)

theorem div_sqrt_sixteen (x : EReal) :
    Ideal.div x (Ideal.sqrt (Ideal.ofBits .f32 0x41800000#32)) = x * Ideal.ofBits .f32 0x3E800000#32 := by
  rw [ofBits_sixteen, sqrt_sixteen, Ideal.div_coe (by norm_num), ofBits_quarter]

theorem real1_quarter : Real1 (Ideal.ofBits .f32 0x3E800000#32) := by
  rw [ofBits_quarter]; exact real1_coe _

theorem real1_fold_max {κ : Type} (S : Finset κ) (hS : S.Nonempty) (f : κ → EReal) (hf : ∀ k ∈ S, Real1 (f k)) :
    Real1 (S.fold max ⊥ f) := by
  have e : S.fold max ⊥ f = S.sup f := rfl
  rw [e]
  obtain ⟨k, hk, hk'⟩ := Finset.exists_mem_eq_sup S hS f
  rw [hk']
  exact hf k hk

theorem real1_hostReduce_max {s t u : Shape} {a : Fin s.rank} (x : s.Idx → EReal) (hx : IsReal x)
    (init : u.Idx → EReal) (hu : 0 < u.numel) (hinit : init (Shape.Idx.first hu) = ⊥) (h' : s.ReducesTo [a] t)
    (h : s.Reduces [a] t) (hpos : 0 < s.size a) (j : t.Idx) :
    Real1 (Host.reduce (FloatOps.maximumf (F := Ideal) (φ := .f32)) x init h' hu j) := by
  rw [Host.reduce_eq_fold_single (FloatOps.maximumf (F := Ideal) (φ := .f32)) x init h' h hu j, hinit]
  exact real1_fold_max Finset.univ ⟨⟨0, hpos⟩, Finset.mem_univ _⟩ (x ∘ h.lift j) (fun k _ => hx _)

section Stage

variable (x0 : (⟨S4096x128, .f32⟩ : BufTy).Contents (Elt Ideal)) (x8 : (⟨S384x128, .f32⟩ : BufTy).Contents (Elt Ideal))
  (x9 : (⟨S384, .f32⟩ : BufTy).Contents (Elt Ideal))

def score (h : Fin 8) (n j : Fin 4096) : EReal :=
  (∑ d' : Fin 16, val_main_v105 (F := Ideal) x0 x8 x9 (ix3 h n d') * val_main_v107 (F := Ideal) x0 x8 x9 (ix3 h j d'))
    * Ideal.ofBits .f32 0x3E800000#32

theorem v113_apply (h : Fin 8) (n j : Fin 4096) :
    val_main_v113 (F := Ideal) x0 x8 x9 (ix3 h n j) = score x0 x8 x9 h n j := by
  rw [val_main_v113_apply, val_main_v110_apply, val_main_v112_apply, val_main_v111_apply, val_main_cst_20_apply,
    Ideal.hostDivf_def, Ideal.hostUnary_sqrt_def, Ideal.ofBits_def, div_sqrt_sixteen, score]
  refine congrArg (· * Ideal.ofBits .f32 0x3E800000#32) (Finset.sum_congr rfl fun k _ => ?_)
  have el : lidx_main_v110 (ix3 h n j) k = ix3 h n k :=
    funext fun a => match a with | ⟨0, _⟩ => rfl | ⟨1, _⟩ => rfl | ⟨2, _⟩ => rfl
  have er : ridx_main_v110 (ix3 h n j) k = ix3 h j k :=
    funext fun a => match a with | ⟨0, _⟩ => rfl | ⟨1, _⟩ => rfl | ⟨2, _⟩ => rfl
  rw [el, er]

variable (hQ : IsReal (val_main_v105 (F := Ideal) x0 x8 x9)) (hK : IsReal (val_main_v107 (F := Ideal) x0 x8 x9))

include hQ hK in

theorem real1_score (h : Fin 8) (n j : Fin 4096) : Real1 (score x0 x8 x9 h n j) := by
  unfold score
  exact Real1.mul (real1_sum _ _ fun d' _ => Real1.mul (hQ _) (hK _)) real1_quarter

include hQ hK in
theorem isReal_v113 : IsReal (val_main_v113 (F := Ideal) x0 x8 x9) := fun i => by
  have e : ix3 (n0 := 8) (n1 := 4096) (n2 := 4096) (i 0) (i 1) (i 2) = i := (eq_ix3 i).symm
  have hv : val_main_v113 (F := Ideal) x0 x8 x9 i = score x0 x8 x9 (i 0) (i 1) (i 2) :=
    (congrArg (val_main_v113 (F := Ideal) x0 x8 x9) e).symm.trans (v113_apply x0 x8 x9 (i 0) (i 1) (i 2))
  show Real1 (val_main_v113 (F := Ideal) x0 x8 x9 i)
  rw [hv]
  exact real1_score x0 x8 x9 hQ hK _ _ _

include hQ hK in

theorem real1_v116 (i : S8x4096.Idx) : Real1 (val_main_v116 (F := Ideal) x0 x8 x9 i) := by
  rw [val_main_v116_apply, val_main_v115_apply, val_main_cst_22_apply, Ideal.maximumf_def, Ideal.ofBits_def, ofBits_neg_inf,
    max_bot_left, val_main_v114]
  exact real1_hostReduce_max _ (isReal_v113 x0 x8 x9 hQ hK) _ h_S_
    (by rw [val_main_cst_21_apply, Ideal.ofBits_def, ofBits_neg_inf]) reducesTo_S8x4096x4096_S8x4096_d2 (by decide) (by decide) i

theorem v120_apply (h : Fin 8) (n j : Fin 4096) :
    val_main_v120 (F := Ideal) x0 x8 x9 (ix3 h n j)
      = Ideal.exp (score x0 x8 x9 h n j - val_main_v116 (F := Ideal) x0 x8 x9 (ix2 h n)) := by
  rw [val_main_v120_apply, val_main_v119_apply, val_main_v118_apply, val_main_v117_apply, v113_apply,
    Ideal.hostUnary_exp_def, Ideal.subf_def]
  have e : idx_main_v117 (idx_main_v118 (ix3 h n j)) = ix2 h n :=
    funext fun a => match a with | ⟨0, _⟩ => rfl | ⟨1, _⟩ => rfl
  rw [e]

theorem v121_apply (h : Fin 8) (n : Fin 4096) :
    val_main_v121 (F := Ideal) x0 x8 x9 (ix2 h n)
      = ∑ j : Fin 4096, Ideal.exp (score x0 x8 x9 h n j - val_main_v116 (F := Ideal) x0 x8 x9 (ix2 h n)) := by
  rw [val_main_v121_apply, val_main_cst_23_apply, Ideal.ofBits_def, Ideal.ofBits_zero_f32, zero_add]
  refine Finset.sum_congr rfl fun k _ => ?_
  have e : idx_main_v121 (ix2 h n) k = ix3 h n k :=
    funext fun a => match a with | ⟨0, _⟩ => rfl | ⟨1, _⟩ => rfl | ⟨2, _⟩ => rfl
  rw [e, v120_apply]

theorem v124_apply (h : Fin 8) (n j : Fin 4096) :
    val_main_v124 (F := Ideal) x0 x8 x9 (ix3 h n j)
      = Ideal.div (Ideal.exp (score x0 x8 x9 h n j - val_main_v116 (F := Ideal) x0 x8 x9 (ix2 h n)))
          (∑ j' : Fin 4096, Ideal.exp (score x0 x8 x9 h n j' - val_main_v116 (F := Ideal) x0 x8 x9 (ix2 h n))) := by
  rw [val_main_v124_apply, val_main_v123_apply, val_main_v122_apply, v120_apply, Ideal.hostDivf_def]
  have e : idx_main_v122 (idx_main_v123 (ix3 h n j)) = ix2 h n :=
    funext fun a => match a with | ⟨0, _⟩ => rfl | ⟨1, _⟩ => rfl
  rw [e, v121_apply]

variable (hV : IsReal (val_main_v109 (F := Ideal) x0 x8 x9))

include hQ hK hV in

theorem ref_attn (h : Fin 8) (n : Fin 4096) (d : Fin 16) :
    val_main_v125 (F := Ideal) x0 x8 x9 (ix3 h n d)
      = online (fun j => (∑ d' : Fin 16, val_main_v105 (F := Ideal) x0 x8 x9 (ix3 h n d')
            * val_main_v107 (F := Ideal) x0 x8 x9 (ix3 h j d')) * Ideal.ofBits .f32 0x3E800000#32)
          (fun j => val_main_v109 (F := Ideal) x0 x8 x9 (ix3 h j d)) := by
  have key : online (fun j => score x0 x8 x9 h n j) (fun j => val_main_v109 (F := Ideal) x0 x8 x9 (ix3 h j d))
      = ∑ j : Fin 4096, Ideal.div (Ideal.exp (score x0 x8 x9 h n j - val_main_v116 (F := Ideal) x0 x8 x9 (ix2 h n)))
          (∑ j' : Fin 4096, Ideal.exp (score x0 x8 x9 h n j' - val_main_v116 (F := Ideal) x0 x8 x9 (ix2 h n)))
          * val_main_v109 (F := Ideal) x0 x8 x9 (ix3 h j d) :=
    Cert.AttnMath.online_eq_softmax_shift _ _ (fun j => real1_score x0 x8 x9 hQ hK h n j) (fun j => hV _)
      (val_main_v116 (F := Ideal) x0 x8 x9 (ix2 h n)) (real1_v116 x0 x8 x9 hQ hK _)
  refine Eq.trans ?_ key.symm
  rw [val_main_v125_apply]
  refine Finset.sum_congr rfl fun k _ => ?_
  have el : lidx_main_v125 (ix3 h n d) k = ix3 h n k :=
    funext fun a => match a with | ⟨0, _⟩ => rfl | ⟨1, _⟩ => rfl | ⟨2, _⟩ => rfl
  have er : ridx_main_v125 (ix3 h n d) k = ix3 h k d :=
    funext fun a => match a with | ⟨0, _⟩ => rfl | ⟨1, _⟩ => rfl | ⟨2, _⟩ => rfl
  rw [el, er, v124_apply]

end Stage

section Operands

variable (x0 : (⟨S4096x128, .f32⟩ : BufTy).Contents (Elt Ideal)) (x8 : (⟨S384x128, .f32⟩ : BufTy).Contents (Elt Ideal))
  (x9 : (⟨S384, .f32⟩ : BufTy).Contents (Elt Ideal))
variable (h0 : IsReal x0) (h8 : IsReal x8) (h9 : IsReal x9)

include h0 h8 h9 in

theorem isReal_v100 : IsReal (val_main_v100 (F := Ideal) x0 x8 x9) := fun i => by
  rw [val_main_v100_apply, val_main_v97_apply, val_main_v99_apply, val_main_v98_apply, Ideal.addf_def]
  refine Real1.add (real1_sum _ _ fun k _ => Real1.mul (h0 _) ?_) (h9 _)
  rw [val_main_v96_apply]
  exact h8 _

include h0 h8 h9 in

theorem isReal_v105 : IsReal (val_main_v105 (F := Ideal) x0 x8 x9) := fun i => by
  rw [val_main_v105_apply, val_main_v104_apply, val_main_v101_apply]
  exact isReal_v100 x0 x8 x9 h0 h8 h9 _

include h0 h8 h9 in

theorem isReal_v107 : IsReal (val_main_v107 (F := Ideal) x0 x8 x9) := fun i => by
  rw [val_main_v107_apply, val_main_v106_apply, val_main_v102_apply]
  exact isReal_v100 x0 x8 x9 h0 h8 h9 _

include h0 h8 h9 in

theorem isReal_v109 : IsReal (val_main_v109 (F := Ideal) x0 x8 x9) := fun i => by
  rw [val_main_v109_apply, val_main_v108_apply, val_main_v103_apply]
  exact isReal_v100 x0 x8 x9 h0 h8 h9 _

include h0 h8 h9 in

theorem ref_attn_of_inputs (h : Fin 8) (n : Fin 4096) (d : Fin 16) :
    val_main_v125 (F := Ideal) x0 x8 x9 (ix3 h n d)
      = online (fun j => (∑ d' : Fin 16, val_main_v105 (F := Ideal) x0 x8 x9 (ix3 h n d')
            * val_main_v107 (F := Ideal) x0 x8 x9 (ix3 h j d')) * Ideal.ofBits .f32 0x3E800000#32)
          (fun j => val_main_v109 (F := Ideal) x0 x8 x9 (ix3 h j d)) :=
  ref_attn x0 x8 x9 (isReal_v105 x0 x8 x9 h0 h8 h9) (isReal_v107 x0 x8 x9 h0 h8 h9) (isReal_v109 x0 x8 x9 h0 h8 h9) h n d

end Operands

end Cert.RefAttn

end
-- ==== Proof.LibMatmul2.lean ====
import Idealize.ShloMosaic.Lib.StackMember

namespace Cert.Matmul2

open Idealize.ShloMosaic Idealize.ShloMosaic.ValueIdx

/-- The plain m×k by k×n product into a zero accumulator, read at (p, q): the sum over the contracted index. -/
theorem matmul_plain_apply {m k n : Nat} {φ₁ φ₂ : FTy} (prec : Option ContractPrecision)
    (a : FVec Ideal ⟨2, ![m, k]⟩ φ₁) (y : FVec Ideal ⟨2, ![k, n]⟩ φ₂) (p : Fin m) (q : Fin n) :
    matmul (DotDims.plain m k n) prec a y (constant ⟨2, ![m, n]⟩ .f32 0x00000000#32) (ix2 p q)
      = ∑ l : Fin k, a (ix2 p l) * y (ix2 l q) := by
  rw [matmul_zero_eq_dotGeneral]
  exact StackMember.dotGeneral_plain_apply prec a y p q

/-- A one-row matrix laid along m rows, read at (p, q): the row's entry in column q. -/
theorem broadcastTo_row_apply {α : Type} {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) :=
  broadcastTo_apply x h (ix2 p q) (ix2 0 q) fun a => match a with
    | ⟨0, _⟩ => rfl
    | ⟨1, _⟩ => by
      show q.val = if n = 1 then 0 else q.val
      split
      · have := q.isLt; omega
      · rfl

/-- Two indices of a matrix with equal coordinates are equal. -/
theorem idx2_ext {m n : Nat} {f g : (⟨2, ![m, n]⟩ : Shape).Idx} (h0 : (f 0).val = (g 0).val) (h1 : (f 1).val = (g 1).val) :
    f = g :=
  funext fun a => Fin.ext (match a with
    | ⟨0, _⟩ => h0
    | ⟨1, _⟩ => h1)

theorem zero2 : (![0, 0] : Fin 2 → Nat) = fun _ => 0 := funext fun a => by fin_cases a <;> rfl

end Cert.Matmul2
-- ==== Proof.KI.Pay0.lean ====
import proofs.«410974_j45672682225711_2_alg».proof.Proof.Gen.KernelIdeal.Skeleton
import proofs.«410974_j45672682225711_2_alg».proof.Proof.LibMatmul2

noncomputable section

namespace Cert.KernelIdeal.Hand

open Cert.KernelIdeal Cert.KernelIdeal.Gen
open Idealize.ShloMosaic Idealize.ShloMosaic.ValueIdx

/-- The payload of region 0 at (p, q): row p of the left operand times column q of the right, plus the bias row's entry q. -/
theorem k0_pay1_apply (x0 : Vec Ideal S2048x128 .f32) (x1 : Vec Ideal S128x128 .f32) (x2 : Vec Ideal S1x128 .f32) (p : Fin 2048) (q : Fin 128) :
    k0_pay1 x0 x1 x2 (ix2 p q) = (∑ k : Fin 128, x0 (ix2 p k) * x1 (ix2 k q)) + x2 (ix2 0 q) := by
  unfold k0_pay1
  simp only [shapeCast_self]
  show matmul (F := Ideal) (DotDims.plain 2048 128 128) none (truncf .bf16 x0 bitsLt_bf16_f32) (truncf .bf16 x1 bitsLt_bf16_f32) (constant S2048x128 .f32 0x00000000#32) (ix2 p q)
      + broadcastTo S2048x128 x2 broadcasts_S1x128_S2048x128 (ix2 p q) = _
  rw [Cert.Matmul2.matmul_plain_apply, Cert.Matmul2.broadcastTo_row_apply] <;> rfl

end Cert.KernelIdeal.Hand
-- ==== Proof.KI.Arr0.lean ====
import proofs.«410974_j45672682225711_2_alg».proof.Proof.KI.Reg0
import proofs.«410974_j45672682225711_2_alg».proof.Proof.KI.Pay0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Matmul2 (zero2)

variable (V : (c : Dev nD) → (b : Ref sig .tc) → Buf (Elt Ideal) ((c : Thread nD τ).loc b))

/-- x·w + b, index by index. -/
def dense0 (x : S4096x128.Idx → Elt Ideal .f32) (w : S128x128.Idx → Elt Ideal .f32) (b : S1x128.Idx → Elt Ideal .f32) :
    S4096x128.Idx → Elt Ideal .f32 :=
  fun i => (∑ k : Fin 128, x (ix2 (i 0) k) * w (ix2 k (i 1))) + b (ix2 0 (i 1))

/-- Over the two grid points: x's block is the result's row block, every other block index is 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 1 ∧ win0_3.index t (1 : Fin 2) = 0 :=
  (by decide +kernel : ∀ t : Fin grid0.N, _)

theorem idx_onto0 : ∀ q0 : Fin 2, ∃ t : Fin cfg0.N, win0_3.index t = ![q0.val, 0] :=
  (by decide +kernel : ∀ q0 : Fin 2, ∃ t : Fin grid0.N, win0_3.index t = ![q0.val, 0])

/-- The dense layer of the operands' blocks at point t is block t of the dense layer of the whole operands. -/
theorem dense0_block (A0 : S4096x128.Idx → Elt Ideal .f32) (A1 : S128x128.Idx → Elt Ideal .f32) (A2 : S1x128.Idx → Elt Ideal .f32)
    (t : Fin cfg0.N) (p : Fin 2048) (q : Fin 128) :
    (∑ k : Fin 128, A0 (((cfg0.win 0).blk t).view.emb (ix2 p k)) * A1 (((cfg0.win 1).blk t).view.emb (ix2 k q)))
        + A2 (((cfg0.win 2).blk t).view.emb (ix2 0 q))
      = dense0 A0 A1 A2 (((cfg0.win 3).blk t).view.emb (ix2 p q)) := by
  obtain ⟨e0, e1, e2, e3, e4, e5, e6, e7⟩ := idx_facts0 t
  have h0 : ∀ k : Fin 128, ((cfg0.win 0).blk t).view.emb (ix2 p k) = ix2 ((((cfg0.win 3).blk t).view.emb (ix2 p q)) 0) k := fun k =>
    Cert.Matmul2.idx2_ext
      (by show win0_0.index t (0 : Fin 2) * 2048 + 1 * p.val = win0_3.index t (0 : Fin 2) * 2048 + 1 * p.val; omega)
      (by show win0_0.index t (1 : Fin 2) * 128 + 1 * k.val = k.val; omega)
  have h1 : ∀ k : Fin 128, ((cfg0.win 1).blk t).view.emb (ix2 k q) = ix2 k ((((cfg0.win 3).blk t).view.emb (ix2 p q)) 1) := fun k =>
    Cert.Matmul2.idx2_ext
      (by show win0_1.index t (0 : Fin 2) * 128 + 1 * k.val = k.val; omega)
      (by show win0_1.index t (1 : Fin 2) * 128 + 1 * q.val = win0_3.index t (1 : Fin 2) * 128 + 1 * q.val; omega)
  have h2 : ((cfg0.win 2).blk t).view.emb (ix2 0 q) = ix2 0 ((((cfg0.win 3).blk t).view.emb (ix2 p q)) 1) :=
    Cert.Matmul2.idx2_ext
      (by show win0_2.index t (0 : Fin 2) * 1 + 1 * 0 = 0; omega)
      (by show win0_2.index t (1 : Fin 2) * 128 + 1 * q.val = win0_3.index t (1 : Fin 2) * 128 + 1 * q.val; omega)
  unfold dense0
  rw [h2]
  exact congrArg (· + _) (Finset.sum_congr rfl fun k _ => by rw [h0 k, h1 k]; rfl)

/-- Point t's block of the result is block t of the dense layer of the operand arrays. -/
theorem flushed0_eq (c : Dev nD) (t : Fin cfg0.N) :
    (dat0 (F := Ideal) V c).flushed 3 t
      = ((cfg0.win 3).blk t).view.read (Elt Ideal) (dense0 (V c main_arg0) (V c main_arg2) (V c main_v46)) := by
  show (cfg0.win 3).cut (grid0.coords t) ((dat0 V c).after 3 t) = _
  rw [after0_3]
  unfold out0_3
  rw [View.canon_unit_zero zero2]
  simp only [View.ld_unit_zero (S := S2048x128) zero2, View.ld_unit_zero (S := S128x128) zero2, View.ld_unit_zero (S := S1x128) zero2]
  funext j
  obtain ⟨p, q, rfl⟩ : ∃ (p : Fin 2048) (q : Fin 128), j = ix2 p q := ⟨j 0, j 1, eq_ix2 j⟩
  show k0_pay1 (iblk0 V c 0 t) (iblk0 V c 1 t) (iblk0 V c 2 t) (ix2 p q)
    = dense0 (V c main_arg0) (V c main_arg2) (V c main_v46) (((cfg0.win 3).blk t).view.emb (ix2 p q))
  rw [k0_pay1_apply]
  exact dense0_block (V c main_arg0) (V c main_arg2) (V c main_v46) t p q

/-- The two row blocks tile the array: row r lies in block r / 2048. -/
theorem cover0 (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  obtain ⟨t, ht⟩ := idx_onto0 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  show i ∈ ((View.whole main_v47).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The array after region 0 is the dense layer of the three operand arrays as the region finds them. -/
theorem arr0_eq (c : Dev nD) :
    (dat0 (F := Ideal) V c).arrAt 3 cfg0.N = dense0 (V c main_arg0) (V c main_arg2) (V c main_v46) :=
  (dat0 (F := Ideal) V c).arrAt_eq_of_cover 3 _ (fun t _ => flushed0_eq V c t) cover0

end Cert.KernelIdeal.Hand
-- ==== Proof.KI.Val0.lean ====
import proofs.«410974_j45672682225711_2_alg».proof.Proof.KI.Arr0
import proofs.«410974_j45672682225711_2_alg».proof.Proof.RefRead

noncomputable section

namespace Cert.KernelIdeal.Hand

open Cert.KernelIdeal Cert.KernelIdeal.Gen Cert.ReferenceIdeal
open Idealize.ShloMosaic Idealize.ShloMosaic.TcCoe Idealize.ShloMosaic.ValueIdx Idealize.SL.Sem
open Idealize.ShloMosaic.Pipeline (Dat)
open Cert.Matmul2 (idx2_ext)

variable (V : (c : Dev nD) → (b : Ref sig .tc) → Buf (Elt Ideal) ((c : Thread nD τ).loc b))

/-- With a zero bias row the array after region 0 is the reference's product. -/
theorem stage0 (c : Dev nD) (x0 : (⟨S4096x128, .f32⟩ : BufTy).Contents (Elt Ideal)) (x2 : (⟨S128x128, .f32⟩ : BufTy).Contents (Elt Ideal))
    (h0 : V c main_arg0 = x0) (h2 : V c main_arg2 = x2) (hb : ∀ j : S1x128.Idx, V c main_v46 j = (0 : EReal)) :
    (dat0 (F := Ideal) V c).arrAt 3 cfg0.N = Cert.ReferenceIdeal.Read.val_main_v30 (F := Ideal) x0 x2 := by
  rw [arr0_eq, h0, h2]
  funext i
  rw [Read.val_main_v30_apply]
  show (∑ k : Fin 128, x0 (ix2 (i 0) k) * x2 (ix2 k (i 1))) + V c main_v46 (ix2 0 (i 1)) = _
  rw [hb, add_zero]
  exact Finset.sum_congr rfl fun k _ => by
    rw [show Read.lidx_main_v30 i k = ix2 (i 0) k from idx2_ext rfl rfl, show Read.ridx_main_v30 i k = ix2 k (i 1) from idx2_ext rfl rfl]
    rfl

end Cert.KernelIdeal.Hand
-- ==== Proof.KI.GcnPay.lean ====
import proofs.«410974_j45672682225711_2_alg».proof.Proof.Gen.KernelIdeal.Skeleton
import proofs.«410974_j45672682225711_2_alg».proof.Proof.LibReal
import proofs.«410974_j45672682225711_2_alg».proof.Proof.LibMatmul2

noncomputable section

namespace Cert.KernelIdeal.Hand

open Cert.KernelIdeal Cert.KernelIdeal.Gen
open Idealize.ShloMosaic Idealize.ShloMosaic.ValueIdx
open Cert.RealVal

theorem sub_self_of_real1 {a : EReal} (h : Real1 a) : a - a = 0 := by
  obtain ⟨r, rfl⟩ := h.exists_coe
  rw [← EReal.coe_sub, sub_self, EReal.coe_zero]

theorem three_pass {κ : Type} [Fintype κ] (a y : κ → EReal) (ha : ∀ l, Real1 (a l)) (hy : ∀ l, Real1 (y l)) :
    (∑ l, a l * y l) + (∑ l, a l * (y l - y l)) + (∑ l, (a l - a l) * y l) = ∑ l, a l * y l := by
  have h2 : (∑ l, a l * (y l - y l)) = 0 :=
    Finset.sum_eq_zero fun l _ => by rw [sub_self_of_real1 (hy l), mul_zero]
  have h3 : (∑ l, (a l - a l) * y l) = 0 :=
    Finset.sum_eq_zero fun l _ => by rw [sub_self_of_real1 (ha l), zero_mul]
  rw [h2, h3, add_zero, add_zero]

theorem dotA_apply {φ₁ φ₂ : FTy} (a : FVec Ideal S256x4096 φ₁) (y : FVec Ideal S4096x128 φ₂) (p : Fin 256) (q : Fin 128) :
    matmul dot_S256x4096_S4096x128_S256x128_1_0_0_1_n_n none a y (constant S256x128 .f32 0x00000000#32) (ix2 p q)
      = ∑ l : Fin 4096, a (ix2 p l) * y (ix2 l q) :=
  Cert.Matmul2.matmul_plain_apply none a y p q

theorem dotB_apply {φ₁ φ₂ : FTy} (a : FVec Ideal S256x128 φ₁) (y : FVec Ideal S128x128 φ₂) (p : Fin 256) (q : Fin 128) :
    matmul dot_S256x128_S128x128_S256x128_1_0_0_1_n_n none a y (constant S256x128 .f32 0x00000000#32) (ix2 p q)
      = ∑ l : Fin 128, a (ix2 p l) * y (ix2 l q) :=
  Cert.Matmul2.matmul_plain_apply none a y p q

theorem dotC_apply {φ₁ φ₂ : FTy} (a : FVec Ideal S256x128 φ₁) (y : FVec Ideal S128x64 φ₂) (p : Fin 256) (q : Fin 64) :
    matmul dot_S256x128_S128x64_S256x64_1_0_0_1_n_n none a y (constant S256x64 .f32 0x00000000#32) (ix2 p q)
      = ∑ l : Fin 128, a (ix2 p l) * y (ix2 l q) :=
  Cert.Matmul2.matmul_plain_apply none a y p q

theorem scalar_zero_f32 : (Scalar.ofBits (F := Ideal) .f32 0x00000000#32) = (0 : EReal) := by
  show Ideal.ofBits .f32 0x00000000#32 = 0
  exact Ideal.ofBits_zero_f32

theorem k1_pay1_apply (x0 : Vec Ideal S256x4096 .f32) (x1 : Vec Ideal S4096x128 .f32) (x2 : Vec Ideal S1x128 .f32) (x3 : Vec Ideal S128x128 .f32)
    (r0 : IsReal x0) (r1 : IsReal x1) (p : Fin 256) (q : Fin 128) :
    k1_pay1 x0 x1 x2 x3 (ix2 p q)
      = ∑ k : Fin 128, max ((∑ l : Fin 4096, x0 (ix2 p l) * x1 (ix2 l k)) + x2 (ix2 0 k)) 0 * x3 (ix2 k q) := by
  unfold k1_pay1
  simp only [shapeCast_self]
  rw [dotB_apply]
  refine Finset.sum_congr rfl fun k _ => ?_
  simp only [truncf_apply, maximumf_apply, addf_apply, subf_apply, broadcast_apply, dotA_apply, Cert.Matmul2.broadcastTo_row_apply, scalar_zero_f32]
  rw [three_pass (fun l => x0 (ix2 p l)) (fun l => x1 (ix2 l k)) (fun l => r0 _) (fun l => r1 _)]

theorem k2_pay1_apply (x0 : Vec Ideal S256x4096 .f32) (x1 : Vec Ideal S4096x128 .f32) (x2 : Vec Ideal S1x128 .f32) (x3 : Vec Ideal S128x64 .f32)
    (x4 : Vec Ideal S1x64 .f32) (r0 : IsReal x0) (r1 : IsReal x1) (p : Fin 256) (q : Fin 64) :
    k2_pay1 x0 x1 x2 x3 x4 (ix2 p q)
      = (∑ k : Fin 128, max ((∑ l : Fin 4096, x0 (ix2 p l) * x1 (ix2 l k)) + x2 (ix2 0 k)) 0 * x3 (ix2 k q)) + x4 (ix2 0 q) := by
  unfold k2_pay1
  simp only [shapeCast_self]
  rw [addf_apply, dotC_apply, Cert.Matmul2.broadcastTo_row_apply]
  congr 1
  refine Finset.sum_congr rfl fun k _ => ?_
  simp only [truncf_apply, maximumf_apply, addf_apply, subf_apply, broadcast_apply, dotA_apply, Cert.Matmul2.broadcastTo_row_apply, scalar_zero_f32]
  rw [three_pass (fun l => x0 (ix2 p l)) (fun l => x1 (ix2 l k)) (fun l => r0 _) (fun l => r1 _)]

end Cert.KernelIdeal.Hand

end
-- ==== Proof.KI.Val1.lean ====
import proofs.«410974_j45672682225711_2_alg».proof.Proof.KI.Reg1
import proofs.«410974_j45672682225711_2_alg».proof.Proof.KI.GcnPay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.RealVal
open Cert.Matmul2 (zero2 idx2_ext)

variable (V : (c : Dev nD) → (b : Ref sig .tc) → Buf (Elt Ideal) ((c : Thread nD τ).loc b))

def gcn1 (A : S4096x4096.Idx → EReal) (Y : S4096x128.Idx → EReal) (b : Fin 128 → EReal) (W : S128x128.Idx → EReal) :
    S4096x128.Idx → EReal :=
  fun i => ∑ k : Fin 128, max ((∑ l : Fin 4096, A (ix2 (i 0) l) * Y (ix2 l k)) + b k) 0 * W (ix2 k (i 1))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0 :=
  (by decide +kernel : ∀ t : Fin grid1.N, _)

theorem emb1_0 (t : Fin cfg1.N) (p : Fin 256) (l : Fin 4096) (h : t.val * 256 + p.val < 4096) :
    ((cfg1.win 0).blk t).view.emb (ix2 p l) = (ix2 (⟨t.val * 256 + p.val, h⟩ : Fin 4096) l : S4096x4096.Idx) := by
  obtain ⟨e0, e1, -⟩ := idx_facts1 t
  exact idx2_ext (by show win1_0.index t (0 : Fin 2) * 256 + 1 * p.val = t.val * 256 + p.val; omega) (by show win1_0.index t (1 : Fin 2) * 4096 + 1 * l.val = l.val; omega)

theorem emb1_1 (t : Fin cfg1.N) (l : Fin 4096) (k : Fin 128) :
    ((cfg1.win 1).blk t).view.emb (ix2 l k) = (ix2 l k : S4096x128.Idx) := by
  obtain ⟨-, -, e0, e1, -⟩ := idx_facts1 t
  exact idx2_ext (by show win1_1.index t (0 : Fin 2) * 4096 + 1 * l.val = l.val; omega) (by show win1_1.index t (1 : Fin 2) * 128 + 1 * k.val = k.val; omega)

theorem emb1_2 (t : Fin cfg1.N) (z : Fin 1) (k : Fin 128) :
    ((cfg1.win 2).blk t).view.emb (ix2 z k) = (ix2 z k : S1x128.Idx) := by
  obtain ⟨-, -, -, -, e0, e1, -⟩ := idx_facts1 t
  exact idx2_ext (by show win1_2.index t (0 : Fin 2) * 1 + 1 * z.val = z.val; omega) (by show win1_2.index t (1 : Fin 2) * 128 + 1 * k.val = k.val; omega)

theorem emb1_3 (t : Fin cfg1.N) (k : Fin 128) (q : Fin 128) :
    ((cfg1.win 3).blk t).view.emb (ix2 k q) = (ix2 k q : S128x128.Idx) := by
  obtain ⟨-, -, -, -, -, -, e0, e1, -⟩ := idx_facts1 t
  exact idx2_ext (by show win1_3.index t (0 : Fin 2) * 128 + 1 * k.val = k.val; omega) (by show win1_3.index t (1 : Fin 2) * 128 + 1 * q.val = q.val; omega)

theorem emb1_5 (t : Fin cfg1.N) (p : Fin 256) (q : Fin 128) (h : t.val * 256 + p.val < 4096) :
    ((cfg1.win 5).blk t).view.emb (ix2 p q) = (ix2 (⟨t.val * 256 + p.val, h⟩ : Fin 4096) q : S4096x128.Idx) := by
  obtain ⟨-, -, -, -, -, -, -, -, e0, e1⟩ := idx_facts1 t
  exact idx2_ext (by show win1_5.index t (0 : Fin 2) * 256 + 1 * p.val = t.val * 256 + p.val; omega) (by show win1_5.index t (1 : Fin 2) * 128 + 1 * q.val = q.val; omega)

theorem flushed1_pay (c : Dev nD) (t : Fin cfg1.N) :
    (dat1 (F := Ideal) V c).flushed 5 t = k1_pay1 (iblk1 V c 0 t) (iblk1 V c 1 t) (iblk1 V c 2 t) (iblk1 V c 3 t) := by
  show (cfg1.win 5).cut (grid1.coords t) ((dat1 V c).after 5 t) = _
  rw [after1_5]
  unfold out1_5
  rw [View.canon_unit_zero zero2]
  simp only [View.ld_unit_zero (S := S256x4096) zero2, View.ld_unit_zero (S := S4096x128) zero2,
    View.ld_unit_zero (S := S1x128) zero2, View.ld_unit_zero (S := S128x128) zero2]
  rfl

theorem iblk1_0_apply (c : Dev nD) (t : Fin cfg1.N) (j : S256x4096.Idx) :
    iblk1 V c 0 t j = V c main_v44 (((cfg1.win 0).blk t).view.emb j) := rfl
theorem iblk1_1_apply (c : Dev nD) (t : Fin cfg1.N) (j : S4096x128.Idx) :
    iblk1 V c 1 t j = V c main_v47 (((cfg1.win 1).blk t).view.emb j) := rfl
theorem iblk1_2_apply (c : Dev nD) (t : Fin cfg1.N) (j : S1x128.Idx) :
    iblk1 V c 2 t j = V c main_v49 (((cfg1.win 2).blk t).view.emb j) := rfl
theorem iblk1_3_apply (c : Dev nD) (t : Fin cfg1.N) (j : S128x128.Idx) :
    iblk1 V c 3 t j = V c main_arg4 (((cfg1.win 3).blk t).view.emb j) := rfl

theorem flushed1_eq (c : Dev nD) (A : S4096x4096.Idx → EReal) (Y : S4096x128.Idx → EReal) (b : Fin 128 → EReal) (W : S128x128.Idx → EReal)
    (hA : V c main_v44 = A) (hY : V c main_v47 = Y) (hb : ∀ k : Fin 128, V c main_v49 (ix2 0 k) = b k) (hW : V c main_arg4 = W)
    (rA : IsReal A) (rY : IsReal Y) (t : Fin cfg1.N) :
    (dat1 (F := Ideal) V c).flushed 5 t = ((cfg1.win 5).blk t).view.read (Elt Ideal) (gcn1 A Y b W) := by
  rw [flushed1_pay]
  have ht : t.val < 16 := t.isLt
  have r0 : IsReal (iblk1 V c 0 t) := fun j => by
    rw [iblk1_0_apply, hA]; exact rA _
  have r1 : IsReal (iblk1 V c 1 t) := fun j => by
    rw [iblk1_1_apply, hY]; exact rY _
  funext j
  obtain ⟨p, q, rfl⟩ : ∃ (p : Fin 256) (q : Fin 128), j = ix2 p q := ⟨j 0, j 1, eq_ix2 j⟩
  have hp : t.val * 256 + p.val < 4096 := by have := p.isLt; omega
  rw [View.read_apply, k1_pay1_apply _ _ _ _ r0 r1, emb1_5 t p q hp]
  unfold gcn1
  refine Finset.sum_congr rfl fun k _ => ?_
  have e3 : iblk1 V c 3 t (ix2 k q) = W (ix2 k q) := by
    rw [iblk1_3_apply, emb1_3, hW]
  have e2 : iblk1 V c 2 t (ix2 0 k) = b k := by
    rw [iblk1_2_apply, emb1_2]; exact hb k
  have e0 : ∀ l : Fin 4096, iblk1 V c 0 t (ix2 p l) = A (ix2 (⟨t.val * 256 + p.val, hp⟩ : Fin 4096) l) := fun l => by
    rw [iblk1_0_apply, emb1_0 t p l hp, hA]
  have e1 : ∀ l : Fin 4096, iblk1 V c 1 t (ix2 l k) = Y (ix2 l k) := fun l => by
    rw [iblk1_1_apply, emb1_1, hY]
  rw [e3, e2]
  simp only [e0, e1]

theorem cover1 (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  have ht : (i 0).val / 256 < 16 := by omega
  obtain ⟨-, -, -, -, -, -, -, -, e0, e1⟩ := idx_facts1 ⟨_, ht⟩
  have e0' : win1_5.index ⟨_, ht⟩ (0 : Fin 2) = (i 0).val / 256 := e0
  refine ⟨⟨_, ht⟩, flush1_5 _, ?_⟩
  show i ∈ ((View.whole main_v51).slice (win1_5.rect ⟨_, ht⟩)).set
  rw [View.set_slice_whole, Rect.mem_set_unit]
  intro a
  match a with
  | ⟨0, _⟩ => show win1_5.index _ (0 : Fin 2) * 256 ≤ (i 0).val ∧ (i 0).val < win1_5.index _ (0 : Fin 2) * 256 + 256; omega
  | ⟨1, _⟩ => show win1_5.index _ (1 : Fin 2) * 128 ≤ (i 1).val ∧ (i 1).val < win1_5.index _ (1 : Fin 2) * 128 + 128; omega

theorem stage1_dense (c : Dev nD) (A : S4096x4096.Idx → EReal) (Y : S4096x128.Idx → EReal) (b : Fin 128 → EReal) (W : S128x128.Idx → EReal)
    (hA : V c main_v44 = A) (hY : V c main_v47 = Y) (hb : ∀ k : Fin 128, V c main_v49 (ix2 0 k) = b k) (hW : V c main_arg4 = W)
    (rA : IsReal A) (rY : IsReal Y) (i : Fin 4096) (j : Fin 128) :
    (dat1 (F := Ideal) V c).arrAt 5 cfg1.N (ix2 i j)
      = ∑ k : Fin 128, max ((∑ l : Fin 4096, A (ix2 i l) * Y (ix2 l k)) + b k) 0 * W (ix2 k j) := by
  rw [(dat1 V c).arrAt_eq_of_cover 5 (gcn1 A Y b W) (fun t _ => flushed1_eq V c A Y b W hA hY hb hW rA rY t) cover1]
  rfl

end Cert.KernelIdeal.Hand

end
-- ==== Proof.KI.Val2.lean ====
import proofs.«410974_j45672682225711_2_alg».proof.Proof.KI.Reg2
import proofs.«410974_j45672682225711_2_alg».proof.Proof.KI.GcnPay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.RealVal
open Cert.Matmul2 (zero2 idx2_ext)

variable (V : (c : Dev nD) → (b : Ref sig .tc) → Buf (Elt Ideal) ((c : Thread nD τ).loc b))

def gcn2 (A : S4096x4096.Idx → EReal) (Y : S4096x128.Idx → EReal) (b : Fin 128 → EReal) (W : S128x64.Idx → EReal) (b' : Fin 64 → EReal) :
    S4096x64.Idx → EReal :=
  fun i => (∑ k : Fin 128, max ((∑ l : Fin 4096, A (ix2 (i 0) l) * Y (ix2 l k)) + b k) 0 * W (ix2 k (i 1))) + b' (i 1)

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem emb2_0 (t : Fin cfg2.N) (p : Fin 256) (l : Fin 4096) (h : t.val * 256 + p.val < 4096) :
    ((cfg2.win 0).blk t).view.emb (ix2 p l) = (ix2 (⟨t.val * 256 + p.val, h⟩ : Fin 4096) l : S4096x4096.Idx) := by
  obtain ⟨e0, e1, -⟩ := idx_facts2 t
  exact idx2_ext (by show win2_0.index t (0 : Fin 2) * 256 + 1 * p.val = t.val * 256 + p.val; omega) (by show win2_0.index t (1 : Fin 2) * 4096 + 1 * l.val = l.val; omega)

theorem emb2_1 (t : Fin cfg2.N) (l : Fin 4096) (k : Fin 128) :
    ((cfg2.win 1).blk t).view.emb (ix2 l k) = (ix2 l k : S4096x128.Idx) := by
  obtain ⟨-, -, e0, e1, -⟩ := idx_facts2 t
  exact idx2_ext (by show win2_1.index t (0 : Fin 2) * 4096 + 1 * l.val = l.val; omega) (by show win2_1.index t (1 : Fin 2) * 128 + 1 * k.val = k.val; omega)

theorem emb2_2 (t : Fin cfg2.N) (z : Fin 1) (k : Fin 128) :
    ((cfg2.win 2).blk t).view.emb (ix2 z k) = (ix2 z k : S1x128.Idx) := by
  obtain ⟨-, -, -, -, e0, e1, -⟩ := idx_facts2 t
  exact idx2_ext (by show win2_2.index t (0 : Fin 2) * 1 + 1 * z.val = z.val; omega) (by show win2_2.index t (1 : Fin 2) * 128 + 1 * k.val = k.val; omega)

theorem emb2_3 (t : Fin cfg2.N) (k : Fin 128) (q : Fin 64) :
    ((cfg2.win 3).blk t).view.emb (ix2 k q) = (ix2 k q : S128x64.Idx) := by
  obtain ⟨-, -, -, -, -, -, e0, e1, -⟩ := idx_facts2 t
  exact idx2_ext (by show win2_3.index t (0 : Fin 2) * 128 + 1 * k.val = k.val; omega) (by show win2_3.index t (1 : Fin 2) * 64 + 1 * q.val = q.val; omega)

theorem emb2_4 (t : Fin cfg2.N) (z : Fin 1) (q : Fin 64) :
    ((cfg2.win 4).blk t).view.emb (ix2 z q) = (ix2 z q : S1x64.Idx) := by
  obtain ⟨-, -, -, -, -, -, -, -, e0, e1, -⟩ := idx_facts2 t
  exact idx2_ext (by show win2_4.index t (0 : Fin 2) * 1 + 1 * z.val = z.val; omega) (by show win2_4.index t (1 : Fin 2) * 64 + 1 * q.val = q.val; omega)

theorem emb2_5 (t : Fin cfg2.N) (p : Fin 256) (q : Fin 64) (h : t.val * 256 + p.val < 4096) :
    ((cfg2.win 5).blk t).view.emb (ix2 p q) = (ix2 (⟨t.val * 256 + p.val, h⟩ : Fin 4096) q : S4096x64.Idx) := by
  obtain ⟨-, -, -, -, -, -, -, -, -, -, e0, e1⟩ := idx_facts2 t
  exact idx2_ext (by show win2_5.index t (0 : Fin 2) * 256 + 1 * p.val = t.val * 256 + p.val; omega) (by show win2_5.index t (1 : Fin 2) * 64 + 1 * q.val = q.val; omega)

theorem flushed2_pay (c : Dev nD) (t : Fin cfg2.N) :
    (dat2 (F := Ideal) V c).flushed 5 t = k2_pay1 (iblk2 V c 0 t) (iblk2 V c 1 t) (iblk2 V c 2 t) (iblk2 V c 3 t) (iblk2 V c 4 t) := by
  show (cfg2.win 5).cut (grid2.coords t) ((dat2 V c).after 5 t) = _
  rw [after2_5]
  unfold out2_5
  rw [View.canon_unit_zero zero2]
  simp only [View.ld_unit_zero (S := S256x4096) zero2, View.ld_unit_zero (S := S4096x128) zero2,
    View.ld_unit_zero (S := S1x128) zero2, View.ld_unit_zero (S := S128x64) zero2, View.ld_unit_zero (S := S1x64) zero2]
  rfl

theorem iblk2_0_apply (c : Dev nD) (t : Fin cfg2.N) (j : S256x4096.Idx) :
    iblk2 V c 0 t j = V c main_v44 (((cfg2.win 0).blk t).view.emb j) := rfl
theorem iblk2_1_apply (c : Dev nD) (t : Fin cfg2.N) (j : S4096x128.Idx) :
    iblk2 V c 1 t j = V c main_v51 (((cfg2.win 1).blk t).view.emb j) := rfl
theorem iblk2_2_apply (c : Dev nD) (t : Fin cfg2.N) (j : S1x128.Idx) :
    iblk2 V c 2 t j = V c main_v52 (((cfg2.win 2).blk t).view.emb j) := rfl
theorem iblk2_3_apply (c : Dev nD) (t : Fin cfg2.N) (j : S128x64.Idx) :
    iblk2 V c 3 t j = V c main_arg6 (((cfg2.win 3).blk t).view.emb j) := rfl
theorem iblk2_4_apply (c : Dev nD) (t : Fin cfg2.N) (j : S1x64.Idx) :
    iblk2 V c 4 t j = V c main_v53 (((cfg2.win 4).blk t).view.emb j) := rfl

theorem flushed2_eq (c : Dev nD) (A : S4096x4096.Idx → EReal) (Y : S4096x128.Idx → EReal) (b : Fin 128 → EReal) (W : S128x64.Idx → EReal) (b' : Fin 64 → EReal)
    (hA : V c main_v44 = A) (hY : V c main_v51 = Y) (hb : ∀ k : Fin 128, V c main_v52 (ix2 0 k) = b k) (hW : V c main_arg6 = W)
    (hb' : ∀ j : Fin 64, V c main_v53 (ix2 0 j) = b' j) (rA : IsReal A) (rY : IsReal Y) (t : Fin cfg2.N) :
    (dat2 (F := Ideal) V c).flushed 5 t = ((cfg2.win 5).blk t).view.read (Elt Ideal) (gcn2 A Y b W b') := by
  rw [flushed2_pay]
  have ht : t.val < 16 := t.isLt
  have r0 : IsReal (iblk2 V c 0 t) := fun j => by
    rw [iblk2_0_apply, hA]; exact rA _
  have r1 : IsReal (iblk2 V c 1 t) := fun j => by
    rw [iblk2_1_apply, hY]; exact rY _
  funext j
  obtain ⟨p, q, rfl⟩ : ∃ (p : Fin 256) (q : Fin 64), j = ix2 p q := ⟨j 0, j 1, eq_ix2 j⟩
  have hp : t.val * 256 + p.val < 4096 := by have := p.isLt; omega
  rw [View.read_apply, k2_pay1_apply _ _ _ _ _ r0 r1, emb2_5 t p q hp]
  unfold gcn2
  have e4 : iblk2 V c 4 t (ix2 0 q) = b' q := by
    rw [iblk2_4_apply, emb2_4]; exact hb' q
  rw [e4]
  refine congrArg (· + b' q) (Finset.sum_congr rfl fun k _ => ?_)
  have e3 : iblk2 V c 3 t (ix2 k q) = W (ix2 k q) := by
    rw [iblk2_3_apply, emb2_3, hW]
  have e2 : iblk2 V c 2 t (ix2 0 k) = b k := by
    rw [iblk2_2_apply, emb2_2]; exact hb k
  have e0 : ∀ l : Fin 4096, iblk2 V c 0 t (ix2 p l) = A (ix2 (⟨t.val * 256 + p.val, hp⟩ : Fin 4096) l) := fun l => by
    rw [iblk2_0_apply, emb2_0 t p l hp, hA]
  have e1 : ∀ l : Fin 4096, iblk2 V c 1 t (ix2 l k) = Y (ix2 l k) := fun l => by
    rw [iblk2_1_apply, emb2_1, hY]
  rw [e3, e2]
  simp only [e0, e1]

theorem cover2 (i : S4096x64.Idx) : ∃ t : Fin cfg2.N, (cfg2.win 5).flush t = true ∧ i ∈ ((cfg2.win 5).blk t).view.set := by
  have hi0 : (i 0).val < 4096 := (i 0).isLt
  have hi1 : (i 1).val < 64 := (i 1).isLt
  have ht : (i 0).val / 256 < 16 := by omega
  obtain ⟨-, -, -, -, -, -, -, -, -, -, e0, e1⟩ := idx_facts2 ⟨_, ht⟩
  have e0' : win2_5.index ⟨_, ht⟩ (0 : Fin 2) = (i 0).val / 256 := e0
  refine ⟨⟨_, ht⟩, flush2_5 _, ?_⟩
  show i ∈ ((View.whole main_v54).slice (win2_5.rect ⟨_, ht⟩)).set
  rw [View.set_slice_whole, Rect.mem_set_unit]
  intro a
  match a with
  | ⟨0, _⟩ => show win2_5.index _ (0 : Fin 2) * 256 ≤ (i 0).val ∧ (i 0).val < win2_5.index _ (0 : Fin 2) * 256 + 256; omega
  | ⟨1, _⟩ => show win2_5.index _ (1 : Fin 2) * 64 ≤ (i 1).val ∧ (i 1).val < win2_5.index _ (1 : Fin 2) * 64 + 64; omega

theorem stage2_dense (c : Dev nD) (A : S4096x4096.Idx → EReal) (Y : S4096x128.Idx → EReal) (b : Fin 128 → EReal) (W : S128x64.Idx → EReal) (b' : Fin 64 → EReal)
    (hA : V c main_v44 = A) (hY : V c main_v51 = Y) (hb : ∀ k : Fin 128, V c main_v52 (ix2 0 k) = b k) (hW : V c main_arg6 = W)
    (hb' : ∀ j : Fin 64, V c main_v53 (ix2 0 j) = b' j) (rA : IsReal A) (rY : IsReal Y) (i : Fin 4096) (j : Fin 64) :
    (dat2 (F := Ideal) V c).arrAt 5 cfg2.N (ix2 i j)
      = (∑ k : Fin 128, max ((∑ l : Fin 4096, A (ix2 i l) * Y (ix2 l k)) + b k) 0 * W (ix2 k j)) + b' j := by
  rw [(dat2 V c).arrAt_eq_of_cover 5 (gcn2 A Y b W b') (fun t _ => flushed2_eq V c A Y b W b' hA hY hb hW hb' rA rY t) cover2]
  rfl

end Cert.KernelIdeal.Hand

end
-- ==== Proof.KI.Pay3.lean ====
import proofs.«410974_j45672682225711_2_alg».proof.Proof.Gen.KernelIdeal.Skeleton
import proofs.«410974_j45672682225711_2_alg».proof.Proof.LibMatmul2

noncomputable section

namespace Cert.KernelIdeal.Hand

open Cert.KernelIdeal Cert.KernelIdeal.Gen
open Idealize.ShloMosaic Idealize.ShloMosaic.ValueIdx

/-- The payload of region 3 at (p, q): row p of the left operand times column q of the right, plus the bias row's entry q. -/
theorem k3_pay1_apply (x0 : Vec Ideal S2048x128 .f32) (x1 : Vec Ideal S128x384 .f32) (x2 : Vec Ideal S1x384 .f32) (p : Fin 2048) (q : Fin 384) :
    k3_pay1 x0 x1 x2 (ix2 p q) = (∑ k : Fin 128, x0 (ix2 p k) * x1 (ix2 k q)) + x2 (ix2 0 q) := by
  unfold k3_pay1
  simp only [shapeCast_self]
  show matmul (F := Ideal) (DotDims.plain 2048 128 384) none (truncf .bf16 x0 bitsLt_bf16_f32) (truncf .bf16 x1 bitsLt_bf16_f32) (constant S2048x384 .f32 0x00000000#32) (ix2 p q)
      + broadcastTo S2048x384 x2 broadcasts_S1x384_S2048x384 (ix2 p q) = _
  rw [Cert.Matmul2.matmul_plain_apply, Cert.Matmul2.broadcastTo_row_apply] <;> rfl

end Cert.KernelIdeal.Hand
-- ==== Proof.KI.Arr3.lean ====
import proofs.«410974_j45672682225711_2_alg».proof.Proof.KI.Reg3
import proofs.«410974_j45672682225711_2_alg».proof.Proof.KI.Pay3
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Matmul2 (zero2)

variable (V : (c : Dev nD) → (b : Ref sig .tc) → Buf (Elt Ideal) ((c : Thread nD τ).loc b))

/-- x·w + b, index by index. -/
def dense3 (x : S4096x128.Idx → Elt Ideal .f32) (w : S128x384.Idx → Elt Ideal .f32) (b : S1x384.Idx → Elt Ideal .f32) :
    S4096x384.Idx → Elt Ideal .bf16 :=
  fun i => (∑ k : Fin 128, x (ix2 (i 0) k) * w (ix2 k (i 1))) + b (ix2 0 (i 1))

/-- Over the two grid points: x's block is the result's row block, every other block index is 0. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 1 ∧ win3_3.index t (1 : Fin 2) = 0 :=
  (by decide +kernel : ∀ t : Fin grid3.N, _)

theorem idx_onto3 : ∀ q0 : Fin 2, ∃ t : Fin cfg3.N, win3_3.index t = ![q0.val, 0] :=
  (by decide +kernel : ∀ q0 : Fin 2, ∃ t : Fin grid3.N, win3_3.index t = ![q0.val, 0])

/-- The dense layer of the operands' blocks at point t is block t of the dense layer of the whole operands. -/
theorem dense3_block (A0 : S4096x128.Idx → Elt Ideal .f32) (A1 : S128x384.Idx → Elt Ideal .f32) (A2 : S1x384.Idx → Elt Ideal .f32)
    (t : Fin cfg3.N) (p : Fin 2048) (q : Fin 384) :
    (∑ k : Fin 128, A0 (((cfg3.win 0).blk t).view.emb (ix2 p k)) * A1 (((cfg3.win 1).blk t).view.emb (ix2 k q)))
        + A2 (((cfg3.win 2).blk t).view.emb (ix2 0 q))
      = dense3 A0 A1 A2 (((cfg3.win 3).blk t).view.emb (ix2 p q)) := by
  obtain ⟨e0, e1, e2, e3, e4, e5, e6, e7⟩ := idx_facts3 t
  have h0 : ∀ k : Fin 128, ((cfg3.win 0).blk t).view.emb (ix2 p k) = ix2 ((((cfg3.win 3).blk t).view.emb (ix2 p q)) 0) k := fun k =>
    Cert.Matmul2.idx2_ext
      (by show win3_0.index t (0 : Fin 2) * 2048 + 1 * p.val = win3_3.index t (0 : Fin 2) * 2048 + 1 * p.val; omega)
      (by show win3_0.index t (1 : Fin 2) * 128 + 1 * k.val = k.val; omega)
  have h1 : ∀ k : Fin 128, ((cfg3.win 1).blk t).view.emb (ix2 k q) = ix2 k ((((cfg3.win 3).blk t).view.emb (ix2 p q)) 1) := fun k =>
    Cert.Matmul2.idx2_ext
      (by show win3_1.index t (0 : Fin 2) * 128 + 1 * k.val = k.val; omega)
      (by show win3_1.index t (1 : Fin 2) * 384 + 1 * q.val = win3_3.index t (1 : Fin 2) * 384 + 1 * q.val; omega)
  have h2 : ((cfg3.win 2).blk t).view.emb (ix2 0 q) = ix2 0 ((((cfg3.win 3).blk t).view.emb (ix2 p q)) 1) :=
    Cert.Matmul2.idx2_ext
      (by show win3_2.index t (0 : Fin 2) * 1 + 1 * 0 = 0; omega)
      (by show win3_2.index t (1 : Fin 2) * 384 + 1 * q.val = win3_3.index t (1 : Fin 2) * 384 + 1 * q.val; omega)
  unfold dense3
  rw [h2]
  exact congrArg (· + _) (Finset.sum_congr rfl fun k _ => by rw [h0 k, h1 k]; rfl)

/-- Point t's block of the result is block t of the dense layer of the operand arrays. -/
theorem flushed3_eq (c : Dev nD) (t : Fin cfg3.N) :
    (dat3 (F := Ideal) V c).flushed 3 t
      = ((cfg3.win 3).blk t).view.read (Elt Ideal) (dense3 (V c main_arg0) (V c main_v55) (V c main_v56)) := by
  show (cfg3.win 3).cut (grid3.coords t) ((dat3 V c).after 3 t) = _
  rw [after3_3]
  unfold out3_3
  rw [View.canon_unit_zero zero2]
  simp only [View.ld_unit_zero (S := S2048x128) zero2, View.ld_unit_zero (S := S128x384) zero2, View.ld_unit_zero (S := S1x384) zero2]
  funext j
  obtain ⟨p, q, rfl⟩ : ∃ (p : Fin 2048) (q : Fin 384), j = ix2 p q := ⟨j 0, j 1, eq_ix2 j⟩
  show k3_pay1 (iblk3 V c 0 t) (iblk3 V c 1 t) (iblk3 V c 2 t) (ix2 p q)
    = dense3 (V c main_arg0) (V c main_v55) (V c main_v56) (((cfg3.win 3).blk t).view.emb (ix2 p q))
  rw [k3_pay1_apply]
  exact dense3_block (V c main_arg0) (V c main_v55) (V c main_v56) t p q

/-- The two row blocks tile the array: row r lies in block r / 2048. -/
theorem cover3 (i : S4096x384.Idx) : ∃ t : Fin cfg3.N, (cfg3.win 3).flush t = true ∧ i ∈ ((cfg3.win 3).blk t).view.set := by
  have hi0 : (i 0).val < 4096 := (i 0).isLt
  have hi1 : (i 1).val < 384 := (i 1).isLt
  obtain ⟨t, ht⟩ := idx_onto3 ⟨(i 0).val / 2048, by omega⟩
  have q0 : win3_3.index t (0 : Fin 2) = (i 0).val / 2048 := congrFun ht 0
  have q1 : win3_3.index t (1 : Fin 2) = 0 := congrFun ht 1
  refine ⟨t, flush3_3 t, ?_⟩
  show i ∈ ((View.whole main_v57).slice (win3_3.rect t)).set
  rw [View.set_slice_whole, Rect.mem_set_unit]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 384 ≤ (i 1).val ∧ (i 1).val < win3_3.index t (1 : Fin 2) * 384 + 384; omega

/-- The array after region 3 is the dense layer of the three operand arrays as the region finds them. -/
theorem arr3_eq (c : Dev nD) :
    (dat3 (F := Ideal) V c).arrAt 3 cfg3.N = dense3 (V c main_arg0) (V c main_v55) (V c main_v56) :=
  (dat3 (F := Ideal) V c).arrAt_eq_of_cover 3 _ (fun t _ => flushed3_eq V c t) cover3

end Cert.KernelIdeal.Hand
-- ==== Proof.KI.Val3.lean ====
import proofs.«410974_j45672682225711_2_alg».proof.Proof.KI.Arr3
import proofs.«410974_j45672682225711_2_alg».proof.Proof.RefRead

noncomputable section

namespace Cert.KernelIdeal.Hand

open Cert.KernelIdeal Cert.KernelIdeal.Gen Cert.ReferenceIdeal
open Idealize.ShloMosaic Idealize.ShloMosaic.TcCoe Idealize.ShloMosaic.ValueIdx Idealize.SL.Sem
open Idealize.ShloMosaic.Pipeline (Dat)
open Cert.Matmul2 (idx2_ext)

variable (V : (c : Dev nD) → (b : Ref sig .tc) → Buf (Elt Ideal) ((c : Thread nD τ).loc b))

/-- On the transposed weights and the bias as a row the array after region 3 is the reference's product plus its broadcast bias. -/
theorem stage3 (c : Dev nD) (x0 : (⟨S4096x128, .f32⟩ : BufTy).Contents (Elt Ideal)) (x8 : (⟨S384x128, .f32⟩ : BufTy).Contents (Elt Ideal))
    (x9 : (⟨S384, .f32⟩ : BufTy).Contents (Elt Ideal))
    (h0 : V c main_arg0 = x0) (h1 : V c main_v55 = Cert.ReferenceIdeal.Read.val_main_v96 (F := Ideal) x8)
    (hb : ∀ j : Fin 384, (V c main_v56 (ValueIdx.ix2 (0 : Fin 1) j) : EReal) = x9 (ValueIdx.ix1 j)) (i : S4096x384.Idx) :
    ((dat3 (F := Ideal) V c).arrAt 3 cfg3.N i : EReal) = Cert.ReferenceIdeal.Read.val_main_v100 (F := Ideal) x0 x8 x9 i := by
  rw [arr3_eq, h0, h1, Read.val_main_v100_apply, Read.val_main_v97_apply, Read.val_main_v99_apply, Read.val_main_v98_apply]
  show (∑ k : Fin 128, x0 (ix2 (i 0 : Fin 4096) k) * Read.val_main_v96 (F := Ideal) x8 (ix2 k (i 1 : Fin 384))) + V c main_v56 (ix2 (0 : Fin 1) (⟨(i 1).val, (i 1).isLt⟩ : Fin 384))
    = (∑ k : Fin 128, x0 (Read.lidx_main_v97 i k) * Read.val_main_v96 (F := Ideal) x8 (Read.ridx_main_v97 i k))
      + x9 (Read.idx_main_v98 (Read.idx_main_v99 i))
  rw [hb, show Read.idx_main_v98 (Read.idx_main_v99 i) = ix1 (⟨(i 1).val, (i 1).isLt⟩ : Fin 384) from funext fun a => by match a with | ⟨0, _⟩ => rfl]
  exact congrArg (· + _) (Finset.sum_congr rfl fun k _ => by
    rw [show Read.lidx_main_v97 i k = ix2 (i 0 : Fin 4096) k from idx2_ext rfl rfl, show Read.ridx_main_v97 i k = ix2 k (i 1 : Fin 384) from idx2_ext rfl rfl]
    rfl)

end Cert.KernelIdeal.Hand
-- ==== Proof.LibDotIdx.lean ====
import Idealize.ShloMosaic.PureOps.Ideal.Laws
import Idealize.ShloMosaic.Lib.ValueIdx

open scoped BigOperators

namespace Idealize.ShloMosaic

open ValueIdx

namespace DotDims

variable {sl sr so : Shape} {d : DotDims sl sr so} {j : so.Idx}

/-- Equal positions read equal coordinates. -/
theorem val_at (j : so.Idx) {p q : Fin so.rank} (h : p.val = q.val) : (j p).val = (j q).val := by
  obtain rfl : p = q := Fin.ext h
  rfl

/-- A batch axis of the left operand reads the output's coordinate at the axis's place among the batch axes. -/
theorem lhsIdx_val_of_batch {k : d.contr.Idx} {a : Fin sl.rank} (b : Fin so.rank) (hb : a ∈ d.lhsBatch)
    (h : d.lhsBatch.idxOf a = b.val) : (d.lhsIdx j k a).val = (j b).val := by
  unfold lhsIdx
  rw [dif_pos hb]
  simp only [Fin.val_cast]
  exact val_at j h

/-- A free axis of the left operand reads the output's coordinate at the axis's place after the batch axes. -/
theorem lhsIdx_val_of_free {k : d.contr.Idx} {a : Fin sl.rank} (b : Fin so.rank) (hb : a ∉ d.lhsBatch)
    (hn : a ∈ d.lhsNonContracting) (h : d.lhsBatch.length + d.lhsNonContracting.idxOf a = b.val) :
    (d.lhsIdx j k a).val = (j b).val := by
  unfold lhsIdx
  rw [dif_neg hb, dif_pos hn]
  simp only [Fin.val_cast]
  exact val_at j h

/-- A batch axis of the right operand reads the output's coordinate at the axis's place among the batch axes. -/
theorem rhsIdx_val_of_batch {k : d.contr.Idx} {a : Fin sr.rank} (b : Fin so.rank) (hb : a ∈ d.rhsBatch)
    (h : d.rhsBatch.idxOf a = b.val) : (d.rhsIdx j k a).val = (j b).val := by
  unfold rhsIdx
  rw [dif_pos hb]
  simp only [Fin.val_cast]
  exact val_at j h

/-- A free axis of the right operand reads the output's coordinate at its place after the batch axes and the left operand's free axes. -/
theorem rhsIdx_val_of_free {k : d.contr.Idx} {a : Fin sr.rank} (b : Fin so.rank) (hb : a ∉ d.rhsBatch)
    (hn : a ∈ d.rhsNonContracting)
    (h : d.lhsBatch.length + d.lhsNonContracting.length + d.rhsNonContracting.idxOf a = b.val) :
    (d.rhsIdx j k a).val = (j b).val := by
  unfold rhsIdx
  rw [dif_neg hb, dif_pos hn]
  simp only [Fin.val_cast]
  exact val_at j h

variable {n : ℕ} {hr : d.contr.rank = 1} {hs : d.contr.size ⟨0, by omega⟩ = n} {k : Fin n}

/-- The one contracted axis of the left operand reads the summation variable. -/
theorem lhsIdx_val_contr1 {cl : Fin sl.rank} (hc : d.lhsContracting = [cl]) :
    (d.lhsIdx j ((contrEquiv1 d n hr hs).symm k) cl).val = k.val :=
  (d.lhsIdx_val_of_single hc j _).trans (contrEquiv1_symm_val d n hr hs k)

/-- The one contracted axis of the right operand reads the summation variable. -/
theorem rhsIdx_val_contr1 {cr : Fin sr.rank} (hc : d.rhsContracting = [cr]) :
    (d.rhsIdx j ((contrEquiv1 d n hr hs).symm k) cr).val = k.val :=
  (d.rhsIdx_val_of_single hc j _).trans (contrEquiv1_symm_val d n hr hs k)

end DotDims

/-- A contraction over one axis of extent n onto a zero accumulator is, at an index, the sum over that axis of the operands' products at the indices L and R name. -/
theorem Ideal.matmul_zero_apply_sum {sl sr so : Shape} {φ₁ φ₂ : FTy} (d : DotDims sl sr so) (n : ℕ) (hr : d.contr.rank = 1)
    (hs : d.contr.size ⟨0, by omega⟩ = n) (prec : Option ContractPrecision) (l : FVec Ideal sl φ₁) (r : FVec Ideal sr φ₂)
    (i : so.Idx) (L : Fin n → sl.Idx) (R : Fin n → sr.Idx)
    (hL : ∀ k a, (d.lhsIdx i ((contrEquiv1 d n hr hs).symm k) a).val = (L k a).val)
    (hR : ∀ k a, (d.rhsIdx i ((contrEquiv1 d n hr hs).symm k) a).val = (R k a).val) :
    FloatOps.matmul d prec l r (constant so .f32 0x00000000#32) i = ∑ k : Fin n, l (L k) * r (R k) := by
  rw [Ideal.matmul_constant_zero_apply, ← Equiv.sum_comp (contrEquiv1 d n hr hs).symm]
  exact Finset.sum_congr rfl fun k _ => by
    rw [show d.lhsIdx i ((contrEquiv1 d n hr hs).symm k) = L k from funext fun a => Fin.ext (hL k a),
      show d.rhsIdx i ((contrEquiv1 d n hr hs).symm k) = R k from funext fun a => Fin.ext (hR k a)]

end Idealize.ShloMosaic
-- ==== Proof.KI.Val4Dot.lean ====
import proofs.«410974_j45672682225711_2_alg».proof.Proof.Gen.KernelIdeal
import proofs.«410974_j45672682225711_2_alg».proof.Proof.LibDotIdx

noncomputable section

namespace Cert.KernelIdeal.Hand

open Cert.KernelIdeal Cert.KernelIdeal.Gen
open Idealize.ShloMosaic Idealize.ShloMosaic.ValueIdx

/-- Scores: in head h, query row n against key row j, summed over the 16 features. -/
theorem qk_apply (xq xk : FVec Ideal S8x512x16 .bf16) (h : Fin 8) (n j : Fin 512) :
    FloatOps.matmul dot_S8x512x16_S8x512x16_S8x512x512_2_2_1_1_0_0 none xq xk (constant S8x512x512 .f32 0x00000000#32) (ix3 h n j)
      = ∑ d : Fin 16, xq (ix3 h n d) * xk (ix3 h j d) :=
  Ideal.matmul_zero_apply_sum dot_S8x512x16_S8x512x16_S8x512x512_2_2_1_1_0_0 16 rfl rfl none xq xk _
    (fun d => ix3 h n d) (fun d => ix3 h j d)
    (fun k a => match a with
      | ⟨0, _⟩ => DotDims.lhsIdx_val_of_batch (a := ⟨0, by decide⟩) ⟨0, by decide⟩ (by decide) (by rfl)
      | ⟨1, _⟩ => DotDims.lhsIdx_val_of_free (a := ⟨1, by decide⟩) ⟨1, by decide⟩ (by decide) (by decide) (by rfl)
      | ⟨2, _⟩ => DotDims.lhsIdx_val_contr1 (by rfl))
    (fun k a => match a with
      | ⟨0, _⟩ => DotDims.rhsIdx_val_of_batch (a := ⟨0, by decide⟩) ⟨0, by decide⟩ (by decide) (by rfl)
      | ⟨1, _⟩ => DotDims.rhsIdx_val_of_free (a := ⟨1, by decide⟩) ⟨2, by decide⟩ (by decide) (by decide) (by rfl)
      | ⟨2, _⟩ => DotDims.rhsIdx_val_contr1 (by rfl))

/-- Weighted values: in head h, the weights of query row n against coordinate d of the value rows, summed over the tile's 512 keys. -/
theorem pv_apply (p : FVec Ideal S8x512x512 .bf16) (xv : FVec Ideal S8x512x16 .bf16) (h : Fin 8) (n : Fin 512) (d : Fin 16) :
    FloatOps.matmul dot_S8x512x512_S8x512x16_S8x512x16_2_1_1_2_0_0 none p xv (constant S8x512x16 .f32 0x00000000#32) (ix3 h n d)
      = ∑ j : Fin 512, p (ix3 h n j) * xv (ix3 h j d) :=
  Ideal.matmul_zero_apply_sum dot_S8x512x512_S8x512x16_S8x512x16_2_1_1_2_0_0 512 rfl rfl none p xv _
    (fun j => ix3 h n j) (fun j => ix3 h j d)
    (fun k a => match a with
      | ⟨0, _⟩ => DotDims.lhsIdx_val_of_batch (a := ⟨0, by decide⟩) ⟨0, by decide⟩ (by decide) (by rfl)
      | ⟨1, _⟩ => DotDims.lhsIdx_val_of_free (a := ⟨1, by decide⟩) ⟨1, by decide⟩ (by decide) (by decide) (by rfl)
      | ⟨2, _⟩ => DotDims.lhsIdx_val_contr1 (by rfl))
    (fun k a => match a with
      | ⟨0, _⟩ => DotDims.rhsIdx_val_of_batch (a := ⟨0, by decide⟩) ⟨0, by decide⟩ (by decide) (by rfl)
      | ⟨1, _⟩ => DotDims.rhsIdx_val_contr1 (by rfl)
      | ⟨2, _⟩ => DotDims.rhsIdx_val_of_free (a := ⟨2, by decide⟩) ⟨2, by decide⟩ (by decide) (by decide) (by rfl))

end Cert.KernelIdeal.Hand
-- ==== Proof.KI.Val4Math.lean ====
import proofs.«410974_j45672682225711_2_alg».proof.Proof.Gen.KernelIdeal.Skeleton
import proofs.«410974_j45672682225711_2_alg».proof.Proof.KI.Val4Dot
import proofs.«410974_j45672682225711_2_alg».proof.Proof.AttnSpec
import Idealize.ShloMosaic.Lib.Pipeline.Value

noncomputable section

namespace Cert.KernelIdeal.Hand

open Cert.KernelIdeal Cert.KernelIdeal.Gen
open Idealize.ShloMosaic Idealize.ShloMosaic.ValueIdx

/-- The scaled score of query row n against key row j of the tile, in head h. -/
def sc4 (xq xk : Vec Ideal S8x512x16 .bf16) (h : Fin 8) (n j : Fin 512) : EReal :=
  (∑ d : Fin 16, xq (ix3 h n d) * xk (ix3 h j d)) * Ideal.ofBits .f32 0x3E800000#32

theorem k4_pay8_apply (xq xk : Vec Ideal S8x512x16 .bf16) (h : Fin 8) (n j : Fin 512) :
    k4_pay8 xq xk (ix3 h n j) = sc4 xq xk h n j := by
  unfold k4_pay8 sc4
  rw [shapeCast_self, shapeCast_self]
  show FloatOps.matmul dot_S8x512x16_S8x512x16_S8x512x512_2_2_1_1_0_0 none xq xk (constant S8x512x512 .f32 0x00000000#32) (ix3 h n j) * Ideal.ofBits .f32 0x3E800000#32 = _
  rw [qk_apply]

theorem k4_ofBits_neg_inf : Ideal.ofBits .f32 0xFF800000#32 = ⊥ := by simp [Ideal.ofBits, Ideal.ieee]

theorem k4_rm_row (h : Fin 8) (n : Fin 512) :
    (S8x512.rowMajor (ix2 h n)).val = (S8x512x1.rowMajor (ix3 h n (0 : Fin 1))).val := by
  rw [Shape.rowMajor_val_two, Shape.rowMajor_val_three]
  show h.val * 512 + n.val = (h.val * 512 + n.val) * 1 + 0
  omega

theorem k4_lift_row (h : Fin 8) (n k : Fin 512) :
    reduces_S8x512x512_S8x512.lift (ix2 h n) k = ix3 h n k :=
  funext fun a => Fin.ext (by
    match a with
    | ⟨0, _⟩ => rfl
    | ⟨1, _⟩ => rfl
    | ⟨2, _⟩ => rfl)

theorem k4_bcast512 (x : FVec Ideal S8x512x1 .f32) (h : Fin 8) (n j : Fin 512) :
    broadcastTo S8x512x512 x broadcasts_S8x512x1_S8x512x512 (ix3 h n j) = x (ix3 h n 0) :=
  broadcastTo_apply x broadcasts_S8x512x1_S8x512x512 (ix3 h n j) (ix3 h n 0) (fun a => match a with
    | ⟨0, _⟩ => by show h.val = if (8 : Nat) = 1 then 0 else h.val; rw [if_neg (by decide)]
    | ⟨1, _⟩ => by show n.val = if (512 : Nat) = 1 then 0 else n.val; rw [if_neg (by decide)]
    | ⟨2, _⟩ => by show (0 : Nat) = if (1 : Nat) = 1 then 0 else j.val; rw [if_pos rfl])

theorem k4_bcast16 (x : FVec Ideal S8x512x1 .f32) (h : Fin 8) (n : Fin 512) (d : Fin 16) :
    broadcastTo S8x512x16 x broadcasts_S8x512x1_S8x512x16 (ix3 h n d) = x (ix3 h n 0) :=
  broadcastTo_apply x broadcasts_S8x512x1_S8x512x16 (ix3 h n d) (ix3 h n 0) (fun a => match a with
    | ⟨0, _⟩ => by show h.val = if (8 : Nat) = 1 then 0 else h.val; rw [if_neg (by decide)]
    | ⟨1, _⟩ => by show n.val = if (512 : Nat) = 1 then 0 else n.val; rw [if_neg (by decide)]
    | ⟨2, _⟩ => by show (0 : Nat) = if (1 : Nat) = 1 then 0 else d.val; rw [if_pos rfl])

theorem k4_fold_max_bot_eq_sup {ι : Type} (s : Finset ι) (f : ι → EReal) : s.fold max ⊥ f = s.sup f := rfl

theorem k4_redmax_apply (src : FVec Ideal S8x512x512 .f32) (h : Fin 8) (n : Fin 512) :
    shapeCast S8x512x1 (multiReduction .maximumf [2] S8x512 src 0xFF800000#32 reduces_S8x512x512_S8x512 (.inl rfl) rfl) shapeCasts_S8x512_S8x512x1 (ix3 h n 0)
      = Finset.univ.sup fun j : Fin 512 => src (ix3 h n j) := by
  rw [shapeCast_apply _ shapeCasts_S8x512_S8x512x1 (ix3 h n 0) (ix2 h n) (k4_rm_row h n)]
  refine (Ideal.multiReduction_maximumf_single src 0xFF800000#32 reduces_S8x512x512_S8x512 (.inl rfl) rfl (ix2 h n)).trans ?_
  have hb : FloatOps.ofBits (F := Ideal) .f32 0xFF800000#32 = ⊥ := k4_ofBits_neg_inf
  rw [hb, k4_fold_max_bot_eq_sup]
  exact congrArg (Finset.univ.sup ·) (funext fun j => congrArg src (k4_lift_row h n j))

theorem k4_redadd_apply (src : FVec Ideal S8x512x512 .f32) (h : Fin 8) (n : Fin 512) :
    shapeCast S8x512x1 (multiReduction .add [2] S8x512 src 0x00000000#32 reduces_S8x512x512_S8x512 (.inl rfl) rfl) shapeCasts_S8x512_S8x512x1 (ix3 h n 0)
      = ∑ j : Fin 512, src (ix3 h n j) := by
  rw [shapeCast_apply _ shapeCasts_S8x512_S8x512x1 (ix3 h n 0) (ix2 h n) (k4_rm_row h n)]
  refine (Ideal.multiReduction_add_single src 0x00000000#32 reduces_S8x512x512_S8x512 (.inl rfl) rfl (ix2 h n)).trans ?_
  exact Finset.sum_congr rfl fun j _ => congrArg src (k4_lift_row h n j)

theorem k4_exp_apply {s : Shape} {φ : FTy} (a : FVec Ideal s φ) (i : s.Idx) : exp a i = Ideal.exp (a i) := rfl

theorem k4_pay9_apply (xq xk : Vec Ideal S8x512x16 .bf16) (m0 : Vec Ideal S8x512x1 .f32) (h : Fin 8) (n : Fin 512) :
    k4_pay9 xq xk m0 (ix3 h n 0) = max (m0 (ix3 h n 0)) (Finset.univ.sup fun j : Fin 512 => sc4 xq xk h n j) := by
  unfold k4_pay9
  dsimp only
  rw [maximumf_apply, k4_redmax_apply]
  exact congrArg (max (m0 (ix3 h n 0))) (congrArg (Finset.univ.sup ·) (funext fun j => k4_pay8_apply xq xk h n j))

theorem k4_pay2_apply (m : FVec Ideal S8x512x1 .f32) : k4_pay2 m = m := by
  unfold k4_pay2; rw [shapeCast_self]

theorem k4_pay10_apply (xq xk : Vec Ideal S8x512x16 .bf16) (m0 m1 : Vec Ideal S8x512x1 .f32) (h : Fin 8) (n : Fin 512) :
    k4_pay10 xq xk m0 m1 (ix3 h n 0) = Ideal.exp (m1 (ix3 h n 0) - k4_pay9 xq xk m0 (ix3 h n 0)) := by
  unfold k4_pay10
  try dsimp only
  rw [k4_exp_apply, subf_apply]

theorem k4_pay11_apply (xq xk : Vec Ideal S8x512x16 .bf16) (m0 : Vec Ideal S8x512x1 .f32) (h : Fin 8) (n j : Fin 512) :
    k4_pay11 xq xk m0 (ix3 h n j) = Ideal.exp (sc4 xq xk h n j - k4_pay9 xq xk m0 (ix3 h n 0)) := by
  unfold k4_pay11
  try dsimp only
  rw [k4_exp_apply, subf_apply, k4_bcast512, k4_pay8_apply]

theorem k4_pay12_apply (xq xk : Vec Ideal S8x512x16 .bf16) (m0 m1 l0 : Vec Ideal S8x512x1 .f32) (h : Fin 8) (n : Fin 512) :
    k4_pay12 xq xk m0 m1 l0 (ix3 h n 0)
      = Ideal.exp (m1 (ix3 h n 0) - k4_pay9 xq xk m0 (ix3 h n 0)) * l0 (ix3 h n 0)
        + ∑ j : Fin 512, Ideal.exp (sc4 xq xk h n j - k4_pay9 xq xk m0 (ix3 h n 0)) := by
  unfold k4_pay12
  dsimp only
  rw [shapeCast_self, addf_apply, mulf_apply, k4_redadd_apply, k4_pay10_apply]
  exact congrArg (_ + ·) (Finset.sum_congr rfl fun j _ => k4_pay11_apply xq xk m0 h n j)

theorem k4_pay1_apply (xv : Vec Ideal S8x512x16 .bf16) (al : FVec Ideal S8x512x1 .f32) (p : FVec Ideal S8x512x512 .f32)
    (a0 : Vec Ideal S8x512x16 .f32) (h : Fin 8) (n : Fin 512) (d : Fin 16) :
    k4_pay1 (k4_pay7 xv) al p a0 (ix3 h n d)
      = al (ix3 h n 0) * a0 (ix3 h n d) + ∑ j : Fin 512, p (ix3 h n j) * xv (ix3 h j d) := by
  unfold k4_pay1 k4_pay7
  dsimp only [matmul]
  rw [shapeCast_self, shapeCast_self, addf_apply, mulf_apply, k4_bcast16, pv_apply]
  exact congrArg (_ + ·) (Finset.sum_congr rfl fun j _ => by rw [truncf_apply])

theorem k4_pay3_apply (a : Vec Ideal S8x512x16 .f32) (l : Vec Ideal S8x512x1 .f32) (h : Fin 8) (n : Fin 512) (d : Fin 16) :
    k4_pay3 a l (ix3 h n d) = Ideal.div (a (ix3 h n d)) (l (ix3 h n 0)) := by
  unfold k4_pay3
  try dsimp only
  rw [truncf_apply, divf_apply, k4_bcast16]

theorem k4_pay4_apply (i : S8x512x1.Idx) : k4_pay4 (F := Ideal) i = ⊥ := by
  unfold k4_pay4; rw [shapeCast_self]; exact k4_ofBits_neg_inf
theorem k4_pay5_apply (i : S8x512x1.Idx) : k4_pay5 (F := Ideal) i = 0 := by
  unfold k4_pay5; rw [shapeCast_self]; exact Ideal.ofBits_zero_f32
theorem k4_pay6_apply (i : S8x512x16.Idx) : k4_pay6 (F := Ideal) i = 0 := by
  unfold k4_pay6; rw [shapeCast_self]; exact Ideal.ofBits_zero_f32

/-- When the tile's scores and value column are tile t of a row of 4096 scores s and values v, the three updates at row (h, n) are one step of the online recursion. -/
theorem step4_row (xq xk xv : Vec Ideal S8x512x16 .bf16) (m0 l0 : Vec Ideal S8x512x1 .f32) (a0 : Vec Ideal S8x512x16 .f32)
    (h : Fin 8) (n : Fin 512) (d : Fin 16) (t : Fin 8) (s v : Fin 4096 → EReal)
    (hs : ∀ j, sc4 xq xk h n j = s (Cert.AttnSpec.tileIdx t j)) (hv : ∀ j, xv (ix3 h j d) = v (Cert.AttnSpec.tileIdx t j)) :
    (k4_pay2 (k4_pay9 xq xk m0) (ix3 h n 0), k4_pay12 xq xk m0 m0 l0 (ix3 h n 0),
        k4_pay1 (k4_pay7 xv) (k4_pay10 xq xk m0 m0) (k4_pay11 xq xk m0) a0 (ix3 h n d))
      = Cert.AttnSpec.step s v t (m0 (ix3 h n 0), l0 (ix3 h n 0), a0 (ix3 h n d)) := by
  have hm : k4_pay9 xq xk m0 (ix3 h n 0) = max (m0 (ix3 h n 0)) (Cert.AttnSpec.tileMax s t) := by
    rw [k4_pay9_apply]; unfold Cert.AttnSpec.tileMax; simp only [hs]
  unfold Cert.AttnSpec.step
  dsimp only
  rw [k4_pay2_apply, k4_pay12_apply, k4_pay1_apply, k4_pay10_apply, hm]
  simp only [k4_pay11_apply, hm, hs, hv]

end Cert.KernelIdeal.Hand
-- ==== Proof.KI.Val4.lean ====
import proofs.«410974_j45672682225711_2_alg».proof.Proof.KI.Reg4
import proofs.«410974_j45672682225711_2_alg».proof.Proof.KI.Val4Math

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

def srow4 (Q K : S8x4096x16.Idx → EReal) (h : Fin 8) (n : Fin 4096) : Fin 4096 → EReal :=
  fun j => (∑ d' : Fin 16, Q (ix3 h n d') * K (ix3 h j d')) * Ideal.ofBits .f32 0x3E800000#32

def vcol4 (Vv : S8x4096x16.Idx → EReal) (h : Fin 8) (d : Fin 16) : Fin 4096 → EReal :=
  fun j => Vv (ix3 h j d)

def attn4 (Q K Vv : S8x4096x16.Idx → EReal) : S8x4096x16.Idx → EReal :=
  fun i => Cert.AttnSpec.online (srow4 Q K (i 0) (i 1)) (vcol4 Vv (i 0) (i 2))

def row4 (s : St4 Ideal) (h : Fin 8) (r : Fin 512) (d : Fin 16) : EReal × EReal × EReal :=
  (s.1 (ix3 h r 0), s.2.1 (ix3 h r 0), s.2.2 (ix3 h r d))

theorem idx_facts4 : ∀ t : Fin cfg4.N,
    win4_0.index t (0 : Fin 3) = 0 ∧ win4_0.index t (1 : Fin 3) = t.val / 8 ∧ win4_0.index t (2 : Fin 3) = 0
    ∧ win4_1.index t (0 : Fin 3) = 0 ∧ win4_1.index t (1 : Fin 3) = t.val % 8 ∧ win4_1.index t (2 : Fin 3) = 0
    ∧ win4_2.index t (0 : Fin 3) = 0 ∧ win4_2.index t (1 : Fin 3) = t.val % 8 ∧ win4_2.index t (2 : Fin 3) = 0
    ∧ win4_3.index t (0 : Fin 3) = 0 ∧ win4_3.index t (1 : Fin 3) = t.val / 8 ∧ win4_3.index t (2 : Fin 3) = 0 :=
  (by decide +kernel : ∀ t : Fin grid4.N, _)

theorem tN4 (t : Fin cfg4.N) : t.val < 64 := lt_of_lt_of_eq t.isLt N_4

theorem iblk4_0_apply (c : Dev nD) (t : Fin cfg4.N) (h : Fin 8) (r : Fin 512) (d : Fin 16) :
    iblk4 V c 0 t (ix3 h r d) = V c main_v62 (ix3 h ⟨512 * (t.val / 8) + r.val, by have := tN4 t; omega⟩ d) := by
  obtain ⟨e0, e1, e2, -⟩ := idx_facts4 t
  show V c main_v62 (((cfg4.win 0).blk t).view.emb (ix3 h r d)) = _
  refine congrArg (V c main_v62) (funext fun a => Fin.ext ?_)
  match a with
  | ⟨0, _⟩ => show win4_0.index t (0 : Fin 3) * 8 + 1 * h.val = h.val; omega
  | ⟨1, _⟩ => show win4_0.index t (1 : Fin 3) * 512 + 1 * r.val = 512 * (t.val / 8) + r.val; omega
  | ⟨2, _⟩ => show win4_0.index t (2 : Fin 3) * 16 + 1 * d.val = d.val; omega

theorem iblk4_1_apply (c : Dev nD) (t : Fin cfg4.N) (h : Fin 8) (j : Fin 512) (d : Fin 16) :
    iblk4 V c 1 t (ix3 h j d) = V c main_v64 (ix3 h ⟨512 * (t.val % 8) + j.val, by omega⟩ d) := by
  obtain ⟨-, -, -, e0, e1, e2, -⟩ := idx_facts4 t
  show V c main_v64 (((cfg4.win 1).blk t).view.emb (ix3 h j d)) = _
  refine congrArg (V c main_v64) (funext fun a => Fin.ext ?_)
  match a with
  | ⟨0, _⟩ => show win4_1.index t (0 : Fin 3) * 8 + 1 * h.val = h.val; omega
  | ⟨1, _⟩ => show win4_1.index t (1 : Fin 3) * 512 + 1 * j.val = 512 * (t.val % 8) + j.val; omega
  | ⟨2, _⟩ => show win4_1.index t (2 : Fin 3) * 16 + 1 * d.val = d.val; omega

theorem iblk4_2_apply (c : Dev nD) (t : Fin cfg4.N) (h : Fin 8) (j : Fin 512) (d : Fin 16) :
    iblk4 V c 2 t (ix3 h j d) = V c main_v66 (ix3 h ⟨512 * (t.val % 8) + j.val, by omega⟩ d) := by
  obtain ⟨-, -, -, -, -, -, e0, e1, e2, -⟩ := idx_facts4 t
  show V c main_v66 (((cfg4.win 2).blk t).view.emb (ix3 h j d)) = _
  refine congrArg (V c main_v66) (funext fun a => Fin.ext ?_)
  match a with
  | ⟨0, _⟩ => show win4_2.index t (0 : Fin 3) * 8 + 1 * h.val = h.val; omega
  | ⟨1, _⟩ => show win4_2.index t (1 : Fin 3) * 512 + 1 * j.val = 512 * (t.val % 8) + j.val; omega
  | ⟨2, _⟩ => show win4_2.index t (2 : Fin 3) * 16 + 1 * d.val = d.val; omega

theorem row4_reset (h : Fin 8) (r : Fin 512) (d : Fin 16) : row4 (reset4 (F := Ideal)) h r d = (⊥, 0, 0) := by
  unfold row4 reset4
  dsimp only
  rw [k4_pay4_apply, k4_pay5_apply, k4_pay6_apply]

theorem step4_row_at (c : Dev nD) (s : St4 Ideal) (t : Fin cfg4.N) (h : Fin 8) (r : Fin 512) (d : Fin 16) :
    row4 (step4 s (iblk4 V c 0 t) (iblk4 V c 1 t) (iblk4 V c 2 t)) h r d
      = Cert.AttnSpec.step (srow4 (V c main_v62) (V c main_v64) h ⟨512 * (t.val / 8) + r.val, by have := tN4 t; omega⟩) (vcol4 (V c main_v66) h d)
          ⟨t.val % 8, Nat.mod_lt _ (by decide)⟩ (row4 s h r d) := by
  unfold row4 step4 mNext4 lNext4 aNext4
  refine step4_row _ _ _ _ _ _ h r d ⟨t.val % 8, Nat.mod_lt _ (by decide)⟩ _ _ (fun j => ?_) (fun j => ?_)
  · unfold sc4 srow4
    refine congrArg (· * _) (Finset.sum_congr rfl fun d' _ => ?_)
    rw [iblk4_0_apply, iblk4_1_apply]
    rfl
  · rw [iblk4_2_apply]
    rfl

theorem st4_row (c : Dev nD) (q : ℕ) (hq : q < 8) (kv : ℕ) (hkv : kv < 8) (h : Fin 8) (r : Fin 512) (d : Fin 16) :
    row4 (st4 V c (8 * q + kv)) h r d
      = Cert.AttnSpec.stateAfter (srow4 (V c main_v62) (V c main_v64) h ⟨512 * q + r.val, by omega⟩) (vcol4 (V c main_v66) h d) (kv + 1) := by
  induction kv with
  | zero =>
    have hp : pt4 (8 * q + 0) = (⟨8 * q + 0, lt_of_lt_of_eq (by omega) N_4.symm⟩ : Fin cfg4.N) := pt4_val ⟨8 * q + 0, lt_of_lt_of_eq (by omega) N_4.symm⟩
    rw [st4_first V c (8 * q + 0) (by omega), hp, step4_row_at, row4_reset]
    show _ = if h0 : 0 < 8 then Cert.AttnSpec.step _ _ ⟨0, h0⟩ (Cert.AttnSpec.stateAfter _ _ 0) else _
    rw [dif_pos (by decide)]
    have e1 : (8 * q + 0) / 8 = q := by omega
    have e2 : (8 * q + 0) % 8 = 0 := by omega
    simp only [e1, e2]
    rfl
  | succ k ih =>
    have hp : pt4 (8 * q + (k + 1)) = (⟨8 * q + (k + 1), lt_of_lt_of_eq (by omega) N_4.symm⟩ : Fin cfg4.N) := pt4_val ⟨8 * q + (k + 1), lt_of_lt_of_eq (by omega) N_4.symm⟩
    rw [st4_next V c (8 * q + (k + 1)) (by omega), hp, step4_row_at]
    rw [show 8 * q + (k + 1) - 1 = 8 * q + k by omega, ih (by omega)]
    show _ = if h0 : k + 1 < 8 then Cert.AttnSpec.step _ _ ⟨k + 1, h0⟩ (Cert.AttnSpec.stateAfter _ _ (k + 1)) else _
    rw [dif_pos hkv]
    have e1 : (8 * q + (k + 1)) / 8 = q := by omega
    have e2 : (8 * q + (k + 1)) % 8 = k + 1 := by omega
    simp only [e1, e2]

theorem row_out (c : Dev nD) (t : Fin cfg4.N) (h7 : t.val % 8 = 7) (h : Fin 8) (r : Fin 512) (d : Fin 16) :
    out4_3 (st4 V c t.val).2.2 (st4 V c t.val).2.1 (ix3 h r d)
      = attn4 (V c main_v62) (V c main_v64) (V c main_v66) (ix3 h ⟨512 * (t.val / 8) + r.val, by have := tN4 t; omega⟩ d) := by
  have ht := tN4 t
  have hrow := st4_row V c (t.val / 8) (by omega) 7 (by omega) h r d
  rw [show 8 * (t.val / 8) + 7 = t.val by omega] at hrow
  have h2 : (st4 V c t.val).2.2 (ix3 h r d) = _ := congrArg (fun x => x.2.2) hrow
  have h1 : (st4 V c t.val).2.1 (ix3 h r 0) = _ := congrArg (fun x => x.2.1) hrow
  unfold out4_3
  rw [k4_pay3_apply, h1, h2]
  rfl

theorem flushed4_eq (c : Dev nD) (t : Fin cfg4.N) (hf : (cfg4.win 3).flush t = true) :
    (dat4 V c).flushed 3 t = ((cfg4.win 3).blk t).view.read (Elt Ideal) (attn4 (V c main_v62) (V c main_v64) (V c main_v66)) := by
  have h7 : t.val % 8 = 7 := (flush4_3 t).mp hf
  show (cfg4.win 3).cut (grid4.coords t) ((dat4 V c).after 3 t) = _
  rw [after4_3_last]
  obtain ⟨-, -, -, -, -, -, -, -, -, e0, e1, e2⟩ := idx_facts4 t
  funext j
  obtain ⟨h, r, d, rfl⟩ : ∃ (h : Fin 8) (r : Fin 512) (d : Fin 16), j = ix3 h r d := ⟨j 0, j 1, j 2, eq_ix3 j⟩
  show out4_3 (st4 V c t.val).2.2 (st4 V c t.val).2.1 (ix3 h r d) = attn4 (V c main_v62) (V c main_v64) (V c main_v66) (((cfg4.win 3).blk t).view.emb (ix3 h r d))
  refine (row_out V c t h7 h r d).trans (congrArg (attn4 (V c main_v62) (V c main_v64) (V c main_v66)) (funext fun a => Fin.ext ?_)).symm
  match a with
  | ⟨0, _⟩ => show win4_3.index t (0 : Fin 3) * 8 + 1 * h.val = h.val; omega
  | ⟨1, _⟩ => show win4_3.index t (1 : Fin 3) * 512 + 1 * r.val = 512 * (t.val / 8) + r.val; omega
  | ⟨2, _⟩ => show win4_3.index t (2 : Fin 3) * 16 + 1 * d.val = d.val; omega

theorem idx_onto4 : ∀ (q0 : Fin 8), ∃ t : Fin cfg4.N, t.val % 8 = 7 ∧ win4_3.index t = ![0, q0.val, 0] :=
  (by decide +kernel : ∀ (q0 : Fin 8), ∃ t : Fin grid4.N, t.val % 8 = 7 ∧ win4_3.index t = ![0, q0.val, 0])

theorem cover4 (i : S8x4096x16.Idx) :
    ∃ t : Fin cfg4.N, (cfg4.win 3).flush t = true ∧ i ∈ ((cfg4.win 3).blk t).view.set := by
  have hi0 : (i 0).val < 8 := (i 0).isLt
  have hi1 : (i 1).val < 4096 := (i 1).isLt
  have hi2 : (i 2).val < 16 := (i 2).isLt
  obtain ⟨t, h7, ht⟩ := idx_onto4 ⟨(i 1).val / 512, by omega⟩
  have q0 : win4_3.index t (0 : Fin 3) = 0 := congrFun ht 0
  have q1 : win4_3.index t (1 : Fin 3) = (i 1).val / 512 := congrFun ht 1
  have q2 : win4_3.index t (2 : Fin 3) = 0 := congrFun ht 2
  refine ⟨t, (flush4_3 t).mpr h7, ?_⟩
  show i ∈ ((View.whole main_v67).slice (win4_3.rect t)).set
  rw [View.set_slice_whole, Rect.mem_set_unit]
  intro a
  match a with
  | ⟨0, _⟩ => show win4_3.index t (0 : Fin 3) * 8 ≤ (i 0).val ∧ (i 0).val < win4_3.index t (0 : Fin 3) * 8 + 8; omega
  | ⟨1, _⟩ => show win4_3.index t (1 : Fin 3) * 512 ≤ (i 1).val ∧ (i 1).val < win4_3.index t (1 : Fin 3) * 512 + 512; omega
  | ⟨2, _⟩ => show win4_3.index t (2 : Fin 3) * 16 ≤ (i 2).val ∧ (i 2).val < win4_3.index t (2 : Fin 3) * 16 + 16; omega

theorem final4 (c : Dev nD) :
    (dat4 V c).arrAt 3 cfg4.N = attn4 (V c main_v62) (V c main_v64) (V c main_v66) :=
  (dat4 V c).arrAt_eq_of_cover 3 (attn4 (V c main_v62) (V c main_v64) (V c main_v66)) (fun t hf => flushed4_eq V c t hf) cover4

theorem stage4_online (c : Dev nD) (Q K Vv : S8x4096x16.Idx → EReal)
    (hQ : ∀ (h : Fin 8) (n : Fin 4096) (d : Fin 16), (V c main_v62 : S8x4096x16.Idx → EReal) (ix3 h n d) = Q (ix3 h n d))
    (hK : ∀ (h : Fin 8) (n : Fin 4096) (d : Fin 16), (V c main_v64 : S8x4096x16.Idx → EReal) (ix3 h n d) = K (ix3 h n d))
    (hV : ∀ (h : Fin 8) (n : Fin 4096) (d : Fin 16), (V c main_v66 : S8x4096x16.Idx → EReal) (ix3 h n d) = Vv (ix3 h n d))
    (h : Fin 8) (n : Fin 4096) (d : Fin 16) :
    (dat4 (F := Ideal) V c).arrAt 3 cfg4.N (ix3 h n d)
      = Cert.AttnSpec.online (fun j => (∑ d' : Fin 16, Q (ix3 h n d') * K (ix3 h j d')) * Ideal.ofBits .f32 0x3E800000#32)
          (fun j => Vv (ix3 h j d)) := by
  rw [final4]
  show Cert.AttnSpec.online (srow4 (V c main_v62) (V c main_v64) h n) (vcol4 (V c main_v66) h d) = _
  exact congrArg₂ Cert.AttnSpec.online (funext fun j => congrArg (· * _) (Finset.sum_congr rfl fun d' _ => by rw [hQ, hK]))
    (funext fun j => hV h j d)

end Cert.KernelIdeal.Hand
-- ==== Proof.KI.Pay5.lean ====
import proofs.«410974_j45672682225711_2_alg».proof.Proof.Gen.KernelIdeal.Skeleton
import proofs.«410974_j45672682225711_2_alg».proof.Proof.LibDotIdx
import Idealize.ShloMosaic.Lib.ValueLayout

noncomputable section

namespace Cert.KernelIdeal.Hand

open Cert.KernelIdeal Cert.KernelIdeal.Gen
open Idealize.ShloMosaic Idealize.ShloMosaic.ValueIdx

/-- Row p of o times w1 plus the bias b1, times w2 plus the bias b2, at column q. -/
def proj5At (o : S4096x128.Idx → EReal) (w1 : S128x128.Idx → EReal) (b1 : Fin 128 → EReal)
    (w2 : S128x64.Idx → EReal) (b2 : Fin 64 → EReal) (p : Fin 4096) (q : Fin 64) : EReal :=
  (∑ k : Fin 128, ((∑ j : Fin 128, o (ix2 p j) * w1 (ix2 j k)) + b1 k) * w2 (ix2 k q)) + b2 q

def proj5 (o : S4096x128.Idx → EReal) (w1 : S128x128.Idx → EReal) (b1 : Fin 128 → EReal)
    (w2 : S128x64.Idx → EReal) (b2 : Fin 64 → EReal) : S4096x64.Idx → EReal :=
  fun i => proj5At o w1 b1 w2 b2 (i 0) (i 1)

theorem proj5_congr {o o' : S4096x128.Idx → EReal} {w1 w1' : S128x128.Idx → EReal} {b1 b1' : Fin 128 → EReal}
    {w2 w2' : S128x64.Idx → EReal} {b2 b2' : Fin 64 → EReal}
    (ho : ∀ i, o i = o' i) (hw1 : w1 = w1') (hb1 : ∀ k, b1 k = b1' k) (hw2 : w2 = w2') (hb2 : ∀ q, b2 q = b2' q) :
    proj5 o w1 b1 w2 b2 = proj5 o' w1' b1' w2' b2' := by
  obtain rfl : o = o' := funext ho
  obtain rfl := hw1
  obtain rfl : b1 = b1' := funext hb1
  obtain rfl := hw2
  obtain rfl : b2 = b2' := funext hb2
  rfl

/-- Either product at (p, q): row p of the left operand against column q of the right, summed over the 128 shared coordinates. -/
theorem mm1_k5_apply (l : FVec Ideal S2048x128 .bf16) (r : FVec Ideal S128x128 .bf16) (i : S2048x128.Idx) :
    matmul dot_S2048x128_S128x128_S2048x128_1_0_0_1_n_n none l r (constant S2048x128 .f32 0x00000000#32) i
      = ∑ k : Fin 128, l (ix2 (i 0) k) * r (ix2 k (i 1)) :=
  Ideal.matmul_zero_apply_sum dot_S2048x128_S128x128_S2048x128_1_0_0_1_n_n 128 rfl rfl none l r i (fun k => ix2 (i 0) k) (fun k => ix2 k (i 1))
    (fun k a => match a with
      | ⟨0, _⟩ => DotDims.lhsIdx_val_of_free (a := ⟨0, by decide⟩) ⟨0, by decide⟩ (by decide) (by decide) (by rfl)
      | ⟨1, _⟩ => DotDims.lhsIdx_val_contr1 (by rfl))
    (fun k a => match a with
      | ⟨0, _⟩ => DotDims.rhsIdx_val_contr1 (by rfl)
      | ⟨1, _⟩ => DotDims.rhsIdx_val_of_free (a := ⟨1, by decide⟩) ⟨1, by decide⟩ (by decide) (by decide) (by rfl))

theorem mm2_k5_apply (l : FVec Ideal S2048x128 .bf16) (r : FVec Ideal S128x64 .bf16) (i : S2048x64.Idx) :
    matmul dot_S2048x128_S128x64_S2048x64_1_0_0_1_n_n none l r (constant S2048x64 .f32 0x00000000#32) i
      = ∑ k : Fin 128, l (ix2 (i 0) k) * r (ix2 k (i 1)) :=
  Ideal.matmul_zero_apply_sum dot_S2048x128_S128x64_S2048x64_1_0_0_1_n_n 128 rfl rfl none l r i (fun k => ix2 (i 0) k) (fun k => ix2 k (i 1))
    (fun k a => match a with
      | ⟨0, _⟩ => DotDims.lhsIdx_val_of_free (a := ⟨0, by decide⟩) ⟨0, by decide⟩ (by decide) (by decide) (by rfl)
      | ⟨1, _⟩ => DotDims.lhsIdx_val_contr1 (by rfl))
    (fun k a => match a with
      | ⟨0, _⟩ => DotDims.rhsIdx_val_contr1 (by rfl)
      | ⟨1, _⟩ => DotDims.rhsIdx_val_of_free (a := ⟨1, by decide⟩) ⟨1, by decide⟩ (by decide) (by decide) (by rfl))

theorem bcast5_row128_apply (x : S1x128.Idx → EReal) (p : Fin 2048) (k : Fin 128) :
    broadcastTo S2048x128 x broadcasts_S1x128_S2048x128 (ix2 p k) = x (ix2 0 k) :=
  broadcastTo_1b_ab_apply x _ p k

theorem bcast5_row64_apply (x : S1x64.Idx → EReal) (p : Fin 2048) (q : Fin 64) :
    broadcastTo S2048x64 x broadcasts_S1x64_S2048x64 (ix2 p q) = x (ix2 0 q) :=
  broadcastTo_1b_ab_apply x _ p q

theorem pay5_apply (x0 : Vec Ideal S2048x128 .bf16) (x1 : Vec Ideal S128x128 .f32) (x2 : Vec Ideal S1x128 .f32)
    (x3 : Vec Ideal S128x64 .f32) (x4 : Vec Ideal S1x64 .f32) (p : Fin 2048) (q : Fin 64) :
    k5_pay1 (F := Ideal) x0 x1 x2 x3 x4 (ix2 p q)
      = (∑ k : Fin 128, ((∑ j : Fin 128, x0 (ix2 p j) * x1 (ix2 j k)) + x2 (ix2 0 k)) * x3 (ix2 k q)) + x4 (ix2 0 q) := by
  unfold k5_pay1
  simp only [shapeCast_self]
  rw [addf_apply, mm2_k5_apply, bcast5_row64_apply]
  refine congrArg (· + x4 (ix2 0 q)) (Finset.sum_congr rfl fun k _ => ?_)
  rw [truncf_apply, truncf_apply, addf_apply, mm1_k5_apply, bcast5_row128_apply]
  refine congrArg (fun s => (s + x2 (ix2 0 k)) * x3 (ix2 k q)) (Finset.sum_congr rfl fun j _ => ?_)
  rw [truncf_apply]

end Cert.KernelIdeal.Hand
-- ==== Proof.KI.Val5.lean ====
import proofs.«410974_j45672682225711_2_alg».proof.Proof.KI.Reg5
import proofs.«410974_j45672682225711_2_alg».proof.Proof.KI.Pay5
import proofs.«410974_j45672682225711_2_alg».proof.Proof.RefRead

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

theorem zero_off5 : (![0, 0] : Fin 2 → Nat) = fun _ => 0 := funext fun a => by fin_cases a <;> rfl

theorem idx_facts5 : ∀ t : Fin cfg5.N, win5_0.index t (0 : Fin 2) = win5_5.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 1 ∧ win5_5.index t (1 : Fin 2) = 0 :=
  (by decide +kernel : ∀ t : Fin grid5.N, _)

theorem idx_onto5 : ∀ (q0 : Fin 2), ∃ t : Fin cfg5.N, win5_5.index t = ![q0.val, 0] :=
  (by decide +kernel : ∀ (q0 : Fin 2), ∃ t : Fin grid5.N, win5_5.index t = ![q0.val, 0])

theorem blk5_0 (c : Dev nD) (t : Fin cfg5.N) (p : Fin 2048) (q : Fin 64) (j : Fin 128) :
    iblk5 V c 0 t (ix2 p j) = V c main_v69 (ix2 ((((cfg5.win 5).blk t).view.emb (ix2 p q)) 0 : Fin 4096) j) := by
  obtain ⟨e00, e01, -⟩ := idx_facts5 t
  show V c main_v69 (((cfg5.win 0).blk t).view.emb (ix2 p j)) = _
  refine congrArg (V c main_v69) (funext fun a => Fin.ext ?_)
  match a with
  | ⟨0, _⟩ => show win5_0.index t (0 : Fin 2) * 2048 + 1 * p.val = win5_5.index t (0 : Fin 2) * 2048 + 1 * p.val; omega
  | ⟨1, _⟩ => show win5_0.index t (1 : Fin 2) * 128 + 1 * j.val = j.val; omega

theorem blk5_1 (c : Dev nD) (t : Fin cfg5.N) (j k : Fin 128) :
    iblk5 V c 1 t (ix2 j k) = V c main_v70 (ix2 j k) := by
  obtain ⟨-, -, e10, e11, -⟩ := idx_facts5 t
  show V c main_v70 (((cfg5.win 1).blk t).view.emb (ix2 j k)) = _
  refine congrArg (V c main_v70) (funext fun a => Fin.ext ?_)
  match a with
  | ⟨0, _⟩ => show win5_1.index t (0 : Fin 2) * 128 + 1 * j.val = j.val; omega
  | ⟨1, _⟩ => show win5_1.index t (1 : Fin 2) * 128 + 1 * k.val = k.val; omega

theorem blk5_2 (c : Dev nD) (t : Fin cfg5.N) (k : Fin 128) :
    iblk5 V c 2 t (ix2 0 k) = V c main_v71 (ix2 0 k) := by
  obtain ⟨-, -, -, -, e20, e21, -⟩ := idx_facts5 t
  show V c main_v71 (((cfg5.win 2).blk t).view.emb (ix2 0 k)) = _
  refine congrArg (V c main_v71) (funext fun a => Fin.ext ?_)
  match a with
  | ⟨0, _⟩ => show win5_2.index t (0 : Fin 2) * 1 + 1 * 0 = 0; omega
  | ⟨1, _⟩ => show win5_2.index t (1 : Fin 2) * 128 + 1 * k.val = k.val; omega

theorem blk5_3 (c : Dev nD) (t : Fin cfg5.N) (p : Fin 2048) (q : Fin 64) (k : Fin 128) :
    iblk5 V c 3 t (ix2 k q) = V c main_arg12 (ix2 k ((((cfg5.win 5).blk t).view.emb (ix2 p q)) 1 : Fin 64)) := by
  obtain ⟨-, -, -, -, -, -, e30, e31, -, -, -, e51⟩ := idx_facts5 t
  show V c main_arg12 (((cfg5.win 3).blk t).view.emb (ix2 k q)) = _
  refine congrArg (V c main_arg12) (funext fun a => Fin.ext ?_)
  match a with
  | ⟨0, _⟩ => show win5_3.index t (0 : Fin 2) * 128 + 1 * k.val = k.val; omega
  | ⟨1, _⟩ => show win5_3.index t (1 : Fin 2) * 64 + 1 * q.val = win5_5.index t (1 : Fin 2) * 64 + 1 * q.val; omega

theorem blk5_4 (c : Dev nD) (t : Fin cfg5.N) (p : Fin 2048) (q : Fin 64) :
    iblk5 V c 4 t (ix2 0 q) = V c main_v72 (ix2 0 ((((cfg5.win 5).blk t).view.emb (ix2 p q)) 1 : Fin 64)) := by
  obtain ⟨-, -, -, -, -, -, -, -, e40, e41, -, e51⟩ := idx_facts5 t
  show V c main_v72 (((cfg5.win 4).blk t).view.emb (ix2 0 q)) = _
  refine congrArg (V c main_v72) (funext fun a => Fin.ext ?_)
  match a with
  | ⟨0, _⟩ => show win5_4.index t (0 : Fin 2) * 1 + 1 * 0 = 0; omega
  | ⟨1, _⟩ => show win5_4.index t (1 : Fin 2) * 64 + 1 * q.val = win5_5.index t (1 : Fin 2) * 64 + 1 * q.val; omega

/-- The projected array of the five operand arrays as the region finds them. -/
def arr5 (c : Dev nD) : S4096x64.Idx → EReal :=
  proj5 (V c main_v69) (V c main_v70) (fun k => V c main_v71 (ix2 0 k)) (V c main_arg12) (fun q => V c main_v72 (ix2 0 q))

theorem flushed5_eq (c : Dev nD) (t : Fin cfg5.N) :
    (dat5 V c).flushed 5 t = ((cfg5.win 5).blk t).view.read (Elt Ideal)
      (arr5 V c) := by
  show (cfg5.win 5).cut (grid5.coords t) ((dat5 V c).after 5 t) = _
  rw [after5_5]
  unfold out5_5
  rw [View.canon_unit_zero zero_off5]
  simp only [View.ld_unit_zero (S := S2048x128) zero_off5, View.ld_unit_zero (S := S128x128) zero_off5,
    View.ld_unit_zero (S := S1x128) zero_off5, View.ld_unit_zero (S := S128x64) zero_off5, View.ld_unit_zero (S := S1x64) zero_off5]
  funext y
  obtain ⟨p, q, rfl⟩ : ∃ (p : Fin 2048) (q : Fin 64), y = ix2 p q := ⟨y 0, y 1, eq_ix2 y⟩
  show k5_pay1 (F := Ideal) (iblk5 V c 0 t) (iblk5 V c 1 t) (iblk5 V c 2 t) (iblk5 V c 3 t) (iblk5 V c 4 t) (ix2 p q)
      = arr5 V c (((cfg5.win 5).blk t).view.emb (ix2 p q))
  rw [pay5_apply]
  unfold arr5 proj5 proj5At
  simp only [blk5_0 V c t p q, blk5_1 V c t, blk5_2 V c t, blk5_3 V c t p q, blk5_4 V c t p q]

/-- Row r lies in row block r / 2048. -/
theorem cover5 (i : S4096x64.Idx) :
    ∃ t : Fin cfg5.N, (cfg5.win 5).flush t = true ∧ i ∈ ((cfg5.win 5).blk t).view.set := by
  have hi0 : (i 0).val < 4096 := (i 0).isLt
  have hi1 : (i 1).val < 64 := (i 1).isLt
  obtain ⟨t, ht⟩ := idx_onto5 ⟨(i 0).val / 2048, by omega⟩
  have q0 : win5_5.index t (0 : Fin 2) = (i 0).val / 2048 := congrFun ht 0
  have q1 : win5_5.index t (1 : Fin 2) = 0 := congrFun ht 1
  refine ⟨t, flush5_5 t, ?_⟩
  show i ∈ ((View.whole main_v73).slice (win5_5.rect t)).set
  rw [View.set_slice_whole, Rect.mem_set_unit]
  intro a
  match a with
  | ⟨0, _⟩ => show win5_5.index t (0 : Fin 2) * 2048 ≤ (i 0).val ∧ (i 0).val < win5_5.index t (0 : Fin 2) * 2048 + 2048; omega
  | ⟨1, _⟩ => show win5_5.index t (1 : Fin 2) * 64 ≤ (i 1).val ∧ (i 1).val < win5_5.index t (1 : Fin 2) * 64 + 64; omega

theorem final5 (c : Dev nD) :
    (dat5 V c).arrAt 5 cfg5.N = arr5 V c :=
  (dat5 V c).arrAt_eq_of_cover 5 (arr5 V c)
    (fun t _ => flushed5_eq V c t) cover5

section Reference
open Cert.ReferenceIdeal.Read

variable (x0 : (⟨Cert.ReferenceIdeal.S4096x128, .f32⟩ : BufTy).Contents (Elt Ideal))
  (x8 : (⟨Cert.ReferenceIdeal.S384x128, .f32⟩ : BufTy).Contents (Elt Ideal)) (x9 : (⟨Cert.ReferenceIdeal.S384, .f32⟩ : BufTy).Contents (Elt Ideal))
  (x10 : (⟨Cert.ReferenceIdeal.S128x128, .f32⟩ : BufTy).Contents (Elt Ideal)) (x11 : (⟨Cert.ReferenceIdeal.S128, .f32⟩ : BufTy).Contents (Elt Ideal))
  (x12 : (⟨Cert.ReferenceIdeal.S128x64, .f32⟩ : BufTy).Contents (Elt Ideal)) (x13 : (⟨Cert.ReferenceIdeal.S64, .f32⟩ : BufTy).Contents (Elt Ideal))

theorem ref_v136_eq_proj :
    val_main_v136 (F := Ideal) x0 x8 x9 x10 x11 x12 x13
      = proj5 (val_main_v127 (F := Ideal) x0 x8 x9) (val_main_v128 (F := Ideal) x10) (fun k => x11 (ix1 k)) x12 (fun q => x13 (ix1 q)) := by
  funext i
  obtain ⟨p, q, rfl⟩ : ∃ (p : Fin 4096) (q : Fin 64), i = ix2 p q := ⟨i 0, i 1, eq_ix2 i⟩
  show _ = (∑ k : Fin 128, ((∑ j : Fin 128, val_main_v127 (F := Ideal) x0 x8 x9 (ix2 p j) * val_main_v128 (F := Ideal) x10 (ix2 j k)) + x11 (ix1 k)) * x12 (ix2 k q)) + x13 (ix1 q)
  rw [val_main_v136_apply, val_main_v133_apply, val_main_v135_apply, val_main_v134_apply, Ideal.addf_def]
  have e135 : idx_main_v134 (idx_main_v135 (ix2 p q)) = ix1 q := (eq_ix1 _).trans rfl
  rw [e135]
  refine congrArg (· + x13 (ix1 q)) (Finset.sum_congr rfl fun k _ => ?_)
  have el : lidx_main_v133 (ix2 p q) k = ix2 p k := (eq_ix2 _).trans rfl
  have er : ridx_main_v133 (ix2 p q) k = ix2 k q := (eq_ix2 _).trans rfl
  rw [el, er, val_main_v132_apply, val_main_v129_apply, val_main_v131_apply, val_main_v130_apply, Ideal.addf_def]
  have e131 : idx_main_v130 (idx_main_v131 (ix2 p k)) = ix1 k := (eq_ix1 _).trans rfl
  rw [e131]
  refine congrArg (fun s => (s + x11 (ix1 k)) * x12 (ix2 k q)) (Finset.sum_congr rfl fun j _ => ?_)
  have el' : lidx_main_v129 (ix2 p k) j = ix2 p j := (eq_ix2 _).trans rfl
  have er' : ridx_main_v129 (ix2 p k) j = ix2 j k := (eq_ix2 _).trans rfl
  rw [el', er']

theorem stage5 (c : Dev nD)
    (h69 : ∀ i : S4096x128.Idx, V c main_v69 i = val_main_v127 (F := Ideal) x0 x8 x9 i)
    (h70 : V c main_v70 = val_main_v128 (F := Ideal) x10)
    (h71 : ∀ j : Fin 128, V c main_v71 (ix2 0 j) = x11 (ix1 j))
    (h12 : V c main_arg12 = x12)
    (h72 : ∀ j : Fin 64, V c main_v72 (ix2 0 j) = x13 (ix1 j)) :
    (dat5 V c).arrAt 5 cfg5.N = val_main_v136 (F := Ideal) x0 x8 x9 x10 x11 x12 x13 :=
  (final5 V c).trans ((proj5_congr h69 h70 h71 h12 h72).trans (ref_v136_eq_proj x0 x8 x9 x10 x11 x12 x13).symm)

end Reference

end Cert.KernelIdeal.Hand
-- ==== Proof.KI.Val6.lean ====
import proofs.«410974_j45672682225711_2_alg».proof.Proof.KI.Reg6
import proofs.«410974_j45672682225711_2_alg».proof.Proof.RefRead

noncomputable section

namespace Cert.KernelIdeal.Hand

open Cert.KernelIdeal Cert.KernelIdeal.Gen
open Idealize.ShloMosaic Idealize.ShloMosaic.TcCoe

variable {F : FTy → Type} [FloatOps F]

variable (V : (c : Dev nD) → (b : Ref sig .tc) → Buf (Elt F) ((c : Thread nD τ).loc b))

theorem zero_off6 : (![0, 0] : Fin 2 → Nat) = fun _ => 0 := funext fun a => by fin_cases a <;> rfl

abbrev combine6 (a b : S4096x64.Idx → Elt F .f32) : S4096x64.Idx → Elt F .f32 :=
  fun i => FloatOps.maximumf (FloatOps.addf (a i) (b i)) (FloatOps.ofBits .f32 0x00000000#32)

theorem pay6_eq (x0 x1 : Vec F S2048x64 .f32) :
    k6_pay1 x0 x1 = fun j => FloatOps.maximumf (FloatOps.addf (x0 j) (x1 j)) (FloatOps.ofBits .f32 0x00000000#32) := by
  unfold k6_pay1
  rw [shapeCast_self, shapeCast_self]
  rfl

theorem idx_facts6 : ∀ t : Fin cfg6.N, win6_0.index t = win6_2.index t ∧ win6_1.index t = win6_2.index t :=
  (by decide +kernel : ∀ t : Fin grid6.N, _)

theorem idx_onto6 : ∀ (q0 : Fin 2), ∃ t : Fin cfg6.N, win6_2.index t = ![q0.val, 0] :=
  (by decide +kernel : ∀ (q0 : Fin 2), ∃ t : Fin grid6.N, win6_2.index t = ![q0.val, 0])

/-- The three index maps agree at every point, so block t of the result is block t of the combined array. -/
theorem flushed6_eq (c : Dev nD) (t : Fin cfg6.N) :
    (dat6 V c).flushed 2 t = ((cfg6.win 2).blk t).view.read (Elt F) (combine6 (V c main_v54) (V c main_v73)) := by
  show (cfg6.win 2).cut (grid6.coords t) ((dat6 V c).after 2 t) = _
  rw [after6_2]
  unfold out6_2
  rw [View.canon_unit_zero zero_off6]
  simp only [View.ld_unit_zero (S := S2048x64) zero_off6]
  rw [pay6_eq]
  obtain ⟨e0, e1⟩ := idx_facts6 t
  funext j
  show FloatOps.maximumf (FloatOps.addf (V c main_v54 (((cfg6.win 0).blk t).view.emb j)) (V c main_v73 (((cfg6.win 1).blk t).view.emb j))) _
     = FloatOps.maximumf (FloatOps.addf (V c main_v54 (((cfg6.win 2).blk t).view.emb j)) (V c main_v73 (((cfg6.win 2).blk t).view.emb j))) _
  have h0 : ((cfg6.win 0).blk t).view.emb j = ((cfg6.win 2).blk t).view.emb j := funext fun a => Fin.ext (by
    show win6_0.index t a * S2048x64.size a + 1 * (j a).val = win6_2.index t a * S2048x64.size a + 1 * (j a).val; rw [e0])
  have h1 : ((cfg6.win 1).blk t).view.emb j = ((cfg6.win 2).blk t).view.emb j := funext fun a => Fin.ext (by
    show win6_1.index t a * S2048x64.size a + 1 * (j a).val = win6_2.index t a * S2048x64.size a + 1 * (j a).val; rw [e1])
  rw [h0, h1]

/-- Row r lies in row block r / 2048. -/
theorem cover6 (i : S4096x64.Idx) :
    ∃ t : Fin cfg6.N, (cfg6.win 2).flush t = true ∧ i ∈ ((cfg6.win 2).blk t).view.set := by
  have hi0 : (i 0).val < 4096 := (i 0).isLt
  have hi1 : (i 1).val < 64 := (i 1).isLt
  obtain ⟨t, ht⟩ := idx_onto6 ⟨(i 0).val / 2048, by omega⟩
  have q0 : win6_2.index t (0 : Fin 2) = (i 0).val / 2048 := congrFun ht 0
  have q1 : win6_2.index t (1 : Fin 2) = 0 := congrFun ht 1
  refine ⟨t, flush6_2 t, ?_⟩
  show i ∈ ((View.whole main_v74).slice (win6_2.rect t)).set
  rw [View.set_slice_whole, Rect.mem_set_unit]
  intro a
  match a with
  | ⟨0, _⟩ => show win6_2.index t (0 : Fin 2) * 2048 ≤ (i 0).val ∧ (i 0).val < win6_2.index t (0 : Fin 2) * 2048 + 2048; omega
  | ⟨1, _⟩ => show win6_2.index t (1 : Fin 2) * 64 ≤ (i 1).val ∧ (i 1).val < win6_2.index t (1 : Fin 2) * 64 + 64; omega

theorem final6 (c : Dev nD) :
    (dat6 V c).arrAt 2 cfg6.N = combine6 (V c main_v54) (V c main_v73) :=
  (dat6 V c).arrAt_eq_of_cover 2 (combine6 (V c main_v54) (V c main_v73)) (fun t _ => flushed6_eq V c t) cover6

section Reference
open Cert.ReferenceIdeal.Read

variable (x0 : (⟨Cert.ReferenceIdeal.S4096x128, .f32⟩ : BufTy).Contents (Elt F)) (x1 : (⟨Cert.ReferenceIdeal.S2x131072, .i32⟩ : BufTy).Contents (Elt F))
  (x2 : (⟨Cert.ReferenceIdeal.S128x128, .f32⟩ : BufTy).Contents (Elt F)) (x3 : (⟨Cert.ReferenceIdeal.S128, .f32⟩ : BufTy).Contents (Elt F))
  (x4 : (⟨Cert.ReferenceIdeal.S128x128, .f32⟩ : BufTy).Contents (Elt F)) (x5 : (⟨Cert.ReferenceIdeal.S128, .f32⟩ : BufTy).Contents (Elt F))
  (x6 : (⟨Cert.ReferenceIdeal.S128x64, .f32⟩ : BufTy).Contents (Elt F)) (x7 : (⟨Cert.ReferenceIdeal.S64, .f32⟩ : BufTy).Contents (Elt F))
  (x8 : (⟨Cert.ReferenceIdeal.S384x128, .f32⟩ : BufTy).Contents (Elt F)) (x9 : (⟨Cert.ReferenceIdeal.S384, .f32⟩ : BufTy).Contents (Elt F))
  (x10 : (⟨Cert.ReferenceIdeal.S128x128, .f32⟩ : BufTy).Contents (Elt F)) (x11 : (⟨Cert.ReferenceIdeal.S128, .f32⟩ : BufTy).Contents (Elt F))
  (x12 : (⟨Cert.ReferenceIdeal.S128x64, .f32⟩ : BufTy).Contents (Elt F)) (x13 : (⟨Cert.ReferenceIdeal.S64, .f32⟩ : BufTy).Contents (Elt F))

theorem ref_v138_eq_combine :
    val_main_v138 (F := F) x0 x1 x2 x3 x4 x5 x6 x7 x8 x9 x10 x11 x12 x13
      = combine6 (val_main_v95 (F := F) x0 x1 x2 x3 x4 x5 x6 x7) (val_main_v136 (F := F) x0 x8 x9 x10 x11 x12 x13) := by
  funext i
  rw [val_main_v138_apply, val_main_v137_apply, val_main_call4_v0_apply, val_main_call4_cst_apply]

theorem stage6 (c : Dev nD)
    (ha : V c main_v54 = val_main_v95 (F := F) x0 x1 x2 x3 x4 x5 x6 x7)
    (hb : V c main_v73 = val_main_v136 (F := F) x0 x8 x9 x10 x11 x12 x13) :
    (dat6 V c).arrAt 2 cfg6.N = val_main_v138 (F := F) x0 x1 x2 x3 x4 x5 x6 x7 x8 x9 x10 x11 x12 x13 := by
  rw [final6, ha, hb, ref_v138_eq_combine]

end Reference

end Cert.KernelIdeal.Hand
-- ==== Proof.KI.Chain.lean ====
import proofs.«410974_j45672682225711_2_alg».proof.Defs
import proofs.«410974_j45672682225711_2_alg».proof.Proof.KI.RunW
import proofs.«410974_j45672682225711_2_alg».proof.Proof.KI.HostRead
import proofs.«410974_j45672682225711_2_alg».proof.Proof.EdgesLink
import proofs.«410974_j45672682225711_2_alg».proof.Proof.PreFacts
import proofs.«410974_j45672682225711_2_alg».proof.Proof.RefGcn
import proofs.«410974_j45672682225711_2_alg».proof.Proof.RefLayout
import proofs.«410974_j45672682225711_2_alg».proof.Proof.RefAttn
import proofs.«410974_j45672682225711_2_alg».proof.Proof.KI.Val0
import proofs.«410974_j45672682225711_2_alg».proof.Proof.KI.Val1
import proofs.«410974_j45672682225711_2_alg».proof.Proof.KI.Val2
import proofs.«410974_j45672682225711_2_alg».proof.Proof.KI.Val3
import proofs.«410974_j45672682225711_2_alg».proof.Proof.KI.Val4
import proofs.«410974_j45672682225711_2_alg».proof.Proof.KI.Val5
import proofs.«410974_j45672682225711_2_alg».proof.Proof.KI.Val6

noncomputable section

namespace Cert.KernelIdeal.Hand

open Cert.KernelIdeal Cert.KernelIdeal.Gen
open Idealize.ShloMosaic Idealize.ShloMosaic.TcCoe Idealize.ShloMosaic.ValueIdx
open Cert.ReferenceIdeal.Read
open Cert.RealVal

variable (m : (ℓ : Loc nD τ sig) → Buf (Elt Ideal) ℓ) (ρ : Dev nD → PrngReg)

abbrev in0 (c : Dev nD) := m ((c : Thread nD τ).loc main_arg0)
abbrev in1 (c : Dev nD) := m ((c : Thread nD τ).loc main_arg1)
abbrev in2 (c : Dev nD) := m ((c : Thread nD τ).loc main_arg2)
abbrev in3 (c : Dev nD) := m ((c : Thread nD τ).loc main_arg3)
abbrev in4 (c : Dev nD) := m ((c : Thread nD τ).loc main_arg4)
abbrev in5 (c : Dev nD) := m ((c : Thread nD τ).loc main_arg5)
abbrev in6 (c : Dev nD) := m ((c : Thread nD τ).loc main_arg6)
abbrev in7 (c : Dev nD) := m ((c : Thread nD τ).loc main_arg7)
abbrev in8 (c : Dev nD) := m ((c : Thread nD τ).loc main_arg8)
abbrev in9 (c : Dev nD) := m ((c : Thread nD τ).loc main_arg9)
abbrev in10 (c : Dev nD) := m ((c : Thread nD τ).loc main_arg10)
abbrev in11 (c : Dev nD) := m ((c : Thread nD τ).loc main_arg11)
abbrev in12 (c : Dev nD) := m ((c : Thread nD τ).loc main_arg12)
abbrev in13 (c : Dev nD) := m ((c : Thread nD τ).loc main_arg13)

theorem col_split (q : Fin 128) :
    ∃ (h : Fin 8) (d : Fin 16), q = ⟨16 * h.val + d.val, by have := h.isLt; have := d.isLt; omega⟩ :=
  ⟨⟨q.val / 16, by have := q.isLt; omega⟩, ⟨q.val % 16, Nat.mod_lt _ (by norm_num)⟩,
    Fin.ext (by show q.val = 16 * (q.val / 16) + q.val % 16; omega)⟩

theorem entry_Ahat (c : Dev nD) :
    W3 m ρ c (Proc.devRef .tc main_v44) = Cert.Edges.AhatK (in1 m c) :=
  Cert.Edges.kernel_entry_v44 (W0 m ρ c)

theorem chain0 (c : Dev nD) :
    (dat0 (Vin0 m ρ) c).arrAt 3 cfg0.N = val_main_v30 (in0 m c) (in2 m c) :=
  stage0 (Vin0 m ρ) c _ _ (kept3 m ρ c main_arg0 (by decide)) (kept3 m ρ c main_arg2 (by decide))
    (Cert.Edges.kernel_entry_v46 (W0 m ρ c))

theorem chain1 (hpre : Cert.Pre_KernelIdeal m) (c : Dev nD) :
    (dat1 (Vin1 m ρ) c).arrAt 5 cfg1.N
      = val_main_v74 (in0 m c) (in1 m c) (in2 m c) (in3 m c) (in4 m c) := by
  funext i
  obtain ⟨p, q, rfl⟩ : ∃ (p : Fin 4096) (q : Fin 128), i = ix2 p q := ⟨i 0, i 1, eq_ix2 i⟩
  have hrange := Cert.PreFacts.edge_range (hpre c)
  have h0 := Cert.PreFacts.real_x0 (hpre c)
  have h2 := Cert.PreFacts.real_x2 (hpre c)
  refine (stage1_dense (Vin1 m ρ) c _ _ (fun k => in3 m c (ix1 k)) _
      ((((keeps4 m ρ).trans (keeps5 m ρ)) c main_v44 (by decide)).trans (entry_Ahat m ρ c))
      ((keeps5 m ρ c main_v47 (by decide)).trans ((hF0 m ρ c 3).symm.trans (chain0 m ρ c)))
      (fun k => (host1_v49 (W4 m ρ c) k).trans (congrFun (kept4 m ρ c main_arg3 (by decide)) _))
      (kept5 m ρ c main_arg4 (by decide))
      (Cert.Edges.Ahat_real _) (Cert.RefGcn.isReal_v30 _ _ h0 h2) p q).trans ?_
  exact Eq.symm (Cert.RefGcn.ref_v74 _ _ _ _ _ _ _ (Cert.Edges.v36_toInt _ hrange) (Cert.Edges.v42_toInt _ hrange)
    (Cert.Edges.norm_real _) _ (Cert.Edges.Ahat_apply _ hrange) h0 h2 p q)

theorem chain2 (hpre : Cert.Pre_KernelIdeal m) (c : Dev nD) :
    (dat2 (Vin2 m ρ) c).arrAt 5 cfg2.N
      = val_main_v95 (in0 m c) (in1 m c) (in2 m c) (in3 m c) (in4 m c) (in5 m c) (in6 m c) (in7 m c) := by
  funext i
  obtain ⟨p, q, rfl⟩ : ∃ (p : Fin 4096) (q : Fin 64), i = ix2 p q := ⟨i 0, i 1, eq_ix2 i⟩
  have hrange := Cert.PreFacts.edge_range (hpre c)
  have h0 := Cert.PreFacts.real_x0 (hpre c)
  have h2 := Cert.PreFacts.real_x2 (hpre c)
  have h3 := Cert.PreFacts.real_x3 (hpre c)
  have h4 := Cert.PreFacts.real_x4 (hpre c)
  refine (stage2_dense (Vin2 m ρ) c _ _ (fun k => in5 m c (ix1 k)) _ (fun j => in7 m c (ix1 j))
      ((((((keeps4 m ρ).trans (keeps5 m ρ)).trans (keeps6 m ρ)).trans (keeps7 m ρ)) c main_v44 (by decide)).trans
        (entry_Ahat m ρ c))
      ((keeps7 m ρ c main_v51 (by decide)).trans ((hF1 m ρ c 5).symm.trans (chain1 m ρ hpre c)))
      (fun k => (host2_v52 (W6 m ρ c) k).trans (congrFun (kept6 m ρ c main_arg5 (by decide)) _))
      (kept7 m ρ c main_arg6 (by decide))
      (fun j => (host2_v53 (W6 m ρ c) j).trans (congrFun (kept6 m ρ c main_arg7 (by decide)) _))
      (Cert.Edges.Ahat_real _) (Cert.RefGcn.isReal_v74 _ _ _ _ _ (Cert.Edges.norm_real _) h0 h2 h3 h4) p q).trans ?_
  exact Eq.symm (Cert.RefGcn.ref_v95' _ _ _ _ _ _ _ _ _ _ (Cert.Edges.v36_toInt _ hrange) (Cert.Edges.v42_toInt _ hrange)
    (Cert.Edges.norm_real _) _ (Cert.Edges.Ahat_apply _ hrange) h0 h2 h3 h4 p q)

theorem weight3 (c : Dev nD) : Vin3 m ρ c main_v55 = val_main_v96 (in8 m c) := by
  funext i
  obtain ⟨a, b, rfl⟩ : ∃ (a : Fin 128) (b : Fin 384), i = ix2 a b := ⟨i 0, i 1, eq_ix2 i⟩
  exact (host3_v55 (W8 m ρ c) a b).trans
    ((congrFun (kept8 m ρ c main_arg8 (by decide)) _).trans (Cert.RefLayout.v96_at (in8 m c) a b).symm)

theorem chain3 (c : Dev nD) (i : S4096x384.Idx) :
    ((dat3 (Vin3 m ρ) c).arrAt 3 cfg3.N i : EReal)
      = val_main_v100 (in0 m c) (in8 m c) (in9 m c) i :=
  stage3 (Vin3 m ρ) c _ _ _ (kept9 m ρ c main_arg0 (by decide)) (weight3 m ρ c)
    (fun j => (host3_v56 (W8 m ρ c) j).trans (congrFun (kept8 m ρ c main_arg9 (by decide)) _)) i

/-- Region 3's output read at a column, as the reference's projection there. -/
theorem proj4 (c : Dev nD) (i : S4096x384.Idx) :
    (W10 m ρ c (Proc.devRef .tc main_v57) : S4096x384.Idx → EReal) i
      = val_main_v100 (in0 m c) (in8 m c) (in9 m c) i :=
  (congrFun (hF3 m ρ c 3).symm _).trans (chain3 m ρ c _)

theorem chain4 (hpre : Cert.Pre_KernelIdeal m) (c : Dev nD) (i : S8x4096x16.Idx) :
    ((dat4 (Vin4 m ρ) c).arrAt 3 cfg4.N i : EReal)
      = val_main_v125 (in0 m c) (in8 m c) (in9 m c) i := by
  obtain ⟨h, n, d, rfl⟩ : ∃ (h : Fin 8) (n : Fin 4096) (d : Fin 16), i = ix3 h n d := ⟨i 0, i 1, i 2, eq_ix3 i⟩
  rw [Cert.RefAttn.ref_attn_of_inputs (in0 m c) (in8 m c) (in9 m c) (Cert.PreFacts.real_x0 (hpre c))
    (Cert.PreFacts.real_x8 (hpre c)) (Cert.PreFacts.real_x9 (hpre c)) h n d]
  exact stage4_online (Vin4 m ρ) c _ _ _
    (fun h n d => (host4_v62 (W10 m ρ c) h n d).trans ((proj4 m ρ c _).trans (Cert.RefLayout.v105_at _ _ _ h n d).symm))
    (fun h n d => (host4_v64 (W10 m ρ c) h n d).trans ((proj4 m ρ c _).trans (Cert.RefLayout.v107_at _ _ _ h n d).symm))
    (fun h n d => (host4_v66 (W10 m ρ c) h n d).trans ((proj4 m ρ c _).trans (Cert.RefLayout.v109_at _ _ _ h n d).symm)) h n d

theorem merged5 (hpre : Cert.Pre_KernelIdeal m) (c : Dev nD) (i : S4096x128.Idx) :
    Vin5 m ρ c main_v69 i = val_main_v127 (in0 m c) (in8 m c) (in9 m c) i := by
  obtain ⟨n, q, rfl⟩ : ∃ (n : Fin 4096) (q : Fin 128), i = ix2 n q := ⟨i 0, i 1, eq_ix2 i⟩
  obtain ⟨h, d, rfl⟩ := col_split q
  exact (host5_v69 (W12 m ρ c) h n d).trans
    ((congrFun (hF4 m ρ c 3).symm _).trans ((chain4 m ρ hpre c _).trans
      (Cert.RefLayout.v127_at (in0 m c) (in8 m c) (in9 m c) h n d).symm))

theorem weight5 (c : Dev nD) : Vin5 m ρ c main_v70 = val_main_v128 (in10 m c) := by
  funext i
  obtain ⟨a, b, rfl⟩ : ∃ (a : Fin 128) (b : Fin 128), i = ix2 a b := ⟨i 0, i 1, eq_ix2 i⟩
  exact (host5_v70 (W12 m ρ c) a b).trans
    ((congrFun (kept12 m ρ c main_arg10 (by decide)) _).trans (Cert.RefLayout.v128_at (in10 m c) a b).symm)

theorem chain5 (hpre : Cert.Pre_KernelIdeal m) (c : Dev nD) :
    (dat5 (Vin5 m ρ) c).arrAt 5 cfg5.N
      = val_main_v136 (in0 m c) (in8 m c) (in9 m c) (in10 m c) (in11 m c) (in12 m c) (in13 m c) :=
  stage5 (Vin5 m ρ) (in0 m c) (in8 m c) (in9 m c) (in10 m c) (in11 m c) (in12 m c) (in13 m c) c
    (merged5 m ρ hpre c) (weight5 m ρ c)
    (fun j => (host5_v71 (W12 m ρ c) j).trans (congrFun (kept12 m ρ c main_arg11 (by decide)) _))
    (kept13 m ρ c main_arg12 (by decide))
    (fun j => (host5_v72 (W12 m ρ c) j).trans (congrFun (kept12 m ρ c main_arg13 (by decide)) _))

theorem chain6 (hpre : Cert.Pre_KernelIdeal m) (c : Dev nD) :
    (dat6 (Vin6 m ρ) c).arrAt 2 cfg6.N
      = val_main_v138 (in0 m c) (in1 m c) (in2 m c) (in3 m c) (in4 m c) (in5 m c) (in6 m c) (in7 m c)
          (in8 m c) (in9 m c) (in10 m c) (in11 m c) (in12 m c) (in13 m c) :=
  stage6 (Vin6 m ρ) (in0 m c) (in1 m c) (in2 m c) (in3 m c) (in4 m c) (in5 m c) (in6 m c) (in7 m c)
    (in8 m c) (in9 m c) (in10 m c) (in11 m c) (in12 m c) (in13 m c) c
    (((((((((keeps9 m ρ).trans (keeps10 m ρ)).trans (keeps11 m ρ)).trans (keeps12 m ρ)).trans (keeps13 m ρ)).trans
      (keeps14 m ρ)) c main_v54 (by decide)).trans (hF2 m ρ c 5).symm).trans (chain2 m ρ hpre c))
    ((hF5 m ρ c 5).symm.trans (chain5 m ρ hpre c))

theorem kernel_result (hpre : Cert.Pre_KernelIdeal m) (c : Dev nD) :
    W15 m ρ c (Proc.devRef .tc main_v74)
      = val_main_v138 (in0 m c) (in1 m c) (in2 m c) (in3 m c) (in4 m c) (in5 m c) (in6 m c) (in7 m c)
          (in8 m c) (in9 m c) (in10 m c) (in11 m c) (in12 m c) (in13 m c) :=
  (result_eq m ρ c).trans (chain6 m ρ hpre c)

end Cert.KernelIdeal.Hand

end
-- ==== Proof.Algebraic.lean ====
import proofs.«410974_j45672682225711_2_alg».proof.Defs
import proofs.«410974_j45672682225711_2_alg».proof.Proof.Gen.KernelIdeal
import proofs.«410974_j45672682225711_2_alg».proof.Proof.Gen.ReferenceIdeal
import proofs.«410974_j45672682225711_2_alg».proof.Proof.Gen.Pre_finite_inputs
import proofs.«410974_j45672682225711_2_alg».proof.Proof.KI.RunValue
import proofs.«410974_j45672682225711_2_alg».proof.Proof.KI.Chain
import proofs.«410974_j45672682225711_2_alg».proof.Proof.RefFrame

noncomputable section

namespace Cert.Assembly

open Idealize.ShloMosaic Idealize.SL.Sem

theorem algebraic : Cert.algebraic_KernelIdeal_ReferenceIdeal := by
  intro m g m' g' hpre hagree
  refine ⟨fun c => Cert.KernelIdeal.Hand.W15 (F := Ideal) m g c (Proc.devRef .tc Cert.KernelIdeal.main_v74), Cert.KernelIdeal.Hand.run_value (F := Ideal) m g, ?_⟩
  refine (θ_run (Cert.ReferenceIdeal.defs (F := Ideal)) _ _).mono (fun _ h c =>
    ⟨((h c).1.trans (Cert.ReferenceIdeal.Read.val_main_v138_eq (F := Ideal) m' c)).trans ?_, (h c).2⟩)
    (Cert.ReferenceIdeal.Value.run (F := Ideal) m' g')
  obtain ⟨h0, h1, h2, h3, h4, h5, h6, h7, h8, h9, h10, h11, h12, h13⟩ := hagree c
  rw [h0, h1, h2, h3, h4, h5, h6, h7, h8, h9, h10, h11, h12, h13]
  exact (Cert.KernelIdeal.Hand.kernel_result m g hpre c).symm

end Cert.Assembly

end
-- ==== Proof.lean ====
/- Two graph-convolution layers joined with eight-head softmax attention over 4096 nodes.
   Row i of the dense product Â·h is Σ_j Â[i,j]·h[j]; writing Â[i,j] as its sum over the edges from j to i and exchanging
   the two finite sums gives the edge-wise sum Σ_{e into i} norm(e)·h[r(e)]: an identity of reals, so it needs finite inputs.
   The attention is accumulated over key blocks with a running maximum m, normalizer and weighted sum, each rescaled by
   exp(m_old − m_new); since exp(a)·exp(b) = exp(a + b) and the normalizer is positive, the final quotient is softmax(s)·v. -/
import proofs.«410974_j45672682225711_2_alg».proof.Defs
import proofs.«410974_j45672682225711_2_alg».proof.Proof.Gen.Kernel
import proofs.«410974_j45672682225711_2_alg».proof.Proof.Gen.KernelIdeal
import proofs.«410974_j45672682225711_2_alg».proof.Proof.Gen.ReferenceIdeal
import proofs.«410974_j45672682225711_2_alg».proof.Proof.Gen.Pre_finite_inputs
import proofs.«410974_j45672682225711_2_alg».proof.Proof.KB.Run
import proofs.«410974_j45672682225711_2_alg».proof.Proof.KI.Run
import proofs.«410974_j45672682225711_2_alg».proof.Proof.RefFrame
import proofs.«410974_j45672682225711_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.RefFrame.frame_ref, Cert.RefFrame.preserves, Cert.Assembly.algebraic⟩

end Cert.Proof

end
